-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v10)) (v2 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_v4_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v71) = v1 c
          ∧ r.2.mem ((c.tc : Thread Cert.ReferenceIdeal.nD Cert.ReferenceIdeal.τ).loc Cert.ReferenceIdeal.main_v23) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1 : Shape := ⟨1, ![1]⟩
abbrev S1x1x2048 : Shape := ⟨3, ![1, 1, 2048]⟩
abbrev S20x2048 : Shape := ⟨2, ![20, 2048]⟩
abbrev S50257x2048 : Shape := ⟨2, ![50257, 2048]⟩
abbrev S20x4096 : Shape := ⟨2, ![20, 4096]⟩
abbrev S20 : Shape := ⟨1, ![20]⟩
abbrev S2048x4096 : Shape := ⟨2, ![2048, 4096]⟩
abbrev S2048 : Shape := ⟨1, ![2048]⟩
abbrev S6144x2048 : Shape := ⟨2, ![6144, 2048]⟩
abbrev S6144 : Shape := ⟨1, ![6144]⟩
abbrev S50257 : Shape := ⟨1, ![50257]⟩
abbrev S_ : Shape := ⟨0, ![]⟩

class Facts : Prop where
  bcast_S_S1x1x2048 : S_.BroadcastsInDim S1x1x2048 (![] : Fin 0 → Fin S1x1x2048.rank)
  reducesTo_S1x1x2048_S_d0_1_2 : S1x1x2048.ReducesTo [0, 1, 2] S_
  h_S_ : 0 < S_.numel
  bcast_S_S20x2048 : S_.BroadcastsInDim S20x2048 (![] : Fin 0 → Fin S20x2048.rank)
  reducesTo_S20x2048_S_d0_1 : S20x2048.ReducesTo [0, 1] S_
  bcast_S_S50257x2048 : S_.BroadcastsInDim S50257x2048 (![] : Fin 0 → Fin S50257x2048.rank)
  reducesTo_S50257x2048_S_d0_1 : S50257x2048.ReducesTo [0, 1] S_
  bcast_S_S20x4096 : S_.BroadcastsInDim S20x4096 (![] : Fin 0 → Fin S20x4096.rank)
  reducesTo_S20x4096_S_d0_1 : S20x4096.ReducesTo [0, 1] S_
  bcast_S_S20 : S_.BroadcastsInDim S20 (![] : Fin 0 → Fin S20.rank)
  reducesTo_S20_S_d0 : S20.ReducesTo [0] S_
  bcast_S_S2048x4096 : S_.BroadcastsInDim S2048x4096 (![] : Fin 0 → Fin S2048x4096.rank)
  reducesTo_S2048x4096_S_d0_1 : S2048x4096.ReducesTo [0, 1] S_
  bcast_S_S2048 : S_.BroadcastsInDim S2048 (![] : Fin 0 → Fin S2048.rank)
  reducesTo_S2048_S_d0 : S2048.ReducesTo [0] S_
  bcast_S_S6144x2048 : S_.BroadcastsInDim S6144x2048 (![] : Fin 0 → Fin S6144x2048.rank)
  reducesTo_S6144x2048_S_d0_1 : S6144x2048.ReducesTo [0, 1] S_
  bcast_S_S6144 : S_.BroadcastsInDim S6144 (![] : Fin 0 → Fin S6144.rank)
  reducesTo_S6144_S_d0 : S6144.ReducesTo [0] S_
  bcast_S_S50257 : S_.BroadcastsInDim S50257 (![] : Fin 0 → Fin S50257.rank)
  reducesTo_S50257_S_d0 : S50257.ReducesTo [0] S_
  bcast_S_S1 : S_.BroadcastsInDim S1 (![] : Fin 0 → Fin S1.rank)
  reducesTo_S1_S_d0 : S1.ReducesTo [0] S_

variable [Facts]

def fn_part4 {F : FTy → Type} [FloatOps F] (main_arg0 : IVec S1 32) (main_v67 : IVec S_ 1) : IVec S_ 1 :=
  let main_c_26 : IVec S_ 32 := constantI S_ 32 50257#32
  let main_v68 : IVec S1 32 := broadcastInDim S1 ![] bcast_S_S1 main_c_26
  let main_v69 : IVec S1 1 := cmpi .slt main_arg0 main_v68
  let main_c_27 : IVec S_ 1 := constantI S_ 1 1#1
  let main_v70 : IVec S_ 1 := (fun x v => Host.reduce IntOp.andi x v reducesTo_S1_S_d0 h_S_) main_v69 main_c_27
  let main_v71 : IVec S_ 1 := andi main_v67 main_v70
  main_v71

def fn_part3 {F : FTy → Type} [FloatOps F] (main_arg0 : IVec S1 32) (main_arg12 : FVec F S50257x2048 .f32) (main_arg13 : FVec F S50257 .f32) (main_v48 : IVec S_ 1) (main_v49 : FVec F S6144 .f32) (main_v50 : FVec F S6144 .f32) : IVec S_ 1 :=
  let main_v51 : IVec S6144 1 := cmpf .olt main_v49 main_v50
  let main_c_19 : IVec S_ 1 := constantI S_ 1 1#1
  let main_v52 : IVec S_ 1 := (fun x v => Host.reduce IntOp.andi x v reducesTo_S6144_S_d0 h_S_) main_v51 main_c_19
  let main_v53 : IVec S_ 1 := andi main_v48 main_v52
  let main_v54 : FVec F S50257x2048 .f32 := Host.absf main_arg12
  let main_cst_20 : FVec F S_ .f32 := constant S_ .f32 0x7F800000#32
  let main_v55 : FVec F S50257x2048 .f32 := broadcastInDim S50257x2048 ![] bcast_S_S50257x2048 main_cst_20
  let main_v56 : IVec S50257x2048 1 := cmpf .olt main_v54 main_v55
  let main_c_21 : IVec S_ 1 := constantI S_ 1 1#1
  let main_v57 : IVec S_ 1 := (fun x v => Host.reduce IntOp.andi x v reducesTo_S50257x2048_S_d0_1 h_S_) main_v56 main_c_21
  let main_v58 : IVec S_ 1 := andi main_v53 main_v57
  let main_v59 : FVec F S50257 .f32 := Host.absf main_arg13
  let main_cst_22 : FVec F S_ .f32 := constant S_ .f32 0x7F800000#32
  let main_v60 : FVec F S50257 .f32 := broadcastInDim S50257 ![] bcast_S_S50257 main_cst_22
  let main_v61 : IVec S50257 1 := cmpf .olt main_v59 main_v60
  let main_c_23 : IVec S_ 1 := constantI S_ 1 1#1
  let main_v62 : IVec S_ 1 := (fun x v => Host.reduce IntOp.andi x v reducesTo_S50257_S_d0 h_S_) main_v61 main_c_23
  let main_v63 : IVec S_ 1 := andi main_v58 main_v62
  let main_c_24 : IVec S_ 32 := constantI S_ 32 4294917039#32
  let main_v64 : IVec S1 32 := broadcastInDim S1 ![] bcast_S_S1 main_c_24
  let main_v65 : IVec S1 1 := cmpi .sge main_arg0 main_v64
  let main_c_25 : IVec S_ 1 := constantI S_ 1 1#1
  let main_v66 : IVec S_ 1 := (fun x v => Host.reduce IntOp.andi x v reducesTo_S1_S_d0 h_S_) main_v65 main_c_25
  let main_v67 : IVec S_ 1 := andi main_v63 main_v66
  fn_part4 (F := F) main_arg0 main_v67

def fn_part2 {F : FTy → Type} [FloatOps F] (main_arg0 : IVec S1 32) (main_arg8 : FVec F S6144x2048 .f32) (main_arg9 : FVec F S6144x2048 .f32) (main_arg10 : FVec F S6144 .f32) (main_arg11 : FVec F S6144 .f32) (main_arg12 : FVec F S50257x2048 .f32) (main_arg13 : FVec F S50257 .f32) (main_v33 : IVec S_ 1) : IVec S_ 1 :=
  let main_v34 : FVec F S6144x2048 .f32 := Host.absf main_arg8
  let main_cst_12 : FVec F S_ .f32 := constant S_ .f32 0x7F800000#32
  let main_v35 : FVec F S6144x2048 .f32 := broadcastInDim S6144x2048 ![] bcast_S_S6144x2048 main_cst_12
  let main_v36 : IVec S6144x2048 1 := cmpf .olt main_v34 main_v35
  let main_c_13 : IVec S_ 1 := constantI S_ 1 1#1
  let main_v37 : IVec S_ 1 := (fun x v => Host.reduce IntOp.andi x v reducesTo_S6144x2048_S_d0_1 h_S_) main_v36 main_c_13
  let main_v38 : IVec S_ 1 := andi main_v33 main_v37
  let main_v39 : FVec F S6144x2048 .f32 := Host.absf main_arg9
  let main_cst_14 : FVec F S_ .f32 := constant S_ .f32 0x7F800000#32
  let main_v40 : FVec F S6144x2048 .f32 := broadcastInDim S6144x2048 ![] bcast_S_S6144x2048 main_cst_14
  let main_v41 : IVec S6144x2048 1 := cmpf .olt main_v39 main_v40
  let main_c_15 : IVec S_ 1 := constantI S_ 1 1#1
  let main_v42 : IVec S_ 1 := (fun x v => Host.reduce IntOp.andi x v reducesTo_S6144x2048_S_d0_1 h_S_) main_v41 main_c_15
  let main_v43 : IVec S_ 1 := andi main_v38 main_v42
  let main_v44 : FVec F S6144 .f32 := Host.absf main_arg10
  let main_cst_16 : FVec F S_ .f32 := constant S_ .f32 0x7F800000#32
  let main_v45 : FVec F S6144 .f32 := broadcastInDim S6144 ![] bcast_S_S6144 main_cst_16
  let main_v46 : IVec S6144 1 := cmpf .olt main_v44 main_v45
  let main_c_17 : IVec S_ 1 := constantI S_ 1 1#1
  let main_v47 : IVec S_ 1 := (fun x v => Host.reduce IntOp.andi x v reducesTo_S6144_S_d0 h_S_) main_v46 main_c_17
  let main_v48 : IVec S_ 1 := andi main_v43 main_v47
  let main_v49 : FVec F S6144 .f32 := Host.absf main_arg11
  let main_cst_18 : FVec F S_ .f32 := constant S_ .f32 0x7F800000#32
  let main_v50 : FVec F S6144 .f32 := broadcastInDim S6144 ![] bcast_S_S6144 main_cst_18
  fn_part3 (F := F) main_arg0 main_arg12 main_arg13 main_v48 main_v49 main_v50

def fn_part1 {F : FTy → Type} [FloatOps F] (main_arg0 : IVec S1 32) (main_arg5 : FVec F S20 .f32) (main_arg6 : FVec F S2048x4096 .f32) (main_arg7 : FVec F S2048 .f32) (main_arg8 : FVec F S6144x2048 .f32) (main_arg9 : FVec F S6144x2048 .f32) (main_arg10 : FVec F S6144 .f32) (main_arg11 : FVec F S6144 .f32) (main_arg12 : FVec F S50257x2048 .f32) (main_arg13 : FVec F S50257 .f32) (main_v13 : IVec S_ 1) (main_v16 : IVec S20x4096 1) : IVec S_ 1 :=
  let main_c_5 : IVec S_ 1 := constantI S_ 1 1#1
  let main_v17 : IVec S_ 1 := (fun x v => Host.reduce IntOp.andi x v reducesTo_S20x4096_S_d0_1 h_S_) main_v16 main_c_5
  let main_v18 : IVec S_ 1 := andi main_v13 main_v17
  let main_v19 : FVec F S20 .f32 := Host.absf main_arg5
  let main_cst_6 : FVec F S_ .f32 := constant S_ .f32 0x7F800000#32
  let main_v20 : FVec F S20 .f32 := broadcastInDim S20 ![] bcast_S_S20 main_cst_6
  let main_v21 : IVec S20 1 := cmpf .olt main_v19 main_v20
  let main_c_7 : IVec S_ 1 := constantI S_ 1 1#1
  let main_v22 : IVec S_ 1 := (fun x v => Host.reduce IntOp.andi x v reducesTo_S20_S_d0 h_S_) main_v21 main_c_7
  let main_v23 : IVec S_ 1 := andi main_v18 main_v22
  let main_v24 : FVec F S2048x4096 .f32 := Host.absf main_arg6
  let main_cst_8 : FVec F S_ .f32 := constant S_ .f32 0x7F800000#32
  let main_v25 : FVec F S2048x4096 .f32 := broadcastInDim S2048x4096 ![] bcast_S_S2048x4096 main_cst_8
  let main_v26 : IVec S2048x4096 1 := cmpf .olt main_v24 main_v25
  let main_c_9 : IVec S_ 1 := constantI S_ 1 1#1
  let main_v27 : IVec S_ 1 := (fun x v => Host.reduce IntOp.andi x v reducesTo_S2048x4096_S_d0_1 h_S_) main_v26 main_c_9
  let main_v28 : IVec S_ 1 := andi main_v23 main_v27
  let main_v29 : FVec F S2048 .f32 := Host.absf main_arg7
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg0 main_arg8 main_arg9 main_arg10 main_arg11 main_arg12 main_arg13 main_v33

def fn {F : FTy → Type} [FloatOps F] (main_arg0 : IVec S1 32) (main_arg1 : FVec F S1x1x2048 .f32) (main_arg2 : FVec F S20x2048 .f32) (main_arg3 : FVec F S50257x2048 .f32) (main_arg4 : FVec F S20x4096 .f32) (main_arg5 : FVec F S20 .f32) (main_arg6 : FVec F S2048x4096 .f32) (main_arg7 : FVec F S2048 .f32) (main_arg8 : FVec F S6144x2048 .f32) (main_arg9 : FVec F S6144x2048 .f32) (main_arg10 : FVec F S6144 .f32) (main_arg11 : FVec F S6144 .f32) (main_arg12 : FVec F S50257x2048 .f32) (main_arg13 : FVec F S50257 .f32) : IVec S_ 1 :=
  let main_v0 : FVec F S1x1x2048 .f32 := Host.absf main_arg1
  let main_cst : FVec F S_ .f32 := constant S_ .f32 0x7F800000#32
  let main_v1 : FVec F S1x1x2048 .f32 := broadcastInDim S1x1x2048 ![] bcast_S_S1x1x2048 main_cst
  let main_v2 : IVec S1x1x2048 1 := cmpf .olt main_v0 main_v1
  let main_c : IVec S_ 1 := constantI S_ 1 1#1
  let main_v3 : IVec S_ 1 := (fun x v => Host.reduce IntOp.andi x v reducesTo_S1x1x2048_S_d0_1_2 h_S_) main_v2 main_c
  let main_v4 : FVec F S20x2048 .f32 := Host.absf main_arg2
  let main_cst_0 : FVec F S_ .f32 := constant S_ .f32 0x7F800000#32
  let main_v5 : FVec F S20x2048 .f32 := broadcastInDim S20x2048 ![] bcast_S_S20x2048 main_cst_0
  let main_v6 : IVec S20x2048 1 := cmpf .olt main_v4 main_v5
  let main_c_1 : IVec S_ 1 := constantI S_ 1 1#1
  let main_v7 : IVec S_ 1 := (fun x v => Host.reduce IntOp.andi x v reducesTo_S20x2048_S_d0_1 h_S_) main_v6 main_c_1
  let main_v8 : IVec S_ 1 := andi main_v3 main_v7
  let main_v9 : FVec F S50257x2048 .f32 := Host.absf main_arg3
  let main_cst_2 : FVec F S_ .f32 := constant S_ .f32 0x7F800000#32
  let main_v10 : FVec F S50257x2048 .f32 := broadcastInDim S50257x2048 ![] bcast_S_S50257x2048 main_cst_2
  let main_v11 : IVec S50257x2048 1 := cmpf .olt main_v9 main_v10
  let main_c_3 : IVec S_ 1 := constantI S_ 1 1#1
  let main_v12 : IVec S_ 1 := (fun x v => Host.reduce IntOp.andi x v reducesTo_S50257x2048_S_d0_1 h_S_) main_v11 main_c_3
  let main_v13 : IVec S_ 1 := andi main_v8 main_v12
  let main_v14 : FVec F S20x4096 .f32 := Host.absf main_arg4
  let main_cst_4 : FVec F S_ .f32 := constant S_ .f32 0x7F800000#32
  let main_v15 : FVec F S20x4096 .f32 := broadcastInDim S20x4096 ![] bcast_S_S20x4096 main_cst_4
  let main_v16 : IVec S20x4096 1 := cmpf .olt main_v14 main_v15
  fn_part1 (F := F) main_arg0 main_arg5 main_arg6 main_arg7 main_arg8 main_arg9 main_arg10 main_arg11 main_arg12 main_arg13 main_v13 main_v16
-- ==== Kernel.lean ====
abbrev S1 : Shape := ⟨1, ![1]⟩
abbrev S1x1x2048 : Shape := ⟨3, ![1, 1, 2048]⟩
abbrev S20x2048 : Shape := ⟨2, ![20, 2048]⟩
abbrev S50257x2048 : Shape := ⟨2, ![50257, 2048]⟩
abbrev S20x4096 : Shape := ⟨2, ![20, 4096]⟩
abbrev S20 : Shape := ⟨1, ![20]⟩
abbrev S2048x4096 : Shape := ⟨2, ![2048, 4096]⟩
abbrev S2048 : Shape := ⟨1, ![2048]⟩
abbrev S6144x2048 : Shape := ⟨2, ![6144, 2048]⟩
abbrev S6144 : Shape := ⟨1, ![6144]⟩
abbrev S50257 : Shape := ⟨1, ![50257]⟩
abbrev S_ : Shape := ⟨0, ![]⟩
abbrev S1x1 : Shape := ⟨2, ![1, 1]⟩
abbrev S1x2048 : Shape := ⟨2, ![1, 2048]⟩
abbrev S1x20 : Shape := ⟨2, ![1, 20]⟩
abbrev S256x2048 : Shape := ⟨2, ![256, 2048]⟩
abbrev S1x256 : Shape := ⟨2, ![1, 256]⟩
abbrev S2048x20 : Shape := ⟨2, ![2048, 20]⟩
abbrev S2048x256 : Shape := ⟨2, ![2048, 256]⟩
abbrev S1x6144 : Shape := ⟨2, ![1, 6144]⟩
abbrev S1x50257 : Shape := ⟨2, ![1, 50257]⟩
abbrev S2048x2048 : Shape := ⟨2, ![2048, 2048]⟩

abbrev nBuf : Space → Nat
  | .hbm => 47
  | .vmem => 51
  | .smem => 0
  | _ => 0

abbrev bufTy : (tb : Table) → Fin (tcTables nBuf tb) → BufTy
  | .hbm, ⟨0, _⟩ => ⟨S1, .i32⟩
  | .hbm, ⟨1, _⟩ => ⟨S1x1x2048, .f32⟩
  | .hbm, ⟨2, _⟩ => ⟨S20x2048, .f32⟩
  | .hbm, ⟨3, _⟩ => ⟨S50257x2048, .f32⟩
  | .hbm, ⟨4, _⟩ => ⟨S20x4096, .f32⟩
  | .hbm, ⟨5, _⟩ => ⟨S20, .f32⟩
  | .hbm, ⟨6, _⟩ => ⟨S2048x4096, .f32⟩
  | .hbm, ⟨7, _⟩ => ⟨S2048, .f32⟩
  | .hbm, ⟨8, _⟩ => ⟨S6144x2048, .f32⟩
  | .hbm, ⟨9, _⟩ => ⟨S6144x2048, .f32⟩
  | .hbm, ⟨10, _⟩ => ⟨S6144, .f32⟩
  | .hbm, ⟨11, _⟩ => ⟨S6144, .f32⟩
  | .hbm, ⟨12, _⟩ => ⟨S50257x2048, .f32⟩
  | .hbm, ⟨13, _⟩ => ⟨S50257, .f32⟩
  | .hbm, ⟨14, _⟩ => ⟨S_, .i32⟩
  | .hbm, ⟨15, _⟩ => ⟨S1, .i32⟩
  | .hbm, ⟨16, _⟩ => ⟨S1, .i1⟩
  | .hbm, ⟨17, _⟩ => ⟨S_, .i32⟩
  | .hbm, ⟨18, _⟩ => ⟨S1, .i32⟩
  | .hbm, ⟨19, _⟩ => ⟨S1, .i32⟩
  | .hbm, ⟨20, _⟩ => ⟨S1, .i32⟩
  | .hbm, ⟨21, _⟩ => ⟨S1x1, .i32⟩
  | .hbm, ⟨22, _⟩ => ⟨S1, .i32⟩
  | .hbm, ⟨23, _⟩ => ⟨S_, .i32⟩
  | .hbm, ⟨24, _⟩ => ⟨S1x1, .i32⟩
  | .hbm, ⟨25, _⟩ => ⟨S1x1, .i1⟩
  | .hbm, ⟨26, _⟩ => ⟨S1x1, .i32⟩
  | .hbm, ⟨27, _⟩ => ⟨S1x1, .i1⟩
  | .hbm, ⟨28, _⟩ => ⟨S1x1, .i1⟩
  | .hbm, ⟨29, _⟩ => ⟨S_, .i1⟩
  | .hbm, ⟨30, _⟩ => ⟨S1, .i1⟩
  | .hbm, ⟨31, _⟩ => ⟨S1x2048, .f32⟩
  | .hbm, ⟨32, _⟩ => ⟨S1x2048, .i1⟩
  | .hbm, ⟨33, _⟩ => ⟨S_, .f32⟩
  | .hbm, ⟨34, _⟩ => ⟨S1x2048, .f32⟩
  | .hbm, ⟨35, _⟩ => ⟨S1x2048, .f32⟩
  | .hbm, ⟨36, _⟩ => ⟨S1x2048, .f32⟩
  | .hbm, ⟨37, _⟩ => ⟨S1x20, .f32⟩
  | .hbm, ⟨38, _⟩ => ⟨S1x2048, .f32⟩
  | .hbm, ⟨39, _⟩ => ⟨S1x2048, .f32⟩
  | .hbm, ⟨40, _⟩ => ⟨S1x20, .f32⟩
  | .hbm, ⟨41, _⟩ => ⟨S1x6144, .f32⟩
  | .hbm, ⟨42, _⟩ => ⟨S1x6144, .f32⟩
  | .hbm, ⟨43, _⟩ => ⟨S1x2048, .f32⟩
  | .hbm, ⟨44, _⟩ => ⟨S1x50257, .f32⟩
  | .hbm, ⟨45, _⟩ => ⟨S1x50257, .f32⟩
  | .hbm, ⟨46, _⟩ => ⟨S1x1x2048, .f32⟩
  | .local _ .vmem, ⟨0, _⟩ => ⟨S1x2048, .f32⟩
  | .local _ .vmem, ⟨1, _⟩ => ⟨S1x2048, .f32⟩
  | .local _ .vmem, ⟨2, _⟩ => ⟨S20x2048, .f32⟩
  | .local _ .vmem, ⟨3, _⟩ => ⟨S20x2048, .f32⟩
  | .local _ .vmem, ⟨4, _⟩ => ⟨S1x20, .f32⟩
  | .local _ .vmem, ⟨5, _⟩ => ⟨S20x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S1x20, .f32⟩
  | .local _ .vmem, ⟨15, _⟩ => ⟨S1x2048, .f32⟩
  | .local _ .vmem, ⟨16, _⟩ => ⟨S1x2048, .f32⟩
  | .local _ .vmem, ⟨17, _⟩ => ⟨S1x2048, .f32⟩
  | .local _ .vmem, ⟨18, _⟩ => ⟨S256x2048, .f32⟩
  | .local _ .vmem, ⟨19, _⟩ => ⟨S256x2048, .f32⟩
  | .local _ .vmem, ⟨20, _⟩ => ⟨S256x2048, .f32⟩
  | .local _ .vmem, ⟨21, _⟩ => ⟨S256x2048, .f32⟩
  | .local _ .vmem, ⟨22, _⟩ => ⟨S256x2048, .f32⟩
  | .local _ .vmem, ⟨23, _⟩ => ⟨S256x2048, .f32⟩
  | .local _ .vmem, ⟨24, _⟩ => ⟨S256x2048, .f32⟩
  | .local _ .vmem, ⟨25, _⟩ => ⟨S256x2048, .f32⟩
  | .local _ .vmem, ⟨26, _⟩ => ⟨S256x2048, .f32⟩
  | .local _ .vmem, ⟨27, _⟩ => ⟨S256x2048, .f32⟩
  | .local _ .vmem, ⟨28, _⟩ => ⟨S256x2048, .f32⟩
  | .local _ .vmem, ⟨29, _⟩ => ⟨S256x2048, .f32⟩
  | .local _ .vmem, ⟨30, _⟩ => ⟨S1x256, .f32⟩
  | .local _ .vmem, ⟨31, _⟩ => ⟨S1x256, .f32⟩
  | .local _ .vmem, ⟨32, _⟩ => ⟨S1x256, .f32⟩
  | .local _ .vmem, ⟨33, _⟩ => ⟨S1x256, .f32⟩
  | .local _ .vmem, ⟨34, _⟩ => ⟨S1x256, .f32⟩
  | .local _ .vmem, ⟨35, _⟩ => ⟨S1x256, .f32⟩
  | .local _ .vmem, ⟨36, _⟩ => ⟨S1x256, .f32⟩
  | .local _ .vmem, ⟨37, _⟩ => ⟨S1x256, .f32⟩
  | .local _ .vmem, ⟨38, _⟩ => ⟨S1x256, .f32⟩
  | .local _ .vmem, ⟨39, _⟩ => ⟨S1x256, .f32⟩
  | .local _ .vmem, ⟨40, _⟩ => ⟨S1x256, .f32⟩
  | .local _ .vmem, ⟨41, _⟩ => ⟨S1x256, .f32⟩
  | .local _ .vmem, ⟨42, _⟩ => ⟨S1x256, .f32⟩
  | .local _ .vmem, ⟨43, _⟩ => ⟨S1x256, .f32⟩
  | .local _ .vmem, ⟨44, _⟩ => ⟨S1x2048, .f32⟩
  | .local _ .vmem, ⟨45, _⟩ => ⟨S2048x2048, .f32⟩
  | .local _ .vmem, ⟨46, _⟩ => ⟨S2048x2048, .f32⟩
  | .local _ .vmem, ⟨47, _⟩ => ⟨S1x2048, .f32⟩
  | .local _ .vmem, ⟨48, _⟩ => ⟨S1x2048, .f32⟩
  | .local _ .vmem, ⟨49, _⟩ => ⟨S1x2048, .f32⟩
  | .local _ .vmem, ⟨50, _⟩ => ⟨S1x2048, .f32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_c_3 : Ref sig .tc := ⟨.hbm, 29, rfl⟩
abbrev main_call0_v11 : Ref sig .tc := ⟨.hbm, 30, rfl⟩
abbrev main_call0_v12 : Ref sig .tc := ⟨.hbm, 31, rfl⟩
abbrev main_call0_v13 : Ref sig .tc := ⟨.hbm, 32, rfl⟩
abbrev main_call0_cst : Ref sig .tc := ⟨.hbm, 33, rfl⟩
abbrev main_call0_v14 : Ref sig .tc := ⟨.hbm, 34, rfl⟩
abbrev main_v0 : Ref sig .tc := ⟨.hbm, 35, rfl⟩
abbrev main_v1 : Ref sig .tc := ⟨.hbm, 36, rfl⟩
abbrev main_v2 : Ref sig .tc := ⟨.hbm, 37, rfl⟩
abbrev main_v3 : Ref sig .tc := ⟨.hbm, 38, rfl⟩
abbrev main_v4_0 : Ref sig .tc := ⟨.hbm, 39, rfl⟩
abbrev main_v4_1 : Ref sig .tc := ⟨.hbm, 40, rfl⟩
abbrev main_v5 : Ref sig .tc := ⟨.hbm, 41, rfl⟩
abbrev main_v6 : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_scratch0 : Ref sig .tc := ⟨.vmem, 15, rfl⟩
abbrev cc1_stg0_0 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg6_1 : Ref sig .tc := ⟨.vmem, 27, rfl⟩
abbrev cc1_stg7_0 : Ref sig .tc := ⟨.vmem, 28, rfl⟩
abbrev cc1_stg7_1 : Ref sig .tc := ⟨.vmem, 29, rfl⟩
abbrev cc1_stg8_0 : Ref sig .tc := ⟨.vmem, 30, rfl⟩
abbrev cc1_stg8_1 : Ref sig .tc := ⟨.vmem, 31, rfl⟩
abbrev cc1_stg9_0 : Ref sig .tc := ⟨.vmem, 32, rfl⟩
abbrev cc1_stg9_1 : Ref sig .tc := ⟨.vmem, 33, rfl⟩
abbrev cc1_stg10_0 : Ref sig .tc := ⟨.vmem, 34, rfl⟩
abbrev cc1_stg10_1 : Ref sig .tc := ⟨.vmem, 35, rfl⟩
abbrev cc1_stg11_0 : Ref sig .tc := ⟨.vmem, 36, rfl⟩
abbrev cc1_stg11_1 : Ref sig .tc := ⟨.vmem, 37, rfl⟩
abbrev cc1_stg12_0 : Ref sig .tc := ⟨.vmem, 38, rfl⟩
abbrev cc1_stg12_1 : Ref sig .tc := ⟨.vmem, 39, rfl⟩
abbrev cc1_stg13_0 : Ref sig .tc := ⟨.vmem, 40, rfl⟩
abbrev cc1_stg13_1 : Ref sig .tc := ⟨.vmem, 41, rfl⟩
abbrev cc1_stg14_0 : Ref sig .tc := ⟨.vmem, 42, rfl⟩
abbrev cc1_stg14_1 : Ref sig .tc := ⟨.vmem, 43, rfl⟩
abbrev cc2_stg0_0 : Ref sig .tc := ⟨.vmem, 44, rfl⟩
abbrev cc2_stg1_0 : Ref sig .tc := ⟨.vmem, 45, rfl⟩
abbrev cc2_stg1_1 : Ref sig .tc := ⟨.vmem, 46, rfl⟩
abbrev cc2_stg2_0 : Ref sig .tc := ⟨.vmem, 47, rfl⟩
abbrev cc2_stg2_1 : Ref sig .tc := ⟨.vmem, 48, rfl⟩
abbrev cc2_stg3_0 : Ref sig .tc := ⟨.vmem, 49, rfl⟩
abbrev cc2_stg3_1 : Ref sig .tc := ⟨.vmem, 50, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem6_1 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc1_sem0_0 : DmaSem sig := 15
abbrev cc1_sem1_0 : DmaSem sig := 16
abbrev cc1_sem2_0 : DmaSem sig := 17
abbrev cc1_sem2_1 : DmaSem sig := 18
abbrev cc1_sem3_0 : DmaSem sig := 19
abbrev cc1_sem3_1 : DmaSem sig := 20
abbrev cc1_sem4_0 : DmaSem sig := 21
abbrev cc1_sem4_1 : DmaSem sig := 22
abbrev cc1_sem5_0 : DmaSem sig := 23
abbrev cc1_sem5_1 : DmaSem sig := 24
abbrev cc1_sem6_0 : DmaSem sig := 25
abbrev cc1_sem6_1 : DmaSem sig := 26
abbrev cc1_sem7_0 : DmaSem sig := 27
abbrev cc1_sem7_1 : DmaSem sig := 28
abbrev cc1_sem8_0 : DmaSem sig := 29
abbrev cc1_sem8_1 : DmaSem sig := 30
abbrev cc1_sem9_0 : DmaSem sig := 31
abbrev cc1_sem9_1 : DmaSem sig := 32
abbrev cc1_sem10_0 : DmaSem sig := 33
abbrev cc1_sem10_1 : DmaSem sig := 34
abbrev cc1_sem11_0 : DmaSem sig := 35
abbrev cc1_sem11_1 : DmaSem sig := 36
abbrev cc1_sem12_0 : DmaSem sig := 37
abbrev cc1_sem12_1 : DmaSem sig := 38
abbrev cc1_sem13_0 : DmaSem sig := 39
abbrev cc1_sem13_1 : DmaSem sig := 40
abbrev cc1_sem14_0 : DmaSem sig := 41
abbrev cc1_sem14_1 : DmaSem sig := 42
abbrev cc2_sem0_0 : DmaSem sig := 43
abbrev cc2_sem1_0 : DmaSem sig := 44
abbrev cc2_sem1_1 : DmaSem sig := 45
abbrev cc2_sem2_0 : DmaSem sig := 46
abbrev cc2_sem2_1 : DmaSem sig := 47
abbrev cc2_sem3_0 : DmaSem sig := 48
abbrev cc2_sem3_1 : DmaSem sig := 49

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S20x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S20x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x20 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S20x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x20 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev grid1 : Pipeline.Grid := ⟨1, ![8], ![false]⟩

def k1_mult1 (i : grid1.Coords) : BitVec 32 :=
  let arg0 : BitVec 32 := BitVec.ofNat 32 (i 0).val
  let c256_i32 : BitVec 32 := 256#32
  let v0 : BitVec 32 := Scalar.muli arg0 c256_i32
  v0
def k1_off1 (i : grid1.Coords) : Fin 2 → Nat :=
  let c0_32 : Index := 0#32
  let arg0 : BitVec 32 := BitVec.ofNat 32 (i 0).val
  let c256_i32 : BitVec 32 := 256#32
  let v0 : BitVec 32 := Scalar.muli arg0 c256_i32
  let v1 : BitVec 32 := v0
  let v57 : Index := Scalar.indexCast v1
  ![0, v57.toNat]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc1_transform_3 (i : grid1.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc1_transform_4 (i : grid1.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![v0.toNat, c0_i32.toNat]

def cc1_transform_5 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc1_transform_6 (i : grid1.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc1_transform_7 (i : grid1.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![v0.toNat, c0_i32.toNat]

def cc1_transform_8 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc1_transform_9 (i : grid1.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc1_transform_10 (i : grid1.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc1_transform_11 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc1_transform_12 (i : grid1.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc1_transform_13 (i : grid1.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc1_transform_14 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1x2048 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S256x2048 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1x256 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S1x256 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S1x256 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S1x256 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S1x256 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S1x256 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S1x2048 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S2048x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S1 : S_.BroadcastsInDim S1 (![] : Fin 0 → Fin S1.rank)
  bcast_S1_S1x1_0 : S1.BroadcastsInDim S1x1 (![0] : Fin 1 → Fin S1x1.rank)
  bcast_S_S1x1 : S_.BroadcastsInDim S1x1 (![] : Fin 0 → Fin S1x1.rank)
  bcast_S1_S1x1_1 : S1.BroadcastsInDim S1x1 (![1] : Fin 1 → Fin S1x1.rank)
  reducesTo_S1x1_S1_d1 : S1x1.ReducesTo [1] S1
  h_S_ : 0 < S_.numel
  bcast_S1_S1x2048_0 : S1.BroadcastsInDim S1x2048 (![0] : Fin 1 → Fin S1x2048.rank)
  bcast_S_S1x2048 : S_.BroadcastsInDim S1x2048 (![] : Fin 0 → Fin S1x2048.rank)
  shapeCasts_S1x1x2048_S1x2048 : S1x1x2048.ShapeCasts S1x2048
  shapeCasts_S20_S1x20 : S20.ShapeCasts S1x20
  shapeCasts_S2048_S1x2048 : S2048.ShapeCasts S1x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  bitsLt_bf16_f32 : FTy.bits .bf16 < FTy.bits .f32
  inb_S20x2048_S20x2048_0_0 : ∀ a, (![0, 0] : Fin 2 → Nat) a + S20x2048.size a ≤ S20x2048.size a
  h_S20x2048 : 0 < S20x2048.numel
  transposes_S20x2048_p1_0_S2048x20 : S20x2048.Transposes [1, 0] S2048x20
  inb_S1x20_S1x20_0_0 : ∀ a, (![0, 0] : Fin 2 → Nat) a + S1x20.size a ≤ S1x20.size a
  h_S1x20 : 0 < S1x20.numel
  shapeCasts_S1x20_S1x20 : S1x20.ShapeCasts S1x20
  reduces_S1x20_S1 : S1x20.Reduces [1] S1
  shapeCasts_S1_S1x1 : S1.ShapeCasts S1x1
  broadcasts_S1x1_S1x20 : S1x1.Broadcasts S1x20
  inb_S256x2048_S256x2048_0_0 : ∀ a, (![0, 0] : Fin 2 → Nat) a + S256x2048.size a ≤ S256x2048.size a
  h_S256x2048 : 0 < S256x2048.numel
  transposes_S256x2048_p1_0_S2048x256 : S256x2048.Transposes [1, 0] S2048x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  shapeCasts_S6144_S1x6144 : S6144.ShapeCasts S1x6144
  shapeCasts_S50257_S1x50257 : S50257.ShapeCasts S1x50257
  inb_S2048x2048_S2048x2048_0_0 : ∀ a, (![0, 0] : Fin 2 → Nat) a + S2048x2048.size a ≤ S2048x2048.size a
  h_S2048x2048 : 0 < S2048x2048.numel
  transposes_S2048x2048_p1_0_S2048x2048 : S2048x2048.Transposes [1, 0] S2048x2048
  bcast_S1x2048_S1x1x2048_1_2 : S1x2048.BroadcastsInDim S1x1x2048 (![1, 2] : Fin 2 → Fin S1x1x2048.rank)
  gather_S50257x2048_S1x1_S1x2048_1_0_n_n_0_1_12048_wf : GatherDims.WF S50257x2048 S1x1 S1x2048 [1] [0] [] [0] [] 1 ![1, 2048]
  dot_S1x2048_S2048x20_S1x20_1_0_0_1_n_n_wf : DotDims.WF S1x2048 S2048x20 S1x20 [1] [0] [0] [1] [] []
  dot_S1x20_S20x2048_S1x2048_1_0_0_1_n_n_wf : DotDims.WF S1x20 S20x2048 S1x2048 [1] [0] [0] [1] [] []
  dot_S1x2048_S2048x256_S1x256_1_0_0_1_n_n_wf : DotDims.WF S1x2048 S2048x256 S1x256 [1] [0] [0] [1] [] []
  dot_S1x2048_S2048x2048_S1x2048_1_0_0_1_n_n_wf : DotDims.WF S1x2048 S2048x2048 S1x2048 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x2048.size a ≤ S1x2048.size a
  hwx0_0 : ∀ i : grid0.Coords, EltTy.bits .f32 = 32 ∨ (Rect.block (s := S1x2048) S1x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x2048.size a
  hwx0_1 : ∀ i : grid0.Coords, EltTy.bits .f32 = 32 ∨ (Rect.block (s := S1x2048) S1x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S20x2048.size a ≤ S20x4096.size a
  hwx0_2 : ∀ i : grid0.Coords, EltTy.bits .f32 = 32 ∨ (Rect.block (s := S20x4096) S20x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S20x2048.size a ≤ S20x4096.size a
  hwx0_3 : ∀ i : grid0.Coords, EltTy.bits .f32 = 32 ∨ (Rect.block (s := S20x4096) S20x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x20.size a ≤ S1x20.size a
  hwx0_4 : ∀ i : grid0.Coords, EltTy.bits .f32 = 32 ∨ (Rect.block (s := S1x20) S1x20.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S20x2048.size a ≤ S20x2048.size a
  hwx0_5 : ∀ i : grid0.Coords, EltTy.bits .f32 = 32 ∨ (Rect.block (s := S20x2048) S20x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x2048.size a ≤ S2048x4096.size a
  hwx0_6 : ∀ i : grid0.Coords, EltTy.bits .f32 = 32 ∨ (Rect.block (s := S2048x4096) S256x2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x2048.size a ≤ S2048x4096.size a
  hwx0_7 : ∀ i : grid0.Coords, EltTy.bits .f32 = 32 ∨ (Rect.block (s := S2048x4096) S256x2048.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x2048.size a
  hwx0_8 : ∀ i : grid0.Coords, EltTy.bits .f32 = 32 ∨ (Rect.block (s := S1x2048) S1x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x2048.size a
  hwx0_9 : ∀ i : grid0.Coords, EltTy.bits .f32 = 32 ∨ (Rect.block (s := S1x2048) S1x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x20.size a ≤ S1x20.size a
  hwx0_10 : ∀ i : grid0.Coords, EltTy.bits .f32 = 32 ∨ (Rect.block (s := S1x20) S1x20.size (cc0_transform_10 i) (hinb0_10 i)).WholeWords (EltTy.packing .f32)
  hrank1 : 0 < grid1.rank
  k1_mult1_dvd : ∀ i : grid1.Coords, 128 ∣ (k1_mult1 i).toNat
  k1_off1_inb : ∀ i : grid1.Coords, ∀ a, (k1_off1 i) a + S1x256.size a ≤ S1x2048.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x2048.size a ≤ S1x2048.size a
  hwx1_0 : ∀ i : grid1.Coords, EltTy.bits .f32 = 32 ∨ (Rect.block (s := S1x2048) S1x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x2048.size a ≤ S1x2048.size a
  hwx1_1 : ∀ i : grid1.Coords, EltTy.bits .f32 = 32 ∨ (Rect.block (s := S1x2048) S1x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x2048.size a ≤ S6144x2048.size a
  hwx1_2 : ∀ i : grid1.Coords, EltTy.bits .f32 = 32 ∨ (Rect.block (s := S6144x2048) S256x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x2048.size a ≤ S6144x2048.size a
  hwx1_3 : ∀ i : grid1.Coords, EltTy.bits .f32 = 32 ∨ (Rect.block (s := S6144x2048) S256x2048.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x2048.size a ≤ S6144x2048.size a
  hwx1_4 : ∀ i : grid1.Coords, EltTy.bits .f32 = 32 ∨ (Rect.block (s := S6144x2048) S256x2048.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S256x2048.size a ≤ S6144x2048.size a
  hwx1_5 : ∀ i : grid1.Coords, EltTy.bits .f32 = 32 ∨ (Rect.block (s := S6144x2048) S256x2048.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S256x2048.size a ≤ S6144x2048.size a
  hwx1_6 : ∀ i : grid1.Coords, EltTy.bits .f32 = 32 ∨ (Rect.block (s := S6144x2048) S256x2048.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S256x2048.size a ≤ S6144x2048.size a
  hwx1_7 : ∀ i : grid1.Coords, EltTy.bits .f32 = 32 ∨ (Rect.block (s := S6144x2048) S256x2048.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1x256.size a ≤ S1x6144.size a
  hwx1_8 : ∀ i : grid1.Coords, EltTy.bits .f32 = 32 ∨ (Rect.block (s := S1x6144) S1x256.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1x256.size a ≤ S1x6144.size a
  hwx1_9 : ∀ i : grid1.Coords, EltTy.bits .f32 = 32 ∨ (Rect.block (s := S1x6144) S1x256.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S1x256.size a ≤ S1x6144.size a
  hwx1_10 : ∀ i : grid1.Coords, EltTy.bits .f32 = 32 ∨ (Rect.block (s := S1x6144) S1x256.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S1x256.size a ≤ S1x6144.size a
  hwx1_11 : ∀ i : grid1.Coords, EltTy.bits .f32 = 32 ∨ (Rect.block (s := S1x6144) S1x256.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S1x256.size a ≤ S1x6144.size a
  hwx1_12 : ∀ i : grid1.Coords, EltTy.bits .f32 = 32 ∨ (Rect.block (s := S1x6144) S1x256.size (cc1_transform_12 i) (hinb1_12 i)).WholeWords (EltTy.packing .f32)
  hstage1_13 : ∀ j, (stage1_13 j).IsWhole
  nbuf1_13 : grid1.bufCount reads1_13 false = 2
  hreads1_13 : ∀ i i' : grid1.Coords, (∀ a, reads1_13 a = true → i a = i' a) → cc1_transform_13 i = cc1_transform_13 i'
  hinb1_13 : ∀ (i : grid1.Coords) a, (cc1_transform_13 i a + 1) * S1x256.size a ≤ S1x6144.size a
  hwx1_13 : ∀ i : grid1.Coords, EltTy.bits .f32 = 32 ∨ (Rect.block (s := S1x6144) S1x256.size (cc1_transform_13 i) (hinb1_13 i)).WholeWords (EltTy.packing .f32)
  hstage1_14 : ∀ j, (stage1_14 j).IsWhole
  nbuf1_14 : grid1.bufCount reads1_14 false = 2
  hreads1_14 : ∀ i i' : grid1.Coords, (∀ a, reads1_14 a = true → i a = i' a) → cc1_transform_14 i = cc1_transform_14 i'
  hinb1_14 : ∀ (i : grid1.Coords) a, (cc1_transform_14 i a + 1) * S1x256.size a ≤ S1x2048.size a
  hwx1_14 : ∀ i : grid1.Coords, EltTy.bits .f32 = 32 ∨ (Rect.block (s := S1x2048) S1x256.size (cc1_transform_14 i) (hinb1_14 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1x2048.size a ≤ S1x2048.size a
  hwx2_0 : ∀ i : grid2.Coords, EltTy.bits .f32 = 32 ∨ (Rect.block (s := S1x2048) S1x2048.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hstart2_1 : ∀ (i : grid2.Coords) a, cc2_transform_1 i a * S2048x2048.size a < S50257x2048.size a
  hwx2_1 : ∀ i : grid2.Coords, EltTy.bits .f32 = 32 ∨ (Rect.unit (s := S50257x2048) (fun a => cc2_transform_1 i a * S2048x2048.size a) (fun a => (Pipeline.Clip.of (cc2_transform_1 i a) (S2048x2048.size a) (S50257x2048.size a)).extent (S2048x2048.size a)) fun a => Pipeline.Clip.inb (Pipeline.Clip.ok_of (hstart2_1 i a))).WholeWords (EltTy.packing .f32)
  hwxs2_1 : ∀ i : grid2.Coords, EltTy.bits .f32 = 32 ∨ (Rect.unit (s := S2048x2048) (fun _ => 0) (fun a => (Pipeline.Clip.of (cc2_transform_1 i a) (S2048x2048.size a) (S50257x2048.size a)).extent (S2048x2048.size a)) fun a => (Nat.zero_add _).trans_le (Pipeline.Clip.extent_le (Pipeline.Clip.ok_of (hstart2_1 i a)))).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hstart2_2 : ∀ (i : grid2.Coords) a, cc2_transform_2 i a * S1x2048.size a < S1x50257.size a
  hwx2_2 : ∀ i : grid2.Coords, EltTy.bits .f32 = 32 ∨ (Rect.unit (s := S1x50257) (fun a => cc2_transform_2 i a * S1x2048.size a) (fun a => (Pipeline.Clip.of (cc2_transform_2 i a) (S1x2048.size a) (S1x50257.size a)).extent (S1x2048.size a)) fun a => Pipeline.Clip.inb (Pipeline.Clip.ok_of (hstart2_2 i a))).WholeWords (EltTy.packing .f32)
  hwxs2_2 : ∀ i : grid2.Coords, EltTy.bits .f32 = 32 ∨ (Rect.unit (s := S1x2048) (fun _ => 0) (fun a => (Pipeline.Clip.of (cc2_transform_2 i a) (S1x2048.size a) (S1x50257.size a)).extent (S1x2048.size a)) fun a => (Nat.zero_add _).trans_le (Pipeline.Clip.extent_le (Pipeline.Clip.ok_of (hstart2_2 i a)))).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hstart2_3 : ∀ (i : grid2.Coords) a, cc2_transform_3 i a * S1x2048.size a < S1x50257.size a
  hwx2_3 : ∀ i : grid2.Coords, EltTy.bits .f32 = 32 ∨ (Rect.unit (s := S1x50257) (fun a => cc2_transform_3 i a * S1x2048.size a) (fun a => (Pipeline.Clip.of (cc2_transform_3 i a) (S1x2048.size a) (S1x50257.size a)).extent (S1x2048.size a)) fun a => Pipeline.Clip.inb (Pipeline.Clip.ok_of (hstart2_3 i a))).WholeWords (EltTy.packing .f32)
  hwxs2_3 : ∀ i : grid2.Coords, EltTy.bits .f32 = 32 ∨ (Rect.unit (s := S1x2048) (fun _ => 0) (fun a => (Pipeline.Clip.of (cc2_transform_3 i a) (S1x2048.size a) (S1x50257.size a)).extent (S1x2048.size a)) fun a => (Nat.zero_add _).trans_le (Pipeline.Clip.extent_le (Pipeline.Clip.ok_of (hstart2_3 i a)))).WholeWords (EltTy.packing .f32)

variable [Facts₀]

def gather_S50257x2048_S1x1_S1x2048_1_0_n_n_0_1_12048 : GatherDims S50257x2048 S1x1 S1x2048 where
  offsetDims := [1]
  collapsedSliceDims := [0]
  operandBatchingDims := []
  startIndicesBatchingDims := []
  startIndexMap := [0]
  indexVectorDim := 1
  sliceSizes := ![1, 2048]
  wf := gather_S50257x2048_S1x1_S1x2048_1_0_n_n_0_1_12048_wf
def dot_S1x2048_S2048x20_S1x20_1_0_0_1_n_n : DotDims S1x2048 S2048x20 S1x20 where
  lhsContracting := [1]
  rhsContracting := [0]
  lhsNonContracting := [0]
  rhsNonContracting := [1]
  lhsBatch := []
  rhsBatch := []
  wf := dot_S1x2048_S2048x20_S1x20_1_0_0_1_n_n_wf
def dot_S1x20_S20x2048_S1x2048_1_0_0_1_n_n : DotDims S1x20 S20x2048 S1x2048 where
  lhsContracting := [1]
  rhsContracting := [0]
  lhsNonContracting := [0]
  rhsNonContracting := [1]
  lhsBatch := []
  rhsBatch := []
  wf := dot_S1x20_S20x2048_S1x2048_1_0_0_1_n_n_wf
def dot_S1x2048_S2048x256_S1x256_1_0_0_1_n_n : DotDims S1x2048 S2048x256 S1x256 where
  lhsContracting := [1]
  rhsContracting := [0]
  lhsNonContracting := [0]
  rhsNonContracting := [1]
  lhsBatch := []
  rhsBatch := []
  wf := dot_S1x2048_S2048x256_S1x256_1_0_0_1_n_n_wf
def dot_S1x2048_S2048x2048_S1x2048_1_0_0_1_n_n : DotDims S1x2048 S2048x2048 S1x2048 where
  lhsContracting := [1]
  rhsContracting := [0]
  lhsNonContracting := [0]
  rhsNonContracting := [1]
  lhsBatch := []
  rhsBatch := []
  wf := dot_S1x2048_S2048x2048_S1x2048_1_0_0_1_n_n_wf

abbrev win0_0 : Pipeline.Window sig grid0 :=
  Pipeline.Window.ofSpec (Memref.whole main_v0) S1x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S20x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S20x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x20.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg2) S20x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256x2048.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S256x2048.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1x256.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v4_0) S1x256.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v4_1) S1x20.size cc0_transform_10 reads0_10 true true 1 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev idle0 : Fin 11 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k0_cond1 i == 1#1) | ⟨_ + 11, h⟩ => absurd h (Nat.not_lt.2 (Nat.le_add_left _ _))

abbrev win1_0 : Pipeline.Window sig grid1 :=
  Pipeline.Window.ofSpec (Memref.whole main_v4_0) S1x2048.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S256x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S256x2048.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S256x2048.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S256x2048.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_arg9) S256x2048.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_arg9) S256x2048.size cc1_transform_7 reads1_7 false false 2 stage1_7 sem1_7
    hrank1 hreads1_7 hinb1_7 nbuf1_7 (Memref.isWhole_whole _) hwx1_7 hstage1_7

abbrev win1_8 : Pipeline.Window sig grid1 :=
  Pipeline.Window.ofSpec (Memref.whole main_v5) S1x256.size cc1_transform_8 reads1_8 false false 2 stage1_8 sem1_8
    hrank1 hreads1_8 hinb1_8 nbuf1_8 (Memref.isWhole_whole _) hwx1_8 hstage1_8

abbrev win1_9 : Pipeline.Window sig grid1 :=
  Pipeline.Window.ofSpec (Memref.whole main_v5) S1x256.size cc1_transform_9 reads1_9 false false 2 stage1_9 sem1_9
    hrank1 hreads1_9 hinb1_9 nbuf1_9 (Memref.isWhole_whole _) hwx1_9 hstage1_9

abbrev win1_10 : Pipeline.Window sig grid1 :=
  Pipeline.Window.ofSpec (Memref.whole main_v5) S1x256.size cc1_transform_10 reads1_10 false false 2 stage1_10 sem1_10
    hrank1 hreads1_10 hinb1_10 nbuf1_10 (Memref.isWhole_whole _) hwx1_10 hstage1_10

abbrev win1_11 : Pipeline.Window sig grid1 :=
  Pipeline.Window.ofSpec (Memref.whole main_v6) S1x256.size cc1_transform_11 reads1_11 false false 2 stage1_11 sem1_11
    hrank1 hreads1_11 hinb1_11 nbuf1_11 (Memref.isWhole_whole _) hwx1_11 hstage1_11

abbrev win1_12 : Pipeline.Window sig grid1 :=
  Pipeline.Window.ofSpec (Memref.whole main_v6) S1x256.size cc1_transform_12 reads1_12 false false 2 stage1_12 sem1_12
    hrank1 hreads1_12 hinb1_12 nbuf1_12 (Memref.isWhole_whole _) hwx1_12 hstage1_12

abbrev win1_13 : Pipeline.Window sig grid1 :=
  Pipeline.Window.ofSpec (Memref.whole main_v6) S1x256.size cc1_transform_13 reads1_13 false false 2 stage1_13 sem1_13
    hrank1 hreads1_13 hinb1_13 nbuf1_13 (Memref.isWhole_whole _) hwx1_13 hstage1_13

abbrev win1_14 : Pipeline.Window sig grid1 :=
  Pipeline.Window.ofSpec (Memref.whole main_v7) S1x256.size cc1_transform_14 reads1_14 true false 2 stage1_14 sem1_14
    hrank1 hreads1_14 hinb1_14 nbuf1_14 (Memref.isWhole_whole _) hwx1_14 hstage1_14

abbrev win1 : Fin 15 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | ⟨_ + 15, h⟩ => absurd h (Nat.not_lt.2 (Nat.le_add_left _ _))
abbrev spec1 : Fin 15 → Pipeline.WinSpec sig grid1.rank := fun w => (win1 w).toWinSpec

abbrev win2_0 : Pipeline.Window sig grid2 :=
  Pipeline.Window.ofSpec (Memref.whole main_v7) S1x2048.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpecClip (Memref.whole main_arg12) S2048x2048.size cc2_transform_1 reads2_1 false false 2 stage2_1 sem2_1
    hrank2 hreads2_1 hstart2_1 nbuf2_1 (Memref.isWhole_whole _) hwx2_1 hwxs2_1 hstage2_1

abbrev win2_2 : Pipeline.Window sig grid2 :=
  Pipeline.Window.ofSpecClip (Memref.whole main_v8) S1x2048.size cc2_transform_2 reads2_2 false false 2 stage2_2 sem2_2
    hrank2 hreads2_2 hstart2_2 nbuf2_2 (Memref.isWhole_whole _) hwx2_2 hwxs2_2 hstage2_2

abbrev win2_3 : Pipeline.Window sig grid2 :=
  Pipeline.Window.ofSpecClip (Memref.whole main_v9) S1x2048.size cc2_transform_3 reads2_3 true false 2 stage2_3 sem2_3
    hrank2 hreads2_3 hstart2_3 nbuf2_3 (Memref.isWhole_whole _) hwx2_3 hwxs2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S1 : Shape := ⟨1, ![1]⟩
abbrev S1x1x2048 : Shape := ⟨3, ![1, 1, 2048]⟩
abbrev S20x2048 : Shape := ⟨2, ![20, 2048]⟩
abbrev S50257x2048 : Shape := ⟨2, ![50257, 2048]⟩
abbrev S20x4096 : Shape := ⟨2, ![20, 4096]⟩
abbrev S20 : Shape := ⟨1, ![20]⟩
abbrev S2048x4096 : Shape := ⟨2, ![2048, 4096]⟩
abbrev S2048 : Shape := ⟨1, ![2048]⟩
abbrev S6144x2048 : Shape := ⟨2, ![6144, 2048]⟩
abbrev S6144 : Shape := ⟨1, ![6144]⟩
abbrev S50257 : Shape := ⟨1, ![50257]⟩
abbrev S_ : Shape := ⟨0, ![]⟩
abbrev S1x1 : Shape := ⟨2, ![1, 1]⟩
abbrev S1x2048 : Shape := ⟨2, ![1, 2048]⟩
abbrev S1x4096 : Shape := ⟨2, ![1, 4096]⟩
abbrev S4096x20 : Shape := ⟨2, ![4096, 20]⟩
abbrev S1x20 : Shape := ⟨2, ![1, 20]⟩
abbrev S4096x2048 : Shape := ⟨2, ![4096, 2048]⟩
abbrev S2048x6144 : Shape := ⟨2, ![2048, 6144]⟩
abbrev S1x6144 : Shape := ⟨2, ![1, 6144]⟩
abbrev S2048x50257 : Shape := ⟨2, ![2048, 50257]⟩
abbrev S1x50257 : Shape := ⟨2, ![1, 50257]⟩

abbrev nBuf : Space → Nat
  | .hbm => 98
  | .vmem => 0
  | .smem => 0
  | _ => 0

abbrev bufTy : (tb : Table) → Fin (tcTables nBuf tb) → BufTy
  | .hbm, ⟨0, _⟩ => ⟨S1, .i32⟩
  | .hbm, ⟨1, _⟩ => ⟨S1x1x2048, .f32⟩
  | .hbm, ⟨2, _⟩ => ⟨S20x2048, .f32⟩
  | .hbm, ⟨3, _⟩ => ⟨S50257x2048, .f32⟩
  | .hbm, ⟨4, _⟩ => ⟨S20x4096, .f32⟩
  | .hbm, ⟨5, _⟩ => ⟨S20, .f32⟩
  | .hbm, ⟨6, _⟩ => ⟨S2048x4096, .f32⟩
  | .hbm, ⟨7, _⟩ => ⟨S2048, .f32⟩
  | .hbm, ⟨8, _⟩ => ⟨S6144x2048, .f32⟩
  | .hbm, ⟨9, _⟩ => ⟨S6144x2048, .f32⟩
  | .hbm, ⟨10, _⟩ => ⟨S6144, .f32⟩
  | .hbm, ⟨11, _⟩ => ⟨S6144, .f32⟩
  | .hbm, ⟨12, _⟩ => ⟨S50257x2048, .f32⟩
  | .hbm, ⟨13, _⟩ => ⟨S50257, .f32⟩
  | .hbm, ⟨14, _⟩ => ⟨S_, .i32⟩
  | .hbm, ⟨15, _⟩ => ⟨S1, .i32⟩
  | .hbm, ⟨16, _⟩ => ⟨S1, .i1⟩
  | .hbm, ⟨17, _⟩ => ⟨S_, .i32⟩
  | .hbm, ⟨18, _⟩ => ⟨S1, .i32⟩
  | .hbm, ⟨19, _⟩ => ⟨S1, .i32⟩
  | .hbm, ⟨20, _⟩ => ⟨S1, .i32⟩
  | .hbm, ⟨21, _⟩ => ⟨S1x1, .i32⟩
  | .hbm, ⟨22, _⟩ => ⟨S1x2048, .f32⟩
  | .hbm, ⟨23, _⟩ => ⟨S1x2048, .f32⟩
  | .hbm, ⟨24, _⟩ => ⟨S1x4096, .f32⟩
  | .hbm, ⟨25, _⟩ => ⟨S4096x20, .f32⟩
  | .hbm, ⟨26, _⟩ => ⟨S1x20, .f32⟩
  | .hbm, ⟨27, _⟩ => ⟨S1x20, .f32⟩
  | .hbm, ⟨28, _⟩ => ⟨S1x20, .f32⟩
  | .hbm, ⟨29, _⟩ => ⟨S_, .f32⟩
  | .hbm, ⟨30, _⟩ => ⟨S1, .f32⟩
  | .hbm, ⟨31, _⟩ => ⟨S_, .f32⟩
  | .hbm, ⟨32, _⟩ => ⟨S1, .f32⟩
  | .hbm, ⟨33, _⟩ => ⟨S1, .f32⟩
  | .hbm, ⟨34, _⟩ => ⟨S1x1, .f32⟩
  | .hbm, ⟨35, _⟩ => ⟨S1x20, .f32⟩
  | .hbm, ⟨36, _⟩ => ⟨S1x20, .f32⟩
  | .hbm, ⟨37, _⟩ => ⟨S1x20, .f32⟩
  | .hbm, ⟨38, _⟩ => ⟨S_, .f32⟩
  | .hbm, ⟨39, _⟩ => ⟨S1, .f32⟩
  | .hbm, ⟨40, _⟩ => ⟨S1x1, .f32⟩
  | .hbm, ⟨41, _⟩ => ⟨S1x20, .f32⟩
  | .hbm, ⟨42, _⟩ => ⟨S1x20, .f32⟩
  | .hbm, ⟨43, _⟩ => ⟨S1x2048, .f32⟩
  | .hbm, ⟨44, _⟩ => ⟨S1x4096, .f32⟩
  | .hbm, ⟨45, _⟩ => ⟨S4096x2048, .f32⟩
  | .hbm, ⟨46, _⟩ => ⟨S1x2048, .f32⟩
  | .hbm, ⟨47, _⟩ => ⟨S1x2048, .f32⟩
  | .hbm, ⟨48, _⟩ => ⟨S1x2048, .f32⟩
  | .hbm, ⟨49, _⟩ => ⟨S_, .f32⟩
  | .hbm, ⟨50, _⟩ => ⟨S1x2048, .f32⟩
  | .hbm, ⟨51, _⟩ => ⟨S1x2048, .f32⟩
  | .hbm, ⟨52, _⟩ => ⟨S2048x6144, .f32⟩
  | .hbm, ⟨53, _⟩ => ⟨S1x6144, .f32⟩
  | .hbm, ⟨54, _⟩ => ⟨S1x6144, .f32⟩
  | .hbm, ⟨55, _⟩ => ⟨S1x6144, .f32⟩
  | .hbm, ⟨56, _⟩ => ⟨S2048x6144, .f32⟩
  | .hbm, ⟨57, _⟩ => ⟨S1x6144, .f32⟩
  | .hbm, ⟨58, _⟩ => ⟨S1x6144, .f32⟩
  | .hbm, ⟨59, _⟩ => ⟨S1x6144, .f32⟩
  | .hbm, ⟨60, _⟩ => ⟨S1x2048, .f32⟩
  | .hbm, ⟨61, _⟩ => ⟨S1x2048, .f32⟩
  | .hbm, ⟨62, _⟩ => ⟨S1x2048, .f32⟩
  | .hbm, ⟨63, _⟩ => ⟨S1x2048, .f32⟩
  | .hbm, ⟨64, _⟩ => ⟨S1x2048, .f32⟩
  | .hbm, ⟨65, _⟩ => ⟨S1x2048, .f32⟩
  | .hbm, ⟨66, _⟩ => ⟨S1x2048, .f32⟩
  | .hbm, ⟨67, _⟩ => ⟨S1x2048, .f32⟩
  | .hbm, ⟨68, _⟩ => ⟨S1x2048, .f32⟩
  | .hbm, ⟨69, _⟩ => ⟨S_, .f32⟩
  | .hbm, ⟨70, _⟩ => ⟨S1x2048, .f32⟩
  | .hbm, ⟨71, _⟩ => ⟨S1x2048, .f32⟩
  | .hbm, ⟨72, _⟩ => ⟨S_, .f32⟩
  | .hbm, ⟨73, _⟩ => ⟨S1x2048, .f32⟩
  | .hbm, ⟨74, _⟩ => ⟨S1x2048, .f32⟩
  | .hbm, ⟨75, _⟩ => ⟨S1x2048, .f32⟩
  | .hbm, ⟨76, _⟩ => ⟨S1x2048, .f32⟩
  | .hbm, ⟨77, _⟩ => ⟨S1x2048, .f32⟩
  | .hbm, ⟨78, _⟩ => ⟨S_, .f32⟩
  | .hbm, ⟨79, _⟩ => ⟨S1x2048, .f32⟩
  | .hbm, ⟨80, _⟩ => ⟨S1x2048, .f32⟩
  | .hbm, ⟨81, _⟩ => ⟨S_, .f32⟩
  | .hbm, ⟨82, _⟩ => ⟨S1x2048, .f32⟩
  | .hbm, ⟨83, _⟩ => ⟨S1x2048, .f32⟩
  | .hbm, ⟨84, _⟩ => ⟨S1x2048, .f32⟩
  | .hbm, ⟨85, _⟩ => ⟨S1x2048, .f32⟩
  | .hbm, ⟨86, _⟩ => ⟨S1x2048, .f32⟩
  | .hbm, ⟨87, _⟩ => ⟨S_, .f32⟩
  | .hbm, ⟨88, _⟩ => ⟨S1x2048, .f32⟩
  | .hbm, ⟨89, _⟩ => ⟨S1x2048, .f32⟩
  | .hbm, ⟨90, _⟩ => ⟨S1x2048, .f32⟩
  | .hbm, ⟨91, _⟩ => ⟨S1x2048, .f32⟩
  | .hbm, ⟨92, _⟩ => ⟨S1x2048, .f32⟩
  | .hbm, ⟨93, _⟩ => ⟨S2048x50257, .f32⟩
  | .hbm, ⟨94, _⟩ => ⟨S1x50257, .f32⟩
  | .hbm, ⟨95, _⟩ => ⟨S1x50257, .f32⟩
  | .hbm, ⟨96, _⟩ => ⟨S1x50257, .f32⟩
  | .hbm, ⟨97, _⟩ => ⟨S1x1x2048, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_2 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_call0_cst : Ref sig .tc := ⟨.hbm, 49, rfl⟩
abbrev main_call0_v0 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_3 : Ref sig .tc := ⟨.hbm, 69, rfl⟩
abbrev main_v48 : Ref sig .tc := ⟨.hbm, 70, rfl⟩
abbrev main_v49 : Ref sig .tc := ⟨.hbm, 71, rfl⟩
abbrev main_cst_4 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_5 : Ref sig .tc := ⟨.hbm, 78, rfl⟩
abbrev main_v55 : Ref sig .tc := ⟨.hbm, 79, rfl⟩
abbrev main_v56 : Ref sig .tc := ⟨.hbm, 80, rfl⟩
abbrev main_cst_6 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_7 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩

abbrev nD : Nat := 1
abbrev τ : Topo := Topo.v7x

variable {F : FTy → Type} [FloatOps F]

class Facts₀ : Prop where
  bcast_S_S1 : S_.BroadcastsInDim S1 (![] : Fin 0 → Fin S1.rank)
  bcast_S1_S1x1_0 : S1.BroadcastsInDim S1x1 (![0] : Fin 1 → Fin S1x1.rank)
  shapeCasts_S1x1x2048_S1x2048 : S1x1x2048.ShapeCasts S1x2048
  concatenates_S1x2048_S1x2048_S1x4096_d1 : Shape.Concatenates [S1x2048, S1x2048] S1x4096 1
  transposes_S20x4096_S4096x20_1_0 : S20x4096.Transposes [1, 0] S4096x20
  bcast_S20_S1x20_1 : S20.BroadcastsInDim S1x20 (![1] : Fin 1 → Fin S1x20.rank)
  reducesTo_S1x20_S1_d1 : S1x20.ReducesTo [1] S1
  h_S_ : 0 < S_.numel
  bcast_S1x1_S1x20_0_1 : S1x1.BroadcastsInDim S1x20 (![0, 1] : Fin 2 → Fin S1x20.rank)
  transposes_S2048x4096_S4096x2048_1_0 : S2048x4096.Transposes [1, 0] S4096x2048
  bcast_S2048_S1x2048_1 : S2048.BroadcastsInDim S1x2048 (![1] : Fin 1 → Fin S1x2048.rank)
  bcast_S_S1x2048 : S_.BroadcastsInDim S1x2048 (![] : Fin 0 → Fin S1x2048.rank)
  transposes_S6144x2048_S2048x6144_1_0 : S6144x2048.Transposes [1, 0] S2048x6144
  bcast_S6144_S1x6144_1 : S6144.BroadcastsInDim S1x6144 (![1] : Fin 1 → Fin S1x6144.rank)
  slices_S1x6144_S1x2048_0_0 : S1x6144.Slices ![0, 0] S1x2048
  slices_S1x6144_S1x2048_0_2048 : S1x6144.Slices ![0, 2048] S1x2048
  slices_S1x6144_S1x2048_0_4096 : S1x6144.Slices ![0, 4096] S1x2048
  transposes_S50257x2048_S2048x50257_1_0 : S50257x2048.Transposes [1, 0] S2048x50257
  bcast_S50257_S1x50257_1 : S50257.BroadcastsInDim S1x50257 (![1] : Fin 1 → Fin S1x50257.rank)
  bcast_S1x2048_S1x1x2048_1_2 : S1x2048.BroadcastsInDim S1x1x2048 (![1, 2] : Fin 2 → Fin S1x1x2048.rank)
  gather_S50257x2048_S1x1_S1x2048_1_0_n_n_0_1_12048_wf : GatherDims.WF S50257x2048 S1x1 S1x2048 [1] [0] [] [0] [] 1 ![1, 2048]
  dot_S1x4096_S4096x20_S1x20_1_0_0_1_n_n_wf : DotDims.WF S1x4096 S4096x20 S1x20 [1] [0] [0] [1] [] []
  dot_S1x20_S20x2048_S1x2048_1_0_0_1_n_n_wf : DotDims.WF S1x20 S20x2048 S1x2048 [1] [0] [0] [1] [] []
  dot_S1x4096_S4096x2048_S1x2048_1_0_0_1_n_n_wf : DotDims.WF S1x4096 S4096x2048 S1x2048 [1] [0] [0] [1] [] []
  dot_S1x2048_S2048x6144_S1x6144_1_0_0_1_n_n_wf : DotDims.WF S1x2048 S2048x6144 S1x6144 [1] [0] [0] [1] [] []
  dot_S1x2048_S2048x50257_S1x50257_1_0_0_1_n_n_wf : DotDims.WF S1x2048 S2048x50257 S1x50257 [1] [0] [0] [1] [] []

variable [Facts₀]

def gather_S50257x2048_S1x1_S1x2048_1_0_n_n_0_1_12048 : GatherDims S50257x2048 S1x1 S1x2048 where
  offsetDims := [1]
  collapsedSliceDims := [0]
  operandBatchingDims := []
  startIndicesBatchingDims := []
  startIndexMap := [0]
  indexVectorDim := 1
  sliceSizes := ![1, 2048]
  wf := gather_S50257x2048_S1x1_S1x2048_1_0_n_n_0_1_12048_wf
def dot_S1x4096_S4096x20_S1x20_1_0_0_1_n_n : DotDims S1x4096 S4096x20 S1x20 where
  lhsContracting := [1]
  rhsContracting := [0]
  lhsNonContracting := [0]
  rhsNonContracting := [1]
  lhsBatch := []
  rhsBatch := []
  wf := dot_S1x4096_S4096x20_S1x20_1_0_0_1_n_n_wf
def dot_S1x20_S20x2048_S1x2048_1_0_0_1_n_n : DotDims S1x20 S20x2048 S1x2048 where
  lhsContracting := [1]
  rhsContracting := [0]
  lhsNonContracting := [0]
  rhsNonContracting := [1]
  lhsBatch := []
  rhsBatch := []
  wf := dot_S1x20_S20x2048_S1x2048_1_0_0_1_n_n_wf
def dot_S1x4096_S4096x2048_S1x2048_1_0_0_1_n_n : DotDims S1x4096 S4096x2048 S1x2048 where
  lhsContracting := [1]
  rhsContracting := [0]
  lhsNonContracting := [0]
  rhsNonContracting := [1]
  lhsBatch := []
  rhsBatch := []
  wf := dot_S1x4096_S4096x2048_S1x2048_1_0_0_1_n_n_wf
def dot_S1x2048_S2048x6144_S1x6144_1_0_0_1_n_n : DotDims S1x2048 S2048x6144 S1x6144 where
  lhsContracting := [1]
  rhsContracting := [0]
  lhsNonContracting := [0]
  rhsNonContracting := [1]
  lhsBatch := []
  rhsBatch := []
  wf := dot_S1x2048_S2048x6144_S1x6144_1_0_0_1_n_n_wf
def dot_S1x2048_S2048x50257_S1x50257_1_0_0_1_n_n : DotDims S1x2048 S2048x50257 S1x50257 where
  lhsContracting := [1]
  rhsContracting := [0]
  lhsNonContracting := [0]
  rhsNonContracting := [1]
  lhsBatch := []
  rhsBatch := []
  wf := dot_S1x2048_S2048x50257_S1x50257_1_0_0_1_n_n_wf

class Facts : Prop extends Facts₀ where

variable [Facts]
-- ==== Proof.K.Base.lean ====
import proofs.«424062_j22247930593355_3_alg».proof.Proof.Gen.Kernel.Regions
import proofs.«424062_j22247930593355_3_alg».proof.Proof.Gen.Kernel.Skeleton
import proofs.«424062_j22247930593355_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

abbrev 𝒱₀ : Variants := Variants.none

abbrev L : GSem nD τ sig → Finset Unit := fun _ => ∅
abbrev lv : GSem nD τ sig → Unit → ℕ := fun _ _ => 0

abbrev Rr (c : Dev nD) : sProp 𝕄 :=
  iprop((∃ r, prngReg c r) ∗ ∃ W, owes (c : Thread nD τ) (0 : CellTallies nD τ sig Unit) W)

abbrev atTc (W : Dev nD → Valuation τ sig (Elt F)) : (c : Dev nD) → (b : Ref sig .tc) → Buf (Elt F) ((c : Thread nD τ).loc b) :=
  fun c b => W c b

end Cert.Kernel.Frame

end
-- ==== Proof.K.R0Data.lean ====
import proofs.«424062_j22247930593355_3_alg».proof.Proof.K.Base
import Idealize.ShloMosaic.Lib.Pipeline.Value

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.Kernel Cert.Kernel.Gen

variable {F : FTy → Type} [FloatOps F]

local notation "𝕄" => MT nD τ sig Unit (Elt F) ℕ (UR sig nD τ) ℕ

theorem off00 : (![0, 0] : Fin 2 → ℕ) = fun _ => 0 := by
  funext a; fin_cases a <;> rfl

-- A whole memref is owned at `X` exactly when it points to the one contents that read `X`.
theorem owns_unread (c : Dev nD) {sp : Space} {s : Shape} {e : EltTy} {m : Memref sig .tc sp s e} (h : m.IsWhole) (q : PosShare TreeShare)
    (X : s.Idx → Elt F e) : (owns (c : Thread nD τ) m q X : sProp 𝕄) = (m.view.loc (c : Thread nD τ) ↦[m.view.set]{q} h.unread X) := by
  have h₁ : (owns (c : Thread nD τ) m q X : sProp 𝕄) ⊢ (m.view.loc (c : Thread nD τ) ↦[m.view.set]{q} h.unread X) := by
    unfold owns; iintro ⟨%f, %hf, H⟩; obtain rfl := h.eq_unread hf; iexact H
  have h₂ : _ ⊢ (owns (c : Thread nD τ) m q (m.view.read (Elt F) (h.unread X)) : sProp 𝕄) := owns_intro (c : Thread nD τ) m q _
  rw [h.read_unread] at h₂
  exact BI.equiv_iff.mp ⟨h₁, h₂⟩

-- A load through the full rectangle reads the contents.
theorem readAt_full {s : Shape} {e : EltTy} {m : Memref sig .tc .vmem s e} (h : m.IsWhole) (X : s.Idx → Elt F e)
    {off : Fin s.rank → ℕ} (ho : off = fun _ => 0) (inb : ∀ a, off a + s.size a ≤ s.size a) :
    View.readAt (Elt F) m.view (Rect.unit off s.size inb).toLoadRect (h.unread X) = X :=
  (congrArg (View.ld · _) (h.read_unread X)).trans (View.ld_unit_zero ho inb X)

-- One store through the full rectangle leaves its payload.
theorem read_writes_full {s : Shape} {e : EltTy} (v : View sig .tc .vmem s e) (f : v.ty.Contents (Elt F))
    {off : Fin s.rank → ℕ} (ho : off = fun _ => 0) (inb : ∀ a, off a + s.size a ≤ s.size a) (w : s.Idx → Elt F e) :
    v.read (Elt F) (v.writes (Elt F) f [(⟨Rect.unit off s.size inb, w⟩ : View.Piece (Elt F) s e)]) = w := by
  rw [View.read_writes_eq_canon v f _ (fun y => ⟨_, List.mem_singleton_self _, View.mem_set_unit_zero ho inb y⟩),
    View.canon_unit_zero ho]

section Body

variable (c : Dev nD) (i : grid0.Coords) {arg1 : Memref sig .tc .vmem S1x2048 .f32} {harg1 : arg1.IsWhole} {arg2 : Memref sig .tc .vmem S1x2048 .f32} {harg2 : arg2.IsWhole} {arg3 : Memref sig .tc .vmem S20x2048 .f32} {harg3 : arg3.IsWhole} {arg4 : Memref sig .tc .vmem S20x2048 .f32} {harg4 : arg4.IsWhole} {arg5 : Memref sig .tc .vmem S1x20 .f32} {harg5 : arg5.IsWhole} {arg6 : Memref sig .tc .vmem S20x2048 .f32} {harg6 : arg6.IsWhole} {arg7 : Memref sig .tc .vmem S256x2048 .f32} {harg7 : arg7.IsWhole} {arg8 : Memref sig .tc .vmem S256x2048 .f32} {harg8 : arg8.IsWhole} {arg9 : Memref sig .tc .vmem S1x256 .f32} {harg9 : arg9.IsWhole} {arg10 : Memref sig .tc .vmem S1x256 .f32} {harg10 : arg10.IsWhole} {arg11 : Memref sig .tc .vmem S1x20 .f32} {harg11 : arg11.IsWhole} {arg12 : Memref sig .tc .vmem S1x2048 .f32} {harg12 : arg12.IsWhole}

set_option maxHeartbeats 2000000 in
-- Past the first point the body computes the combine tile from the context row in the scratch.
theorem run0_later (hc : ¬k0_cond1 i = 1#1)
    (x1 : Vec F S1x2048 .f32) (x7 x8 : Vec F S256x2048 .f32) (x9 : Vec F S1x256 .f32) (xs : Vec F S1x2048 .f32)
    (E : Set ℕ) (K : PUnit → sProp 𝕄) :
    iprop(owns (c : Thread nD τ) arg1 fullShare x1 ∗ owns (c : Thread nD τ) arg7 fullShare x7 ∗ owns (c : Thread nD τ) arg8 fullShare x8 ∗ owns (c : Thread nD τ) arg9 fullShare x9
        ∗ (∃ d, owns (c : Thread nD τ) arg10 fullShare d) ∗ owns (c : Thread nD τ) arg12 fullShare xs
        ∗ (iprop(owns (c : Thread nD τ) arg1 fullShare x1 ∗ owns (c : Thread nD τ) arg7 fullShare x7 ∗ owns (c : Thread nD τ) arg8 fullShare x8 ∗ owns (c : Thread nD τ) arg9 fullShare x9
            ∗ owns (c : Thread nD τ) arg10 fullShare (k0_pay1 x1 xs x7 x8 x9) ∗ owns (c : Thread nD τ) arg12 fullShare xs) -∗ K ⟨⟩))
      ⊢ wp frame (wpE (defs₀ (F := F)) Variants.none c none) E (cc0_attn_comb_kernel i arg1 harg1 arg2 harg2 arg3 harg3 arg4 harg4 arg5 harg5 arg6 harg6 arg7 harg7 arg8 harg8 arg9 harg9 arg10 harg10 arg11 harg11 arg12 harg12) K := by
  simp only [cc0_attn_comb_kernel_eq_skeleton]; unfold cc0_attn_comb_kernel_skel
  rw [owns_unread c harg1, owns_unread c harg7, owns_unread c harg8, owns_unread c harg9, owns_unread c harg12]
  unfold owns
  iintro ⟨H1, H7, H8, H9, ⟨%d10, %f10, -, H10⟩, HS, Hk⟩
  sl_exec (disch := first | exact hc)
  sl_step
  iapply Hk
  iframe H1 H7 H8 H9 HS
  iexists _; isplitr
  swap; · iexact H10
  ipureintro
  rw [read_writes_full _ _ off00]; repeat rw [readAt_full _ _ off00]

set_option maxHeartbeats 4000000 in
-- At the first point the body also computes the attention weights and the context row.
theorem run0_first (hc : k0_cond1 i = 1#1)
    (x1 x2 : Vec F S1x2048 .f32) (x3 x4 : Vec F S20x2048 .f32) (x5 : Vec F S1x20 .f32) (x6 : Vec F S20x2048 .f32)
    (x7 x8 : Vec F S256x2048 .f32) (x9 : Vec F S1x256 .f32)
    (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
        ∗ owns (c : Thread nD τ) arg6 fullShare x6 ∗ owns (c : Thread nD τ) arg7 fullShare x7 ∗ owns (c : Thread nD τ) arg8 fullShare x8 ∗ owns (c : Thread nD τ) arg9 fullShare x9
        ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare x7 ∗ owns (c : Thread nD τ) arg8 fullShare x8 ∗ owns (c : Thread nD τ) arg9 fullShare x9
            ∗ owns (c : Thread nD τ) arg10 fullShare (k0_pay1 x1 (k0_pay3 x1 x2 x3 x4 x5 x6) x7 x8 x9)
            ∗ owns (c : Thread nD τ) arg11 fullShare (k0_pay2 x1 x2 x3 x4 x5)
            ∗ owns (c : Thread nD τ) arg12 fullShare (k0_pay3 x1 x2 x3 x4 x5 x6)) -∗ K ⟨⟩))
      ⊢ wp frame (wpE (defs₀ (F := F)) Variants.none c none) E (cc0_attn_comb_kernel i arg1 harg1 arg2 harg2 arg3 harg3 arg4 harg4 arg5 harg5 arg6 harg6 arg7 harg7 arg8 harg8 arg9 harg9 arg10 harg10 arg11 harg11 arg12 harg12) K := by
  simp only [cc0_attn_comb_kernel_eq_skeleton]; unfold cc0_attn_comb_kernel_skel
  simp only [k0_part1_eq_skeleton]
  rw [owns_unread c harg1, owns_unread c harg2, owns_unread c harg3, owns_unread c harg4, owns_unread c harg5, owns_unread c harg6, owns_unread c harg7, owns_unread c harg8, owns_unread c harg9]
  unfold owns
  iintro ⟨H1, H2, H3, H4, H5, H6, H7, H8, H9, ⟨%d10, %f10, -, H10⟩, ⟨%d11, %f11, -, H11⟩, ⟨%ds, %fs, -, HS⟩, Hk⟩
  sl_exec (disch := first | exact hc)
  sl_step
  iapply Hk
  iframe H1 H2 H3 H4 H5 H6 H7 H8 H9
  isplitl [H10]
  · iexists _; isplitr
    swap; · iexact H10
    ipureintro
    sl_unfold_run_names
    rw [read_writes_full _ _ off00, View.readCov_unit_zero _ off00]; repeat rw [readAt_full _ _ off00]
  isplitl [H11]
  · iexists _; isplitr
    swap; · iexact H11
    ipureintro
    rw [read_writes_full _ _ off00]; repeat rw [readAt_full _ _ off00]
  iexists _; isplitr
  swap; · iexact HS
  ipureintro
  sl_unfold_run_names
  rw [read_writes_full _ _ off00]; repeat rw [readAt_full _ _ off00]

end Body

variable (V : (c : Dev nD) → (b : Ref sig .tc) → Buf (Elt F) ((c : Thread nD τ).loc b))

def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def pt0 : Fin cfg0.N := ⟨0, lt_of_lt_of_eq (by decide : 0 < 8) N_0.symm⟩

-- The attention weights, from the first point's blocks.
def aw0 (c : Dev nD) : Vec F S1x20 .f32 :=
  k0_pay2 (blk0 V c 0 pt0) (blk0 V c 1 pt0) (blk0 V c 2 pt0) (blk0 V c 3 pt0) (blk0 V c 4 pt0)

-- The context row: the attention weights applied to the encoder outputs.
def ctx0 (c : Dev nD) : Vec F S1x2048 .f32 :=
  k0_pay3 (blk0 V c 0 pt0) (blk0 V c 1 pt0) (blk0 V c 2 pt0) (blk0 V c 3 pt0) (blk0 V c 4 pt0) (blk0 V c 5 pt0)

-- The combine tile of point `t`.
def comb0 (c : Dev nD) (t : Fin cfg0.N) : Vec F S1x256 .f32 :=
  k0_pay1 (blk0 V c 0 t) (ctx0 V c) (blk0 V c 6 t) (blk0 V c 7 t) (blk0 V c 8 t)

-- From the first point on, the scratch holds the context row.
def Phi0 (c : Dev nD) : ℕ → sProp 𝕄
  | 0 => iprop((∃ r, prngReg c r) ∗ Pipeline.scopedRest spec0 c)
  | _ + 1 => iprop(owns (c : Thread nD τ) (Memref.whole cc0_scratch0) fullShare (ctx0 V c) ∗ (∃ r, prngReg c r)
      ∗ Pipeline.scopedRestBut spec0 c [cc0_scratch0])

-- Two pairs of windows share an array, half each.
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => blk0 V c 5 t
    | ⟨6, _⟩ => blk0 V c 6 t
    | ⟨7, _⟩ => blk0 V c 7 t
    | ⟨8, _⟩ => blk0 V c 8 t
    | ⟨9, _⟩ => comb0 V c t
    | ⟨10, _⟩ => aw0 V c
  Φ t := Phi0 V c t.val
  q w := match w with
    | ⟨2, _⟩ | ⟨6, _⟩ => fullShare.left
    | ⟨3, _⟩ | ⟨7, _⟩ => fullShare.right
    | _ => fullShare
  owed _ := 0

theorem A_eq0 (c : Dev nD) (w : Fin cfg0.W) : (dat0 V c).A w = V c (Pipeline.arrRef spec0 w) := rfl

theorem owed0 (c : Dev nD) (t : Fin (cfg0.N + 1)) : (dat0 V c).owed t = 0 := rfl

theorem after0_9 (c : Dev nD) (t : Fin cfg0.N) : (dat0 V c).after 9 t = comb0 V c t := rfl
theorem after0_10 (c : Dev nD) (t : Fin cfg0.N) : (dat0 V c).after 10 t = aw0 V c := rfl

theorem Phi0_zero (c : Dev nD) :
    Phi0 V c 0 = iprop((∃ r, prngReg c r) ∗ (∃ d, owns (c : Thread nD τ) (Memref.whole cc0_scratch0) fullShare d)
      ∗ Pipeline.scopedRestBut spec0 c [cc0_scratch0]) := by
  unfold Phi0; rw [scopedRest0_split]; simp only [owns_whole]

theorem Phi0_pos (c : Dev nD) (n : ℕ) (hn : n ≠ 0) :
    Phi0 V c n = iprop(owns (c : Thread nD τ) (Memref.whole cc0_scratch0) fullShare (ctx0 V c) ∗ (∃ r, prngReg c r)
      ∗ Pipeline.scopedRestBut spec0 c [cc0_scratch0]) := by
  cases n
  · exact absurd rfl hn
  · rfl

theorem hin0 (c : Dev nD) : (iprop((∃ r, prngReg c r) ∗ Pipeline.scopedRest spec0 c) : sProp 𝕄) ⊢ (dat0 V c).Φ 0 :=
  Idealize.SL.BI.Entails.refl _

-- After the last point the scratch's contents are forgotten.
theorem hout0 (c : Dev nD) : (dat0 V c).Φ (Fin.last cfg0.N) ⊢ (iprop((∃ r, prngReg c r) ∗ Pipeline.scopedRest spec0 c) : sProp 𝕄) := by
  rw [show (dat0 V c).Φ (Fin.last cfg0.N) = Phi0 V c (7 + 1) from rfl, Phi0_pos V c (7 + 1) (Nat.succ_ne_zero 7), scopedRest0_split]
  simp only [owns_whole]
  iintro ⟨HS, Hg, Hr⟩
  iframe Hg Hr
  iexists _; iexact HS

-- At every point an input's block is the restriction of its array to the point's rectangle, which the body leaves.
theorem before0 (c : Dev nD) (w : Fin cfg0.W) (hw : (cfg0.win w).isOut = false) (t : Fin cfg0.N) (d) :
    (dat0 V c).before w t d = (dat0 V c).after w t := by
  fin_cases w <;> first
    | exact absurd hw (by decide)
    | exact ((dat0 V c).before_in_eq_fetched _ rfl (fun _ => rfl) (fun _ _ _ => rfl) (fun _ => rfl) t d).trans rfl

-- A window live at a point is left at what the body leaves in it.
theorem live0 (c : Dev nD) (w : Fin cfg0.W) (t : Fin cfg0.N) (h : cfg0.idle w (cfg0.grid.coords t) = false) :
    (dat0 V c).leavesExact w t = owns (c : Thread nD τ) ((cfg0.win w).stage (cfg0.slots t w)) fullShare ((dat0 V c).after w t) := by
  unfold Dat.leavesExact; rw [h]

theorem hcond0 : ∀ t : Fin cfg0.N, k0_cond1 (cfg0.grid.coords t) = 1#1 ↔ t.val = 0 :=
  (by decide +kernel : ∀ t : Fin grid0.N, k0_cond1 (grid0.coords t) = 1#1 ↔ t.val = 0)

theorem live0_10 : ∀ t : Fin cfg0.N, t.val = 0 → cfg0.idle 10 (cfg0.grid.coords t) = false := by decide +kernel
theorem idle0_10 : ∀ t : Fin cfg0.N, t.val ≠ 0 → cfg0.idle 10 (cfg0.grid.coords t) = true := by decide +kernel

theorem noflush0_10 : ∀ t : Fin cfg0.N, t.val ≠ 7 → (cfg0.win 10).flush t = false := by decide +kernel

-- After the first point the eleventh window's contents are the attention weights, by induction on the point.
theorem bef0_10 (c : Dev nD) (d) : ∀ (k : ℕ) (t : Fin cfg0.N), t.val = k + 1 → (dat0 V c).before 10 t d = aw0 V c := by
  intro k
  induction k
  all_goals
    intro t ht
    have hN : t.val < 8 := lt_of_lt_of_eq t.isLt N_0
    rw [(dat0 V c).before_of_pos 10 t (by omega) ((cfg0.win 10).fetch_out rfl t) d,
      if_neg (by rw [noflush0_10 ⟨t.val - 1, _⟩ (by simp only; omega)]; exact Bool.false_ne_true)]
    unfold Dat.left
  case zero =>
    rw [live0_10 ⟨t.val - 1, _⟩ (by simp only; omega)]
    dsimp only
    unfold Dat.kept
    rw [after0_10, Pipeline.fill_of_clip_none 10 _ (fun _ => rfl) d (aw0 V c), Pipeline.Window.fill_cut]
  case succ k ih =>
    rw [idle0_10 ⟨t.val - 1, _⟩ (by simp only; omega)]
    dsimp only
    exact ih ⟨t.val - 1, _⟩ (by simp only; omega)

-- A later point leaves the eleventh window as it finds it.
theorem keep0_10 (c : Dev nD) (t : Fin cfg0.N) (h0 : t.val ≠ 0) :
    (iprop(∃ d, owns (c : Thread nD τ) ((cfg0.win 10).stage (cfg0.slots t 10)) fullShare ((dat0 V c).before 10 t d)) : sProp 𝕄) ⊢ (dat0 V c).leavesExact 10 t := by
  have hN : t.val < 8 := lt_of_lt_of_eq t.isLt N_0
  by_cases h7 : t.val = 7
  · have hb : ∀ d, (dat0 V c).before 10 t d = aw0 V c := fun d => bef0_10 V c d (t.val - 1) t (by omega)
    rw [show (dat0 V c).leavesExact 10 t = owns (c : Thread nD τ) ((cfg0.win 10).stage (cfg0.slots t 10)) fullShare ((dat0 V c).after 10 t) from by
      unfold Dat.leavesExact; rw [idle0_10 t h0, (flush0_10 t).mpr (by omega)], after0_10]
    simp only [hb]
    iintro ⟨%d, H⟩
    iexact H
  · rw [Dat.leavesExact_idle (dat0 V c) 10 t (idle0_10 t h0) (noflush0_10 t h7)]

-- The two control cases, by the point's index.
theorem sound_body0 (c : Dev nD) (t : Fin cfg0.N) :
    iprop((dat0 V c).Φ t.castSucc ∗ (dat0 V c).owesAt () t.castSucc
        ∗ bigSep Finset.univ fun w : Fin cfg0.W => iprop(∃ d, owns (c : Thread nD τ) ((cfg0.win w).stage (cfg0.slots t w)) fullShare ((dat0 V c).before w t d)))
      ⊢ wp frame (wpE (defs₀ (F := F)) Variants.none c none) Set.univ (bodyAt0 t) fun _ =>
          iprop((dat0 V c).Φ t.succ ∗ (dat0 V c).owesAt () t.succ
            ∗ bigSep Finset.univ fun w : Fin cfg0.W => (dat0 V c).leavesExact w t) := by
  rw [bigSep_W0, bigSep_W0, show (dat0 V c).Φ t.castSucc = Phi0 V c t.val from rfl, show (dat0 V c).Φ t.succ = Phi0 V c (t.val + 1) from rfl,
    show (dat0 V c).owesAt () t.succ = (dat0 V c).owesAt () t.castSucc from rfl]
  unfold bodyAt0
  simp (disch := rfl) only [before0, live0]
  by_cases h0 : t.val = 0
  · have ht : pt0 = t := Fin.ext h0.symm
    rw [live0 V c 10 t (live0_10 t h0), h0, Phi0_zero, Phi0_pos V c (0 + 1) (Nat.succ_ne_zero 0)]
    dsimp only [dat0]
    unfold comb0 ctx0 aw0
    rw [ht]
    iintro ⟨⟨Hg, ⟨%ds, HS⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (run0_first c (grid0.coords t) ((hcond0 t).mpr h0) (blk0 V c 0 t) (blk0 V c 1 t) (blk0 V c 2 t) (blk0 V c 3 t) (blk0 V c 4 t) (blk0 V c 5 t) (blk0 V c 6 t) (blk0 V c 7 t) (blk0 V c 8 t) Set.univ _)
    iframe H0 H1 H2 H3 H4 H5 H6 H7 H8
    isplitl [H9]; · iexists _; iexact H9
    isplitl [H10]; · iexists _; iexact H10
    isplitl [HS]; · iexists _; iexact HS
    iintro ⟨H0, H1, H2, H3, H4, H5, H6, H7, H8, H9, H10, HS⟩
    iframe
  · rw [Phi0_pos V c t.val h0, Phi0_pos V c (t.val + 1) (Nat.succ_ne_zero _)]
    dsimp only [dat0]
    unfold comb0
    iintro ⟨⟨HS, Hg, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10⟩
    iapply (run0_later c (grid0.coords t) (fun h => h0 ((hcond0 t).mp h)) (blk0 V c 0 t) (blk0 V c 6 t) (blk0 V c 7 t) (blk0 V c 8 t) (ctx0 V c) Set.univ _)
    iframe H0 H6 H7 H8 HS
    isplitl [H9]; · iexists _; iexact H9
    iintro ⟨H0, H6, H7, H8, H9, HS⟩
    iframe HS Hg Hr Ho H0 H1 H2 H3 H4 H5 H6 H7 H8 H9
    iapply (keep0_10 V c t h0)
    iexact H10

theorem body_obligation0 (c : Dev nD) : BodyObligation (dat0 (F := F) V c) (defs₀ (F := F)) Variants.none () Set.univ := fun t => by
  have h := sound_body0 V c t
  rw [bigSep_W0, bigSep_W0] at h ⊢
  exact h

end Cert.Kernel.Frame

end
-- ==== Proof.K.R1Data.lean ====
import proofs.«424062_j22247930593355_3_alg».proof.Proof.K.Base

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.Kernel Cert.Kernel.Gen

variable {F : FTy → Type} [FloatOps F]

local notation "𝕄" => MT nD τ sig Unit (Elt F) ℕ (UR sig nD τ) ℕ

abbrev rRow : Rect S1x2048 := Rect.unit (s := S1x2048) ![0, 0] S1x2048.size inb_S1x2048_S1x2048_0_0
abbrev rMat : Rect S256x2048 := Rect.unit (s := S256x2048) ![0, 0] S256x2048.size inb_S256x2048_S256x2048_0_0
abbrev rTile : Rect S1x256 := Rect.unit (s := S1x256) ![0, 0] S1x256.size inb_S1x256_S1x256_0_0
/-- The 256 columns of the old hidden row that the point at coordinates `i` updates. -/
abbrev rHid (i : grid1.Coords) : Rect S1x2048 := Rect.unit (s := S1x2048) (k1_off1 i) S1x256.size (k1_off1_inb i)

section Kernel

variable (i : grid1.Coords) (x0 x1 : Vec F S1x2048 .f32) (x2 x3 x4 x5 x6 x7 : Vec F S256x2048 .f32) (x8 x9 x10 x11 x12 x13 : Vec F S1x256 .f32)

/-- The new hidden tile at coordinates `i`, from the fourteen input blocks. -/
def gruTile : Vec F S1x256 .f32 :=
  k1_pay1 (k1_pay3 (View.ld x1 rRow)) (k1_pay4 (View.ld x5 rMat)) (k1_pay5 (View.ld x6 rMat)) (k1_pay6 (View.ld x7 rMat))
    (k1_pay7 (View.ld x0 rRow) (View.ld x2 rMat) (View.ld x8 rTile)) (k1_pay8 (View.ld x0 rRow) (View.ld x3 rMat) (View.ld x9 rTile))
    (k1_pay9 (View.ld x0 rRow) (View.ld x4 rMat)) (View.ld x10 rTile) (View.ld x11 rTile) (View.ld x12 rTile) (View.ld x13 rTile)
    (View.ld x1 (rHid i))

/-- What the output buffer holds after the body's one store, of the whole tile. -/
def out1_14 : Vec F S1x256 .f32 :=
  View.canon [⟨rTile, gruTile i x0 x1 x2 x3 x4 x5 x6 x7 x8 x9 x10 x11 x12 x13⟩]

end Kernel

section Data

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Proof data: inputs left at their blocks, the output at the new tile; three readers of one array hold a half and two quarters. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => out1_14 (cfg1.grid.coords t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t)
  Φ _ := Pipeline.ΦA spec1 c
  q := ![fullShare, fullShare, fullShare.left, fullShare.right.left, fullShare.right.right, fullShare.left, fullShare.right.left, fullShare.right.right, fullShare.left, fullShare.right.left, fullShare.right.right, fullShare.left, fullShare.right.left, fullShare.right.right, fullShare]
  owed _ := 0

theorem A_eq1 (c : Dev nD) (w : Fin cfg1.W) : (dat1 V c).A w = V c (Pipeline.arrRef spec1 w) := rfl

theorem owed1 (c : Dev nD) (t : Fin (cfg1.N + 1)) : (dat1 V c).owed t = 0 := rfl

theorem q1_0 (c : Dev nD) : (dat1 V c).q 0 = fullShare := rfl
theorem q1_1 (c : Dev nD) : (dat1 V c).q 1 = fullShare := rfl
theorem q1_2 (c : Dev nD) : (dat1 V c).q 2 = fullShare.left := rfl
theorem q1_3 (c : Dev nD) : (dat1 V c).q 3 = fullShare.right.left := rfl
theorem q1_4 (c : Dev nD) : (dat1 V c).q 4 = fullShare.right.right := rfl
theorem q1_5 (c : Dev nD) : (dat1 V c).q 5 = fullShare.left := rfl
theorem q1_6 (c : Dev nD) : (dat1 V c).q 6 = fullShare.right.left := rfl
theorem q1_7 (c : Dev nD) : (dat1 V c).q 7 = fullShare.right.right := rfl
theorem q1_8 (c : Dev nD) : (dat1 V c).q 8 = fullShare.left := rfl
theorem q1_9 (c : Dev nD) : (dat1 V c).q 9 = fullShare.right.left := rfl
theorem q1_10 (c : Dev nD) : (dat1 V c).q 10 = fullShare.right.right := rfl
theorem q1_11 (c : Dev nD) : (dat1 V c).q 11 = fullShare.left := rfl
theorem q1_12 (c : Dev nD) : (dat1 V c).q 12 = fullShare.right.left := rfl
theorem q1_13 (c : Dev nD) : (dat1 V c).q 13 = fullShare.right.right := rfl

theorem after1_14 (c : Dev nD) (t : Fin cfg1.N) :
    (dat1 V c).after 14 t = out1_14 (cfg1.grid.coords t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) := rfl

/-- What the body finds in an input's buffer is what it leaves there. -/
theorem before1 (c : Dev nD) (w : Fin cfg1.W) (hw : (cfg1.win w).isOut = false) (t : Fin cfg1.N) (d) :
    (dat1 V c).before w t d = (dat1 V c).after w t := by
  fin_cases w <;> first
    | exact absurd hw (by decide)
    | exact ((dat1 V c).before_in_eq_fetched _ rfl (fun _ => rfl) (fun _ _ _ => rfl) (fun _ => rfl) t d).trans rfl

set_option maxHeartbeats 1000000 in
/-- The body at any point reads its inputs and keeps them, and leaves the new hidden tile in the output's buffer. -/
theorem body_obligation1 (c : Dev nD) : BodyObligation (dat1 (F := F) V c) (defs₀ (F := F)) Variants.none () Set.univ := fun t => by
  rw [bigSep_W1, bigSep_W1]
  simp (disch := rfl) only [before1, show ∀ w i, cfg1.idle w i = false from fun _ _ => rfl]
  dsimp only [dat1]
  sl_whnfR [defs₀, Defs.onTc]
  sl_unfold [cc1_gru_kernel]
  conv_lhs => unfold owns
  iintro ⟨HΦ, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩, ⟨%d9, %f9, %hf9, H9⟩, ⟨%d10, %f10, %hf10, H10⟩, ⟨%d11, %f11, %hf11, H11⟩, ⟨%d12, %f12, %hf12, H12⟩, ⟨%d13, %f13, %hf13, H13⟩, ⟨%d14, %f14, -, H14⟩⟩
  rw [← hf0, ← hf1, ← hf2, ← hf3, ← hf4, ← hf5, ← hf6, ← hf7, ← hf8, ← hf9, ← hf10, ← hf11, ← hf12, ← hf13]
  iapply wp_frame_l _ _ _; isplitl [HΦ]; · iexact HΦ
  iapply wp_frame_l _ _ _; isplitl [Ho]; · iexact Ho
  sl_exec
  sl_step
  isplitl [H0]; · iapply owns_intro $$ H0
  isplitl [H1]; · iapply owns_intro $$ H1
  isplitl [H2]; · iapply owns_intro $$ H2
  isplitl [H3]; · iapply owns_intro $$ H3
  isplitl [H4]; · iapply owns_intro $$ H4
  isplitl [H5]; · iapply owns_intro $$ H5
  isplitl [H6]; · iapply owns_intro $$ H6
  isplitl [H7]; · iapply owns_intro $$ H7
  isplitl [H8]; · iapply owns_intro $$ H8
  isplitl [H9]; · iapply owns_intro $$ H9
  isplitl [H10]; · iapply owns_intro $$ H10
  isplitl [H11]; · iapply owns_intro $$ H11
  isplitl [H12]; · iapply owns_intro $$ H12
  isplitl [H13]; · iapply owns_intro $$ H13
  unfold owns; iexists _; isplitr; swap; · iexact H14
  ipureintro
  exact View.read_writes_eq_canon _ _ _ (View.cover_of_tiled _ S1x256.size (by rfl))

theorem hin1 (c : Dev nD) : (iprop((∃ r, prngReg c r) ∗ Pipeline.scopedRest spec1 c) : sProp 𝕄) ⊢ (dat1 V c).Φ 0 :=
  BI.sep_comm

theorem hout1 (c : Dev nD) : (dat1 V c).Φ (Fin.last cfg1.N) ⊢ (iprop((∃ r, prngReg c r) ∗ Pipeline.scopedRest spec1 c) : sProp 𝕄) :=
  BI.sep_comm

end Data

end Cert.Kernel.Frame

end
-- ==== Proof.K.R2Data.lean ====
import proofs.«424062_j22247930593355_3_alg».proof.Proof.K.Base
import Idealize.ShloMosaic.Lib.Pipeline.Value

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- Column `j` of the payload reads row `j` of the weight block and entry `j` of the bias only. -/
class K2Local (F : FTy → Type) [FloatOps F] : Prop where
  col : ∀ (x0 : Vec F S1x2048 .f32) (X X' : Vec F S2048x2048 .f32) (b b' : Vec F S1x2048 .f32) (j : S1x2048.Idx),
    (∀ k : S2048x2048.Idx, (k 0).val = (j 1).val → X k = X' k) → b j = b' j → k2_pay1 x0 X b j = k2_pay1 x0 X' b' j

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The weight block filled out to the buffer's shape with zeros. -/
def wblk2 (c : Dev nD) (t : Fin cfg2.N) : S2048x2048.Idx → Elt F .f32 :=
  win2_1.fill (grid2.coords t) (fun _ => Scalar.ofBits .f32 0#32) (iblk2 V c 1 t)

def bblk2 (c : Dev nD) (t : Fin cfg2.N) : S1x2048.Idx → Elt F .f32 :=
  win2_2.fill (grid2.coords t) (fun _ => Scalar.ofBits .f32 0#32) (iblk2 V c 2 t)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => wblk2 V c t
    | ⟨2, _⟩ => bblk2 V c t
    | ⟨3, _⟩ => k2_pay1 (iblk2 V c 0 t) (wblk2 V c t) (bblk2 V c t)
  Φ _ := Pipeline.ΦA spec2 c
  q _ := fullShare
  owed _ := 0

theorem A_eq2 (c : Dev nD) (w : Fin cfg2.W) : (dat2 V c).A w = V c (Pipeline.arrRef spec2 w) := rfl

theorem owed2 (c : Dev nD) (t : Fin (cfg2.N + 1)) : (dat2 V c).owed t = 0 := rfl

theorem q2 (c : Dev nD) (w : Fin cfg2.W) : (dat2 V c).q w = fullShare := rfl

theorem after2_3 (c : Dev nD) (t : Fin cfg2.N) :
    (dat2 V c).after 3 t = k2_pay1 (iblk2 V c 0 t) (wblk2 V c t) (bblk2 V c t) := rfl

theorem hin2 (c : Dev nD) : (iprop((∃ r, prngReg c r) ∗ Pipeline.scopedRest spec2 c) : sProp 𝕄) ⊢ (dat2 V c).Φ 0 := sep_comm.1

theorem hout2 (c : Dev nD) : (dat2 V c).Φ (Fin.last cfg2.N) ⊢ (iprop((∃ r, prngReg c r) ∗ Pipeline.scopedRest spec2 c) : sProp 𝕄) := sep_comm.1

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d

/-- The weight block is cut along its rows as the result block is along its columns; the bias block as the result block. -/
theorem xsize2 : ∀ i : grid2.Coords,
    win2_1.xsize i 0 = win2_3.xsize i 1 ∧ win2_1.xsize i 1 = 2048 ∧ ∀ a, win2_2.xsize i a = win2_3.xsize i a := by
  decide +kernel

/-- A moved column `j` of the payload reads row `j` of the weight block and entry `j` of the bias, both inside the arrays. -/
theorem cut_out2 [K2Local F] (i : grid2.Coords) (x0 : Vec F S1x2048 .f32)
    (d1 d1' : S2048x2048.Idx → Elt F .f32) (B1 : (win2_1.xblock i).Idx → Elt F .f32)
    (d2 d2' : S1x2048.Idx → Elt F .f32) (B2 : (win2_2.xblock i).Idx → Elt F .f32) :
    win2_3.cut i (k2_pay1 x0 (win2_1.fill i d1 B1) (win2_2.fill i d2 B2))
      = win2_3.cut i (k2_pay1 x0 (win2_1.fill i d1' B1) (win2_2.fill i d2' B2)) := by
  funext j
  obtain ⟨h10, h11, h2⟩ := xsize2 i
  refine K2Local.col x0 _ _ _ _ (win2_3.xinj i j) (fun k hk => ?_) ?_
  · have hm : win2_1.moved i k = true := (win2_1.moved_iff i k).mpr fun a => by
      match a with
      | ⟨0, _⟩ => show (k 0).val < win2_1.xsize i 0; rw [h10, hk]; exact (j 1).isLt
      | ⟨1, _⟩ => show (k 1).val < win2_1.xsize i 1; rw [h11]; exact (k 1).isLt
    unfold Window.fill; rw [dif_pos hm, dif_pos hm]
  · have hm : win2_2.moved i (win2_3.xinj i j) = true :=
      (win2_2.moved_iff i _).mpr fun a => by rw [h2 a]; exact (j a).isLt
    unfold Window.fill; rw [dif_pos hm, dif_pos hm]

set_option maxHeartbeats 1000000 in
/-- Three whole loads and one whole store: the body hands the inputs' buffers back as found and the result's at the
    payload of what they hold, which `h` says is of the form `G d`. -/
theorem body2 (c : Dev nD) (t : Fin cfg2.N) (P G : (S1x2048.Idx → Elt F .f32) → S1x2048.Idx → Elt F .f32)
    (h : ∀ d1 d2, ∃ d, k2_pay1 (iblk2 V c 0 t) ((dat2 V c).fetched 1 t d1) ((dat2 V c).fetched 2 t d2) = G d) :
    iprop((dat2 V c).Φ t.castSucc ∗ (dat2 V c).owesAt () t.castSucc
      ∗ (∃ d, owns (c : Thread nD τ) (win2_0.stage (cfg2.slots t 0)) fullShare ((dat2 V c).before 0 t d))
      ∗ (∃ d, owns (c : Thread nD τ) (win2_1.stage (cfg2.slots t 1)) fullShare ((dat2 V c).before 1 t d))
      ∗ (∃ d, owns (c : Thread nD τ) (win2_2.stage (cfg2.slots t 2)) fullShare ((dat2 V c).before 2 t d))
      ∗ (∃ d, owns (c : Thread nD τ) (win2_3.stage (cfg2.slots t 3)) fullShare (P d)))
    ⊢ wp frame (wpE (defs₀ (F := F)) Variants.none c none) Set.univ (bodyAt2 t) fun _ =>
      iprop((dat2 V c).Φ t.castSucc ∗ (dat2 V c).owesAt () t.castSucc
        ∗ owns (c : Thread nD τ) (win2_0.stage (cfg2.slots t 0)) fullShare (iblk2 V c 0 t)
        ∗ (∃ d, owns (c : Thread nD τ) (win2_1.stage (cfg2.slots t 1)) fullShare
            (win2_1.fill (grid2.coords t) d (win2_1.cut (grid2.coords t) (wblk2 V c t))))
        ∗ (∃ d, owns (c : Thread nD τ) (win2_2.stage (cfg2.slots t 2)) fullShare
            (win2_2.fill (grid2.coords t) d (win2_2.cut (grid2.coords t) (bblk2 V c t))))
        ∗ (∃ d, owns (c : Thread nD τ) (win2_3.stage (cfg2.slots t 3)) fullShare (G d))) := by
  simp only [before2_0, (dat2 V c).before_fetched 1 t (fetch2_1 t), (dat2 V c).before_fetched 2 t (fetch2_2 t)]
  unfold wblk2 bblk2 bodyAt2
  rw [Window.cut_fill, Window.cut_fill]
  simp only [cc2_out_kernel_eq_skeleton]; unfold cc2_out_kernel_skel
  unfold owns
  iintro ⟨HΦ, Ho, ⟨%d0, %f0, %hf0, H0⟩, ⟨%d1, %f1, %hf1, H1⟩, ⟨%d2, %f2, %hf2, H2⟩, ⟨%d3, %f3, -, H3⟩⟩
  obtain ⟨d, hd⟩ := h d1 d2
  iapply wp_frame_l _ _ _; isplitl [HΦ]; · iexact HΦ
  iapply wp_frame_l _ _ _; isplitl [Ho]; · iexact Ho
  sl_exec
  sl_step
  isplitl [H0]
  · iexists f0; isplitr; · ipureintro; exact hf0
    iexact H0
  isplitl [H1]
  · iexists d1; iexists f1; isplitr; · ipureintro; exact hf1
    iexact H1
  isplitl [H2]
  · iexists d2; iexists f2; isplitr; · ipureintro; exact hf2
    iexact H2
  iexists d; iexists _; isplitr
  swap; · iexact H3
  ipureintro
  have hz : (![0, 0] : Fin 2 → Nat) = fun _ => 0 := funext fun a => by fin_cases a <;> rfl
  rw [← hd, ← hf0, ← hf1, ← hf2,
    View.read_writes_eq_canon _ _ _ (fun y => ⟨_, List.mem_singleton_self _, View.mem_set_unit_zero (S := S1x2048) hz inb_S1x2048_S1x2048_0_0 y⟩),
    View.canon_unit_zero (S := S1x2048) hz inb_S1x2048_S1x2048_0_0]
  exact congr (congr (congrArg k2_pay1 (View.ld_unit_zero (S := S1x2048) hz inb_S1x2048_S1x2048_0_0 _))
    (View.ld_unit_zero (S := S2048x2048) hz inb_S2048x2048_S2048x2048_0_0 _))
    (View.ld_unit_zero (S := S1x2048) hz inb_S1x2048_S1x2048_0_0 _)

theorem body_obligation2 [K2Local F] (c : Dev nD) :
    Pipeline.BodyObligationLoose (dat2 (F := F) V c) (defs₀ (F := F)) Variants.none () Set.univ := fun t => by
  rw [bigSep_W2, bigSep_W2]
  exact body2 V c t ((dat2 V c).before 3 t) (fun d => win2_3.fill (grid2.coords t) d (win2_3.cut (grid2.coords t) ((dat2 V c).after 3 t)))
    fun d1 d2 => ⟨_, (Window.fill_congr_cut win2_3 _ (cut_out2 (grid2.coords t) (iblk2 V c 0 t) d1 _ (iblk2 V c 1 t) d2 _ (iblk2 V c 2 t))).symm⟩

/-- The forgotten window: the result's. -/
def fgt2 : Fin cfg2.W → Bool := fun w => decide (w = 3)

theorem body_obligation2F (c : Dev nD) :
    Pipeline.BodyObligationLoose (dat2 (F := F) V c) (defs₀ (F := F)) Variants.none () Set.univ fgt2 := fun t => by
  rw [bigSep_W2, bigSep_W2]
  exact body2 V c t (fun X => X) (fun X => X) fun _ _ => ⟨_, rfl⟩

end Cert.Kernel.Frame

end
-- ==== Proof.K.Pdats.lean ====
import proofs.«424062_j22247930593355_3_alg».proof.Proof.K.R0Data
import proofs.«424062_j22247930593355_3_alg».proof.Proof.K.R1Data
import proofs.«424062_j22247930593355_3_alg».proof.Proof.K.R2Data

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

def left0 (r : Ref sig .tc) (c : Dev nD) : Buf (Elt F) ((c : Thread nD τ).loc r) :=
  if h : r = main_v4_0 then h ▸ (dat0 (atTc (V2 m)) c).arrAt 9 cfg0.N
  else if h : r = main_v4_1 then h ▸ (dat0 (atTc (V2 m)) c).arrAt 10 cfg0.N
  else V2 m c r

def outsA : Outs (F := F) := fun _ r c => left0 m r c

def left1 (r : Ref sig .tc) (c : Dev nD) : Buf (Elt F) ((c : Thread nD τ).loc r) :=
  if h : r = main_v7 then h ▸ (dat1 (atTc (V4 m (outsA m))) c).arrAt 14 cfg1.N
  else V4 m (outsA m) c r

def outsB : Outs (F := F) := fun J r c => match J with | 3 => left0 m r c | _ => left1 m r c

def left2 (r : Ref sig .tc) (c : Dev nD) : Buf (Elt F) ((c : Thread nD τ).loc r) :=
  if h : r = main_v9 then h ▸ (dat2 (atTc (V6 m (outsB m))) c).arrAt 3 cfg2.N
  else V6 m (outsB m) c r

def outs : Outs (F := F) := fun J r c => match J with | 3 => left0 m r c | 5 => left1 m r c | _ => left2 m r c

def pdats : (p : Fin 3) → (c : Dev nD) → Dat τ (Elt F) Unit ℕ (UR sig nD τ) ℕ (cfgs p) c
  | ⟨0, _⟩ => fun c => dat0 (atTc (V2 m)) c
  | ⟨1, _⟩ => fun c => dat1 (atTc (V4 m (outsA m))) c
  | ⟨2, _⟩ => fun c => dat2 (atTc (V6 m (outsB m))) c

theorem outs_3_v4_0 (c : Dev nD) : outs m 3 main_v4_0 c = (dat0 (atTc (V2 m)) c).arrAt 9 cfg0.N := by
  show left0 m main_v4_0 c = _; unfold left0; rw [dif_pos rfl]
theorem outs_3_v4_1 (c : Dev nD) : outs m 3 main_v4_1 c = (dat0 (atTc (V2 m)) c).arrAt 10 cfg0.N := by
  show left0 m main_v4_1 c = _; unfold left0; rw [dif_neg (by decide), dif_pos rfl]
theorem outs_5_v7 (c : Dev nD) : outs m 5 main_v7 c = (dat1 (atTc (V4 m (outsA m))) c).arrAt 14 cfg1.N := by
  show left1 m main_v7 c = _; unfold left1; rw [dif_pos rfl]
theorem outs_7_v9 (c : Dev nD) : outs m 7 main_v9 c = (dat2 (atTc (V6 m (outsB m))) c).arrAt 3 cfg2.N := by
  show left2 m main_v9 c = _; unfold left2; rw [dif_pos rfl]

end Cert.Kernel.Frame

end
-- ==== Proof.K.Shares.lean ====
import proofs.«424062_j22247930593355_3_alg».proof.Proof.K.Base

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem pt_two {ℓ : Loc nD τ sig} (f : Buf (Elt F) ℓ) :
    (ℓ ↦{fullShare} f : sProp 𝕄) ⊣⊢ iprop((ℓ ↦{fullShare.left} f) ∗ ℓ ↦{fullShare.right} f) :=
  pointsTo_share (PosShare.mem_left_op_right fullShare)

theorem pt_three {ℓ : Loc nD τ sig} (f : Buf (Elt F) ℓ) :
    (ℓ ↦{fullShare} f : sProp 𝕄)
      ⊣⊢ iprop((ℓ ↦{fullShare.left} f) ∗ (ℓ ↦{fullShare.right.left} f) ∗ ℓ ↦{fullShare.right.right} f) :=
  ⟨(pt_two f).1.trans (sep_mono .rfl (pointsTo_share (PosShare.mem_left_op_right fullShare.right)).1),
    (sep_mono .rfl (pointsTo_share (PosShare.mem_left_op_right fullShare.right)).2).trans (pt_two f).2⟩

end Cert.Kernel.Frame

end
-- ==== Proof.K.Seg0.lean ====
import proofs.«424062_j22247930593355_3_alg».proof.Proof.K.Pdats
import proofs.«424062_j22247930593355_3_alg».proof.Proof.K.Shares

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Arrays

variable (V : (c : Dev nD) → (b : Ref sig .tc) → Buf (Elt F) ((c : Thread nD τ).loc b)) (c : Dev nD)
    (G : (b : Ref sig .tc) → Buf (Elt F) ((c : Thread nD τ).loc b))
    (Fw : (w : Fin cfg0.W) → Buf (Elt F) ((cfg0.win w).arr.view.loc (c : Thread nD τ)))
    (hF : ∀ w, Fw w = G (Pipeline.arrRef spec0 w))

-- Buffer `r` at share `q`, holding `G r`.
private abbrev bufAt0 (r : Ref sig .tc) (q : PosShare TreeShare) : sProp 𝕄 := ((c : Thread nD τ).loc r) ↦{q} G r

include hF in

theorem arr0_pt (w : Fin cfg0.W) (q : PosShare TreeShare) (hq : (dat0 V c).share w = q) :
    ((cfg0.win w).arr.view.loc (c : Thread nD τ) ↦[(cfg0.win w).arr.view.set]{(dat0 V c).share w} Fw w : sProp 𝕄)
      = (((c : Thread nD τ).loc (Pipeline.arrRef spec0 w)) ↦{q} G (Pipeline.arrRef spec0 w)) := by
  rw [(arr_whole0 w).set_eq_univ, hq, hF w]

include hF in

-- Eleven arrays over nine buffers: two buffers are each read twice, at the two halves of the full share.
theorem arrays0_eq : ((dat0 V c).arrays Fw : sProp 𝕄) = iprop(
    bufAt0 c G main_v0 fullShare ∗ bufAt0 c G main_v1 fullShare
    ∗ bufAt0 c G main_arg4 fullShare.left ∗ bufAt0 c G main_arg4 fullShare.right
    ∗ bufAt0 c G main_v2 fullShare ∗ bufAt0 c G main_arg2 fullShare
    ∗ bufAt0 c G main_arg6 fullShare.left ∗ bufAt0 c G main_arg6 fullShare.right
    ∗ bufAt0 c G main_v3 fullShare ∗ bufAt0 c G main_v4_0 fullShare
    ∗ bufAt0 c G main_v4_1 fullShare) := by
  unfold Dat.arrays
  rw [bigSep_W0]
  repeat first
    | exact arr0_pt V c G Fw hF _ _ rfl
    | refine congrArg₂ BI.sep (arr0_pt V c G Fw hF _ _ rfl) ?_

theorem arrBufs0_eq : (Pipeline.arrBufs (Ix := Unit) (Name := ℕ) (U := UR sig nD τ) (Lvl := ℕ) spec0 c G : sProp 𝕄) = iprop(
    bufAt0 c G main_v0 fullShare ∗ bufAt0 c G main_v1 fullShare
    ∗ bufAt0 c G main_arg4 fullShare
    ∗ bufAt0 c G main_v2 fullShare ∗ bufAt0 c G main_arg2 fullShare
    ∗ bufAt0 c G main_arg6 fullShare
    ∗ bufAt0 c G main_v3 fullShare ∗ bufAt0 c G main_v4_0 fullShare
    ∗ bufAt0 c G main_v4_1 fullShare) := by
  unfold Pipeline.arrBufs
  rw [bigSep_eq_bigSepL_of_eq [main_v0, main_v1, main_arg4, main_v2, main_arg2, main_arg6, main_v3, main_v4_0, main_v4_1] (by decide) (by decide)]
  rfl

include hF in

theorem arrays0_of_bufs :
    (Pipeline.arrBufs (Ix := Unit) (Name := ℕ) (U := UR sig nD τ) (Lvl := ℕ) spec0 c G : sProp 𝕄) ⊢ (dat0 V c).arrays Fw := by
  rw [arrays0_eq V c G Fw hF, arrBufs0_eq c G]
  iintro ⟨H0, H1, H4, H2, Ha2, H6, H3, H40, H41⟩
  ihave H4 := (pt_two _).1 $$ H4
  icases H4 with ⟨H4l, H4r⟩
  ihave H6 := (pt_two _).1 $$ H6
  icases H6 with ⟨H6l, H6r⟩
  iframe

include hF in

theorem bufs0_of_arrays :
    ((dat0 V c).arrays Fw : sProp 𝕄) ⊢ Pipeline.arrBufs (Ix := Unit) (Name := ℕ) (U := UR sig nD τ) (Lvl := ℕ) spec0 c G := by
  rw [arrays0_eq V c G Fw hF, arrBufs0_eq c G]
  iintro ⟨H0, H1, H4l, H4r, H2, Ha2, H6l, H6r, H3, H40, H41⟩
  iframe H0 H1
  isplitl [H4l H4r]
  · iapply (pt_two _).2; iframe
  iframe H2 Ha2
  isplitl [H6l H6r]
  · iapply (pt_two _).2; iframe
  iframe

end Arrays

variable (m : (ℓ : Loc nD τ sig) → Buf (Elt F) ℓ)

theorem in_ne0 : ∀ w : Fin cfg0.W, (cfg0.win w).isOut = false → Pipeline.arrRef spec0 w ∉ ([main_v4_0, main_v4_1] : List (Ref sig .tc)) := by decide
theorem out0 : ∀ w : Fin cfg0.W, (cfg0.win w).isOut = true → w = 9 ∨ w = 10 := by decide

theorem hF0 (c : Dev nD) (w : Fin cfg0.W) :
    (dat0 (atTc (V2 m)) c).arrAt w cfg0.N = atTc (V3 m (outs m)) c (Pipeline.arrRef spec0 w) := by
  by_cases hin : (cfg0.win w).isOut = false
  · exact ((dat0 (atTc (V2 m)) c).arrAt_in w hin _).trans
      ((A_eq0 (atTc (V2 m)) c w).trans (V3_of m (outs m) c _ (in_ne0 w hin)).symm)
  · rcases out0 w (by simpa using hin) with rfl | rfl
    · show _ = Function.update (Function.update (V2 m c) (Proc.devRef .tc main_v4_0) (outs m 3 main_v4_0 c)) (Proc.devRef .tc main_v4_1) (outs m 3 main_v4_1 c)
        (Proc.devRef .tc main_v4_0)
      rw [Function.update_of_ne (StableHlo.devRef_ne_of_ne (by decide)), Function.update_self]
      exact (outs_3_v4_0 m c).symm
    · show _ = Function.update (Function.update (V2 m c) (Proc.devRef .tc main_v4_0) (outs m 3 main_v4_0 c)) (Proc.devRef .tc main_v4_1) (outs m 3 main_v4_1 c)
        (Proc.devRef .tc main_v4_1)
      rw [Function.update_self]
      exact (outs_3_v4_1 m c).symm

theorem hrest0 (c : Dev nD) (b : Ref sig .tc) (hb : b ∉ Finset.univ.image (Pipeline.arrRef spec0)) :
    atTc (V3 m (outs m)) c b = atTc (V2 m) c b :=
  V3_of m (outs m) c b fun h => hb (by rcases List.mem_pair.mp h with rfl | rfl <;> decide)

set_option backward.isDefEq.respectTransparency.types false in
def reg0 (m : (ℓ : Loc nD τ sig) → Buf (Elt F) ℓ) : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (atTc (V2 m)) c).loose
  hwaits := Pipeline.hwaits_of_owed_zero _ _ _ _ L lv 0 fun c t => owed0 (atTc (V2 m)) c t
  pre c := iprop(StableHlo.held (c : Thread nD τ) (Pipeline.ucRefs τ sig) (V2 m c) ∗ Rr c)
  post c := iprop(StableHlo.held (c : Thread nD τ) (Pipeline.ucRefs τ sig) (V3 m (outs m) c) ∗ Rr c)
  X c := iprop(∃ r, prngReg c r)
  Y c := iprop(∃ r, prngReg c r)
  Z c := Pipeline.unscopedRest (Ix := Unit) (Name := ℕ) (U := UR sig nD τ) (Lvl := ℕ) spec0 c (atTc (V2 m) c)
  hentry c := by
    rw [Pipeline.ownSems0_none]
    have hsplit : (StableHlo.held (c : Thread nD τ) (Pipeline.ucRefs τ sig) (V2 m c) : sProp 𝕄)
        ⊢ iprop((pdats m 0 c).arrays ((pdats m 0 c).arrAt · 0)
          ∗ Pipeline.unscopedRest (Ix := Unit) (Name := ℕ) (U := UR sig nD τ) (Lvl := ℕ) spec0 c (atTc (V2 m) c)) := by
      rw [← Pipeline.unscopedBufs_held, Pipeline.unscopedBufs_split₀ cfgs 0 winFacts₀0.arr_unscoped c]
      exact sep_mono (arrays0_of_bufs (atTc (V2 m)) c _ _ fun w => A_eq0 (atTc (V2 m)) c w) .rfl
    iintro ⟨⟨Hub, Hp, HO⟩, -, -⟩
    ihave H := hsplit $$ Hub
    icases H with ⟨Ha, Hrest⟩
    imodintro
    iframe Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    iframe
  hin c := by
    refine BIBase.Entails.trans ?_ (show (iprop((∃ r, prngReg c r) ∗ Pipeline.scopedRest spec0 c) : sProp 𝕄) ⊢ (pdats m 0 c).Φ 0
      from hin0 (atTc (V2 m)) c)
    iintro ⟨Hp, -, Hr⟩
    iframe
  hout c := by
    rw [Pipeline.ownSems0_none]
    refine BIBase.Entails.trans (show (pdats m 0 c).Φ (Fin.last _) ⊢ (iprop((∃ r, prngReg c r) ∗ Pipeline.scopedRest spec0 c) : sProp 𝕄)
      from hout0 (atTc (V2 m)) c) ?_
    iintro ⟨Hp, Hr⟩
    iframe Hp
    isplitr; · iempintro
    iexact Hr
  hexit c := by
    have hjoin : (iprop((pdats m 0 c).arrays ((pdats m 0 c).arrAt · cfg0.N)
          ∗ Pipeline.unscopedRest (Ix := Unit) (Name := ℕ) (U := UR sig nD τ) (Lvl := ℕ) spec0 c (atTc (V2 m) c)) : sProp 𝕄)
        ⊢ StableHlo.held (c : Thread nD τ) (Pipeline.ucRefs τ sig) (V3 m (outs m) c) := by
      rw [← Pipeline.unscopedBufs_held, Pipeline.unscopedBufs_split₀ cfgs 0 winFacts₀0.arr_unscoped c]
      refine sep_mono (bufs0_of_arrays (atTc (V2 m)) c _ _ (hF0 m c)) (Entails.of_eq ?_)
      unfold Pipeline.unscopedRest
      exact bigSep_congr fun b hb => congrArg (fun f => (((c : Thread nD τ).loc b) ↦{fullShare} f : sProp 𝕄))
        (hrest0 m c b (Finset.mem_sdiff.mp hb).2).symm
    iintro ⟨Ha, HO, HY, Hrest⟩
    imodintro
    isplitl [Ha Hrest]
    · iapply hjoin; iframe
    isplitl [HY]; · iexact HY
    unfold Pipeline.Dat.owesAt Pipeline.owesWithin
    icases HO with ⟨%W, -, HO⟩; iexists W; iexact HO

theorem hpre0 (m : (ℓ : Loc nD τ sig) → Buf (Elt F) ℓ) (c : Dev nD) :
    (iprop(StableHlo.held (c : Thread nD τ) (Pipeline.ucRefs τ sig) (V2 m c) ∗ Rr c) : sProp 𝕄) ⊢ (reg0 m).pre c := .rfl

theorem hpost0 (m : (ℓ : Loc nD τ sig) → Buf (Elt F) ℓ) (c : Dev nD) :
    (reg0 m).post c ⊢ (iprop(StableHlo.held (c : Thread nD τ) (Pipeline.ucRefs τ sig) (V3 m (outs m) c) ∗ Rr c) : sProp 𝕄) := .rfl

end Cert.Kernel.Frame

end
-- ==== Proof.K.Seg1.lean ====
import proofs.«424062_j22247930593355_3_alg».proof.Proof.K.Pdats
import proofs.«424062_j22247930593355_3_alg».proof.Proof.K.Shares

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Arrays

variable (m : (ℓ : Loc nD τ sig) → Buf (Elt F) ℓ)

abbrev arrs1 : List (Ref sig .tc) := [main_v4_0, main_v1, main_arg8, main_arg9, main_v5, main_v6, main_v7]

/-- Window w's buffer at share q, holding G w. -/
private abbrev pt1 (c : Dev nD) (G : (w : Fin cfg1.W) → Buf (Elt F) ((cfg1.win w).arr.view.loc (c.tc : Thread nD τ))) (w : Fin cfg1.W)
    (q : PosShare TreeShare) : sProp 𝕄 :=
  ((c : Thread nD τ).loc (Pipeline.arrRef spec1 w)) ↦{q} G w

/-- Each window's array is a whole buffer, and its share evaluates to the one written here. -/
theorem arrays1_chain (c : Dev nD) (G : (w : Fin cfg1.W) → Buf (Elt F) ((cfg1.win w).arr.view.loc (c.tc : Thread nD τ))) :
    (pdats m 1 c).arrays G
      = (iprop(pt1 c G 0 fullShare
        ∗ pt1 c G 1 fullShare
        ∗ pt1 c G 2 fullShare.left
        ∗ pt1 c G 3 fullShare.right.left
        ∗ pt1 c G 4 fullShare.right.right
        ∗ pt1 c G 5 fullShare.left
        ∗ pt1 c G 6 fullShare.right.left
        ∗ pt1 c G 7 fullShare.right.right
        ∗ pt1 c G 8 fullShare.left
        ∗ pt1 c G 9 fullShare.right.left
        ∗ pt1 c G 10 fullShare.right.right
        ∗ pt1 c G 11 fullShare.left
        ∗ pt1 c G 12 fullShare.right.left
        ∗ pt1 c G 13 fullShare.right.right
        ∗ pt1 c G 14 fullShare) : sProp 𝕄) := by
  unfold Dat.arrays
  exact (bigSep_congr (Ψ := fun w => pt1 c G w ((pdats m 1 c).share w))
    fun w _ => by
      show ((((cfg1.win w).arr.view.loc (c.tc : Thread nD τ)) ↦[(cfg1.win w).arr.view.set]{(pdats m 1 c).share w} G w : sProp 𝕄)) = _
      rw [(arr_whole1 w).set_eq_univ]).trans (bigSep_W1 _)

theorem arrBufs1_chain (c : Dev nD) (W : (b : Ref sig .tc) → Buf (Elt F) ((c : Thread nD τ).loc b)) :
    (Pipeline.arrBufs spec1 c W : sProp 𝕄)
      = (iprop((((c : Thread nD τ).loc main_v4_0) ↦{fullShare} W main_v4_0)
        ∗ (((c : Thread nD τ).loc main_v1) ↦{fullShare} W main_v1)
        ∗ (((c : Thread nD τ).loc main_arg8) ↦{fullShare} W main_arg8)
        ∗ (((c : Thread nD τ).loc main_arg9) ↦{fullShare} W main_arg9)
        ∗ (((c : Thread nD τ).loc main_v5) ↦{fullShare} W main_v5)
        ∗ (((c : Thread nD τ).loc main_v6) ↦{fullShare} W main_v6)
        ∗ (((c : Thread nD τ).loc main_v7) ↦{fullShare} W main_v7)) : sProp 𝕄) := by
  unfold Pipeline.arrBufs; rw [bigSep_eq_bigSepL_of_eq arrs1 (by decide) (by decide)]; rfl

theorem arrAt1_zero (c : Dev nD) (w : Fin cfg1.W) : (pdats m 1 c).arrAt w 0 = V4 m (outs m) c (Pipeline.arrRef spec1 w) :=
  A_eq1 (atTc (V4 m (outsA m))) c w

theorem exitV1_of_ne (c : Dev nD) (r : Ref sig .tc) (h : r ∉ ([main_v7] : List (Ref sig .tc))) :
    V5 m (outs m) c r = V4 m (outs m) c r := V5_of m (outs m) c r h

theorem exitV1_out (c : Dev nD) : V5 m (outs m) c main_v7 = (pdats m 1 c).arrAt 14 cfg1.N := by
  show Function.update (V4 m (outs m) c) main_v7 (outs m 5 main_v7 c) main_v7 = _
  rw [Function.update_self]
  show left1 m main_v7 c = _
  unfold left1
  rw [dif_pos rfl] <;> rfl

theorem in_ne1 : ∀ w : Fin cfg1.W, (cfg1.win w).isOut = false → Pipeline.arrRef spec1 w ∉ ([main_v7] : List (Ref sig .tc)) := by decide
theorem out1 : ∀ w : Fin cfg1.W, (cfg1.win w).isOut = true → w = 14 := by decide

theorem arrAt1_last (c : Dev nD) (w : Fin cfg1.W) : (pdats m 1 c).arrAt w cfg1.N = V5 m (outs m) c (Pipeline.arrRef spec1 w) := by
  by_cases hin : (cfg1.win w).isOut = false
  · exact (((pdats m 1 c).arrAt_in w hin _).trans (A_eq1 (atTc (V4 m (outsA m))) c w)).trans (exitV1_of_ne m c _ (in_ne1 w hin)).symm
  · obtain rfl := out1 w (by simpa using hin)
    exact (exitV1_out m c).symm

theorem arrays1_of_bufs (c : Dev nD) :
    (Pipeline.arrBufs spec1 c (atTc (V4 m (outs m)) c) : sProp 𝕄)
      ⊢ (pdats m 1 c).arrays ((pdats m 1 c).arrAt · 0) := by
  rw [show ((pdats m 1 c).arrAt · 0) = (fun w => V4 m (outs m) c (Pipeline.arrRef spec1 w)) from funext (arrAt1_zero m c),
    arrays1_chain, arrBufs1_chain]
  iintro ⟨Hx, Hh, Hwi, Hwh, Hbi, Hbh, Ho⟩
  ihave Twi := (pt_three _).1 $$ Hwi; icases Twi with ⟨H2, H3, H4⟩
  ihave Twh := (pt_three _).1 $$ Hwh; icases Twh with ⟨H5, H6, H7⟩
  ihave Tbi := (pt_three _).1 $$ Hbi; icases Tbi with ⟨H8, H9, H10⟩
  ihave Tbh := (pt_three _).1 $$ Hbh; icases Tbh with ⟨H11, H12, H13⟩
  iframe

theorem bufs_of_arrays1 (c : Dev nD) :
    (pdats m 1 c).arrays ((pdats m 1 c).arrAt · cfg1.N)
      ⊢ (Pipeline.arrBufs spec1 c (atTc (V5 m (outs m)) c) : sProp 𝕄) := by
  rw [show ((pdats m 1 c).arrAt · cfg1.N) = (fun w => V5 m (outs m) c (Pipeline.arrRef spec1 w)) from funext (arrAt1_last m c),
    arrays1_chain, arrBufs1_chain]
  iintro ⟨Hx, Hh, H2, H3, H4, H5, H6, H7, H8, H9, H10, H11, H12, H13, Ho⟩
  iframe Hx Hh
  isplitl [H2 H3 H4]
  · iapply (pt_three _).2; iframe
  isplitl [H5 H6 H7]
  · iapply (pt_three _).2; iframe
  isplitl [H8 H9 H10]
  · iapply (pt_three _).2; iframe
  isplitl [H11 H12 H13]
  · iapply (pt_three _).2; iframe
  iexact Ho

theorem rest1_exit (c : Dev nD) :
    (Pipeline.unscopedRest spec1 c (atTc (V4 m (outs m)) c) : sProp 𝕄)
      = Pipeline.unscopedRest spec1 c (atTc (V5 m (outs m)) c) := by
  unfold Pipeline.unscopedRest
  refine bigSep_congr fun b hb => ?_
  have hne : b ≠ main_v7 := fun e => (Finset.mem_sdiff.mp hb).2
    (Finset.mem_image.mpr ⟨14, Finset.mem_univ _, (show Pipeline.arrRef spec1 14 = main_v7 from rfl).trans e.symm⟩)
  exact congrArg (fun f => ((((c : Thread nD τ).loc b) ↦{fullShare} f : sProp 𝕄))) (exitV1_of_ne m c b fun h => hne (List.mem_singleton.mp h)).symm

theorem held1_split (c : Dev nD) (W : Valuation τ sig (Elt F)) :
    (StableHlo.held (c : Thread nD τ) (Pipeline.ucRefs τ sig) W : sProp 𝕄)
      = iprop((Pipeline.arrBufs spec1 c (fun b => W b) : sProp 𝕄)
          ∗ Pipeline.unscopedRest spec1 c (fun b => W b)) := by
  rw [← Pipeline.unscopedBufs_held c W]
  exact Pipeline.unscopedBufs_split₀ cfgs 1 winFacts₀1.arr_unscoped c _

end Arrays

set_option backward.isDefEq.respectTransparency.types false in
def reg1 (m : (ℓ : Loc nD τ sig) → Buf (Elt F) ℓ) : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (atTc (V4 m (outsA m))) c).loose
  hwaits := Pipeline.hwaits_of_owed_zero _ _ _ _ L lv 1 fun c t => owed1 (atTc (V4 m (outsA m))) c t
  pre c := iprop(StableHlo.held (c : Thread nD τ) (Pipeline.ucRefs τ sig) (V4 m (outs m) c) ∗ Rr c)
  post c := iprop(StableHlo.held (c : Thread nD τ) (Pipeline.ucRefs τ sig) (V5 m (outs m) c) ∗ Rr c)
  X c := iprop(∃ r, prngReg c r)
  Y c := iprop(∃ r, prngReg c r)
  Z c := Pipeline.unscopedRest (Ix := Unit) (Name := ℕ) (U := UR sig nD τ) (Lvl := ℕ) spec1 c (atTc (V4 m (outs m)) c)
  hentry c := by
    rw [Pipeline.ownSems0_none]
    have hs := (Entails.of_eq (held1_split c (V4 m (outs m) c))).trans (BIClass.sep_mono (arrays1_of_bufs m c) .rfl)
    iintro ⟨⟨Hh, Hp, HO⟩, -, -⟩
    ihave H := hs $$ Hh
    icases H with ⟨Ha, Hrest⟩
    imodintro
    iframe Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    iframe
  hin c := Entails.trans (by
      iintro ⟨Hp, -, Hr⟩
      iframe) (hin1 (atTc (V4 m (outsA m))) c)
  hout c := (hout1 (atTc (V4 m (outsA m))) c).trans (by
      rw [Pipeline.ownSems0_none]
      iintro ⟨Hp, Hr⟩
      iframe Hp
      isplitr; · iempintro
      iexact Hr)
  hexit c := by
    have hjoin := (BIClass.sep_mono (bufs_of_arrays1 m c) (Entails.of_eq (rest1_exit m c))).trans (Entails.of_eq (held1_split c (V5 m (outs m) c)).symm)
    iintro ⟨Ha, HO, HY, Hrest⟩
    imodintro
    isplitl [Ha Hrest]
    · iapply hjoin; iframe
    isplitl [HY]; · iexact HY
    unfold Pipeline.Dat.owesAt Pipeline.owesWithin
    icases HO with ⟨%W, -, HO⟩; iexists W; iexact HO

theorem hpre1 (m : (ℓ : Loc nD τ sig) → Buf (Elt F) ℓ) (c : Dev nD) :
    (iprop(StableHlo.held (c : Thread nD τ) (Pipeline.ucRefs τ sig) (V4 m (outs m) c) ∗ Rr c) : sProp 𝕄) ⊢ (reg1 m).pre c := .rfl

theorem hpost1 (m : (ℓ : Loc nD τ sig) → Buf (Elt F) ℓ) (c : Dev nD) :
    (reg1 m).post c ⊢ (iprop(StableHlo.held (c : Thread nD τ) (Pipeline.ucRefs τ sig) (V5 m (outs m) c) ∗ Rr c) : sProp 𝕄) := .rfl

end Cert.Kernel.Frame

end
-- ==== Proof.K.RunW.lean ====
import proofs.«424062_j22247930593355_3_alg».proof.Proof.K.Seg0
import proofs.«424062_j22247930593355_3_alg».proof.Proof.K.Seg1

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- A frame reads no result, so the third region's result window may stay unnamed.
def rdatsW : (p : Fin 3) → (c : Dev nD) → Pipeline.RDat τ (Elt F) Unit ℕ (UR sig nD τ) ℕ (cfgs p) c
  | ⟨0, _⟩ => fun c => (dat0 (atTc (V2 m)) c).toR
  | ⟨1, _⟩ => fun c => (dat1 (atTc (V4 m (outsA m))) c).toR
  | ⟨2, _⟩ => fun c => (dat2 (atTc (V6 m (outsB m))) c).toRForget fgt2

theorem recorded2 (V : (c : Dev nD) → (b : Ref sig .tc) → Buf (Elt F) ((c : Thread nD τ).loc b)) (c : Dev nD) (t : Fin (cfg2.N + 1)) :
    (dat2 V c).recorded t = Set.univ := rfl

-- The first two regions name every window, so their exact records read as relational ones field by field.
def reg0W : Pipeline.RDat.RegionSeg (pcfgs (F := F)) adm (rdatsW m) () defs₀ 𝒱₀ L lv 0 := { (reg0 m).toR with }

def reg1W : Pipeline.RDat.RegionSeg (pcfgs (F := F)) adm (rdatsW m) () defs₀ 𝒱₀ L lv 1 := { (reg1 m).toR with }

def outsAt (c₀ : Dev nD) (x : Buf (Elt F) ((c₀ : Thread nD τ).loc main_v9)) : Outs (F := F) :=
  fun J r c => match J with
    | 3 => left0 m r c
    | 5 => left1 m r c
    | _ => Function.update (V6 m (outsB m) c) main_v9 x r

theorem V6_outsAt (c₀ : Dev nD) (x : Buf (Elt F) ((c₀ : Thread nD τ).loc main_v9)) (c : Dev nD) :
    V6 m (outsAt m c₀ x) c = V6 m (outs m) c := rfl

theorem V7_outsAt_v9 (c : Dev nD) (x : Buf (Elt F) ((c : Thread nD τ).loc main_v9)) :
    V7 m (outsAt m c x) c main_v9 = x := by
  simp only [V7, outsAt, Function.update_self]

theorem owesAt2_intro (c : Dev nD) (t : Fin (cfg2.N + 1)) :
    (iprop(∃ W, owes (c : Thread nD τ) (0 : CellTallies nD τ sig Unit) W) : sProp 𝕄) ⊢ (rdatsW m 2 c).owesAt () t := by
  show _ ⊢ Pipeline.owesWithin c ((dat2 (atTc (V6 m (outsB m))) c).owed t)
    ((dat2 (atTc (V6 m (outsB m))) c).recorded t ∪ cfg2.waitPairs ())
  rw [owed2, recorded2]
  iintro ⟨%W, HO⟩; iexists W; isplitr; · ipureintro; exact fun _ _ => Or.inl trivial
  iexact HO

theorem owesAt2_elim (c : Dev nD) (t : Fin (cfg2.N + 1)) :
    ((rdatsW m 2 c).owesAt () t : sProp 𝕄) ⊢ iprop(∃ W, owes (c : Thread nD τ) (0 : CellTallies nD τ sig Unit) W) := by
  show Pipeline.owesWithin c ((dat2 (atTc (V6 m (outsB m))) c).owed t)
    ((dat2 (atTc (V6 m (outsB m))) c).recorded t ∪ cfg2.waitPairs ()) ⊢ _
  rw [owed2]
  iintro ⟨%W, -, HO⟩; iexists W; iexact HO

theorem exit_in2 (c : Dev nD) (w : Fin cfg2.W) (hw : fgt2 w = false) (hi : (cfg2.win w).isOut = false)
    (hne : Pipeline.arrRef spec2 w ∉ ([main_v9] : List (Ref sig .tc)))
    (G : Buf (Elt F) ((cfg2.win w).arr.view.loc (c.tc : Thread nD τ))) (x : Buf (Elt F) ((c : Thread nD τ).loc main_v9))
    (hG : ((dat2 (atTc (V6 m (outsB m))) c).toRForget fgt2).ArrAt w cfg2.N G) :
    G = atTc (V7 m (outsAt m c x)) c (Pipeline.arrRef spec2 w) := by
  have h1 : G = (dat2 (atTc (V6 m (outsB m))) c).arrAt w cfg2.N :=
    ((dat2 (atTc (V6 m (outsB m))) c).toRForget_arrAt_iff hw cfg2.N G).mp hG
  rw [h1, (dat2 (atTc (V6 m (outsB m))) c).arrAt_in w hi, A_eq2]
  exact ((V7_of m (outsAt m c x) c (Pipeline.arrRef spec2 w) hne).trans (congrFun (V6_outsAt m c x c) _)).symm

theorem exit_out2 (c : Dev nD) (G : Buf (Elt F) ((cfg2.win 3).arr.view.loc (c.tc : Thread nD τ))) :
    ∃ x : Buf (Elt F) ((c : Thread nD τ).loc main_v9), atTc (V7 m (outsAt m c x)) c (Pipeline.arrRef spec2 3) = G :=
  ⟨G, V7_outsAt_v9 m c G⟩

theorem exit_arrays2 (c : Dev nD) :
    (rdatsW m 2 c).arraysAt cfg2.N ⊢ (iprop(∃ x : Buf (Elt F) ((c : Thread nD τ).loc main_v9),
        (pdats m 2 c).arrays fun w => atTc (V7 m (outsAt m c x)) c (Pipeline.arrRef spec2 w)) : sProp 𝕄) := by
  show ((dat2 (atTc (V6 m (outsB m))) c).toRForget fgt2).arraysAt cfg2.N ⊢ (iprop(∃ x : Buf (Elt F) ((c : Thread nD τ).loc main_v9),
        (dat2 (atTc (V6 m (outsB m))) c).arrays fun w => atTc (V7 m (outsAt m c x)) c (Pipeline.arrRef spec2 w)) : sProp 𝕄)
  unfold Pipeline.RDat.arraysAt
  rw [bigSep_W2]
  iintro ⟨⟨%G0, %h0, H0⟩, ⟨%G1, %h1, H1⟩, ⟨%G2, %h2, H2⟩, ⟨%G3, -, H3⟩⟩
  obtain ⟨x, hx⟩ := exit_out2 m c G3
  iexists x
  unfold Pipeline.Dat.arrays
  rw [bigSep_W2]
  beta_reduce
  rw [← exit_in2 m c 0 (by decide) rfl (by decide) G0 x h0, ← exit_in2 m c 1 (by decide) rfl (by decide) G1 x h1,
    ← exit_in2 m c 2 (by decide) rfl (by decide) G2 x h2, hx]
  isplitl [H0]; · iexact H0
  isplitl [H1]; · iexact H1
  isplitl [H2]; · iexact H2
  iexact H3

set_option backward.isDefEq.respectTransparency.types false in
def reg2W : Pipeline.RDat.RegionSeg (pcfgs (F := F)) adm (rdatsW m) () defs₀ 𝒱₀ L lv 2 where
  win := launch2.win.to₀
  block_pos := launch2.block_pos
  stage_whole := launch2.stage_whole
  K := PEmpty
  osem k := k.elim
  ho := Pipeline.OwnSemFacts.none _
  hbody c := (body_obligation2F (atTc (V6 m (outsB m))) c).toRForget
  hwaits := Pipeline.RDat.hwaits_of_owed_zero _ _ _ _ L lv 2 (fun c t => owed2 (atTc (V6 m (outsB m))) c t)
  pre c := iprop(StableHlo.held (c : Thread nD τ) (Pipeline.ucRefs τ sig) (V6 m (outs m) c) ∗ Rr c)
  post c := iprop(∃ x : Buf (Elt F) ((c : Thread nD τ).loc main_v9),
    StableHlo.held (c : Thread nD τ) (Pipeline.ucRefs τ sig) (V7 m (outsAt m c x) c) ∗ Rr c)
  X c := iprop(∃ r, prngReg c r)
  Y c := iprop(∃ r, prngReg c r)
  Z c := Pipeline.unscopedRest (Ix := Unit) (Name := ℕ) (U := UR sig nD τ) (Lvl := ℕ) spec2 c (atTc (V6 m (outs m)) c)
  hentry c := by
    rw [Pipeline.ownSems0_none]
    have hsplit := Pipeline.RDat.arrays_of_unscopedBufs (p := 2) (pcfgs (F := F)) adm (rdatsW m) launch2.win launch2.arr_whole c
      ((dat2 (atTc (V6 m (outsB m))) c).share_full fun w => q2 _ c w) (atTc (V6 m (outs m)) c)
      (fun w => A_eq2 (atTc (V6 m (outsB m))) c w)
    rw [Pipeline.unscopedBufs_held] at hsplit
    iintro ⟨⟨Hub, Hp, HO⟩, -, -⟩
    ihave H := hsplit $$ Hub
    icases H with ⟨Ha, Hrest⟩
    imodintro
    iframe Ha
    isplitr; · unfold Pipeline.prefHeld; rw [show (Finset.univ : Finset (Fin 0)) = ∅ from rfl, BI.bigSep_empty]; iempintro
    isplitl [HO]; · iapply (owesAt2_intro m c 0); iexact HO
    iframe
  hin c := by
    refine BIBase.Entails.trans ?_ (hin2 (atTc (V6 m (outsB m))) c)
    iintro ⟨Hp, -, Hr⟩
    iframe
  hout c := by
    refine (hout2 (atTc (V6 m (outsB m))) c).trans ?_
    rw [Pipeline.ownSems0_none]
    iintro ⟨Hp, Hr⟩
    iframe Hp
    isplitr; · iempintro
    iexact Hr
  hexit c := by
    refine BIBase.Entails.trans (BIClass.sep_mono (exit_arrays2 m c) (BIClass.sep_mono (owesAt2_elim m c (Fin.last cfg2.N)) .rfl)) ?_
    iintro ⟨⟨%x, Ha⟩, HO, HY, Hrest⟩
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun w => q2 _ c w)
      (atTc (V6 m (outs m)) c) (atTc (V7 m (outsAt m c x)) c) (fun w => atTc (V7 m (outsAt m c x)) c (Pipeline.arrRef spec2 w)) (fun _ => rfl)
      (fun b hb => V7_of m (outsAt m c x) c b (fun h => hb (Finset.mem_image.mpr ⟨3, Finset.mem_univ _, (List.mem_singleton.mp h).symm⟩)))
    rw [Pipeline.unscopedBufs_held] at hjoin
    imodintro
    iexists x
    isplitl [Ha Hrest]
    · iapply hjoin
      iframe
    isplitl [HY]; · iexact HY
    iexact HO

def seg7W : Pipeline.HostSeg (Ix := Unit) (Name := ℕ) (U := UR sig nD τ) (Lvl := ℕ) (pcfgs (F := F)) defs₀ 𝒱₀ L lv where
  prog := StableHlo.seq hostOps3
  pre c := iprop(∃ x : Buf (Elt F) ((c : Thread nD τ).loc main_v9),
    StableHlo.held (c : Thread nD τ) (Pipeline.ucRefs τ sig) (V7 m (outsAt m c x) c) ∗ Rr c)
  post c := iprop(∃ x : Buf (Elt F) ((c : Thread nD τ).loc main_v9),
    StableHlo.held (c : Thread nD τ) (Pipeline.ucRefs τ sig) (V8 m (outsAt m c x) c) ∗ Rr c)
  run c {β} k K := by
    iintro ⟨Hk, Hbd, ⟨%x, Hpre⟩, Hla⟩
    have h := (seg7 m (outsAt m c x) 𝒱₀ L lv (fun _ c => Rr (F := F) c)).run c k K
    dsimp only [seg7, Pipeline.HostSeg.ofOps] at h
    iapply h
    isplitl [Hk]
    · iintro ⟨Hbd, Hpost⟩
      iapply Hk
      iframe Hbd
      iexists x; iexact Hpost
    iframe

abbrev launched (c : Dev nD) : sProp 𝕄 :=
  iprop(unscopedSems0 c ∗ owes (c : Thread nD τ) ((0 : Dev nD → CellTallies nD τ sig Unit) c) ∅
    ∗ Pipeline.launchCred (0 : Dev nD → CellTallies nD τ sig Unit) c ∗ prngReg c (ρ c) ∗ (emp : sProp 𝕄))

theorem rideW_one (c : Dev nD) : launched (F := F) ρ c ⊢ Rr (F := F) c := by
  iintro ⟨-, HO, -, Hp, -⟩
  isplitl [Hp]; · iexists _; iexact Hp
  iexists ∅; iexact HO

theorem rideW_init :
    (iprop((bigSep Finset.univ fun c : Dev nD => launched (F := F) ρ c) ∗ levAts L lv) : sProp 𝕄)
      ⊢ (|={Set.univ}=> bigSep Finset.univ (fun c : Dev nD => Rr (F := F) c) : sProp 𝕄) := by
  have h1 : (bigSep Finset.univ fun c : Dev nD => launched (F := F) ρ c) ⊢ (bigSep Finset.univ fun c : Dev nD => Rr (F := F) c) :=
    bigSep_mono fun c _ => rideW_one ρ c
  iintro ⟨H, -⟩
  imodintro
  iapply h1
  iexact H

theorem lastW (c : Dev nD) : (seg7W m).post c ⊢ (iprop((∃ x : Buf (Elt F) ((c : Thread nD τ).loc main_v9),
      StableHlo.held (c : Thread nD τ) (Pipeline.ucRefs τ sig) (V8 m (outsAt m c x) c))
    ∗ ∃ W, owes (c.tc : Thread nD τ) (0 : CellTallies nD τ sig Unit) W) : sProp 𝕄) := by
  show (iprop(∃ x : Buf (Elt F) ((c : Thread nD τ).loc main_v9),
    StableHlo.held (c : Thread nD τ) (Pipeline.ucRefs τ sig) (V8 m (outsAt m c x) c) ∗ Rr c) : sProp 𝕄) ⊢ _
  iintro ⟨%x, Hh, -, HO⟩
  isplitl [Hh]; · iexists x; iexact Hh
  iexact HO

abbrev segsW (c : Dev nD) : List (Pipeline.RDat.Seg (pcfgs (F := F)) adm (rdatsW m) () defs₀ 𝒱₀ L lv) :=
  [.host (seg0 m 𝒱₀ L lv (fun _ c => Rr (F := F) c)), .host (seg1 m 𝒱₀ L lv (fun _ c => Rr (F := F) c)), .region (reg0W m),
    .host (seg3 m (outs m) 𝒱₀ L lv (fun _ c => Rr (F := F) c)), .region (reg1W m),
    .host (seg5 m (outs m) 𝒱₀ L lv (fun _ c => Rr (F := F) c)), .region (reg2W m), .host (seg7W m)]

end Cert.Kernel.Frame

end
-- ==== Proof.K.FrameW.lean ====
import proofs.«424062_j22247930593355_3_alg».proof.Proof.K.RunW

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev kept (c : Dev nD) (s : MemSt nD τ sig (Elt F)) : Prop :=
  s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)
  ∧ s.mem ((c.tc : Thread nD τ).loc main_arg5) = m ((c.tc : Thread nD τ).loc main_arg5)
  ∧ s.mem ((c.tc : Thread nD τ).loc main_arg6) = m ((c.tc : Thread nD τ).loc main_arg6)
  ∧ s.mem ((c.tc : Thread nD τ).loc main_arg7) = m ((c.tc : Thread nD τ).loc main_arg7)
  ∧ s.mem ((c.tc : Thread nD τ).loc main_arg8) = m ((c.tc : Thread nD τ).loc main_arg8)
  ∧ s.mem ((c.tc : Thread nD τ).loc main_arg9) = m ((c.tc : Thread nD τ).loc main_arg9)
  ∧ s.mem ((c.tc : Thread nD τ).loc main_arg10) = m ((c.tc : Thread nD τ).loc main_arg10)
  ∧ s.mem ((c.tc : Thread nD τ).loc main_arg11) = m ((c.tc : Thread nD τ).loc main_arg11)
  ∧ s.mem ((c.tc : Thread nD τ).loc main_arg12) = m ((c.tc : Thread nD τ).loc main_arg12)
  ∧ s.mem ((c.tc : Thread nD τ).loc main_arg13) = m ((c.tc : Thread nD τ).loc main_arg13)

set_option backward.isDefEq.respectTransparency.types false in
theorem frameW : θ_run defs (onTc (τ := τ) (main (F := F))) ⟨m, fun _ => 0, ρ⟩ (fun r => ∀ c : Dev nD, kept m c r.2) := by
  refine Pipeline.RDat.θ_run_regions_kit_dev (pcfgs (F := F)) adm (rdatsW m) () cellOf_inj emb₁ defs₀ 𝒱₀ L lv m ρ main
    (segsW m)
    (fun c Q => by
      rewrite [main_chain c, Pipeline.RDat.Seg.run_eq_chain,
        show (segsW m c).map Pipeline.RDat.Seg.prog = [
          StableHlo.seq hostOps0,
          StableHlo.seq hostOps0_1,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      exact .rfl)
    (fun c => by simp only [segsW, Pipeline.RDat.Seg.pipes_host, Pipeline.RDat.Seg.pipes_region, Pipeline.RDat.Seg.pipes_nil]; decide)
    (0 : Dev nD → CellTallies nD τ sig Unit) (fun _ _ => rfl) (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rr c))
    (Tₙ := fun c => iprop(∃ x : Buf (Elt F) ((c : Thread nD τ).loc main_v9),
      StableHlo.held (c : Thread nD τ) (Pipeline.ucRefs τ sig) (V8 m (outsAt m c x) c)))
    (hch := fun c => ⟨.rfl, .rfl, hpre0 m c, hpost0 m c, hpre1 m c, hpost1 m c, .rfl, .rfl, lastW m c⟩)
    (hinit := ?_) (QY := fun c s => kept m c s)
    (hfin := fun c s' => ?_) (hQ := fun _ h => h)
  ·
    have hsplit : (bigSep Finset.univ fun c : Dev nD => iprop(unscopedBufs c (fun b => m ((c.tc : Thread nD τ).loc b)) ∗ launched (F := F) ρ c))
        ⊢ (iprop((bigSep Finset.univ fun c : Dev nD => StableHlo.held (c : Thread nD τ) (Pipeline.ucRefs τ sig) (V0 m c))
            ∗ bigSep Finset.univ fun c : Dev nD => launched (F := F) ρ c) : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (rideW_init (F := F) ρ) $$ [Hr Hla] with HE
    · iframe
    imodintro
    rw [bigSep_sep' Finset.univ (fun c : Dev nD => StableHlo.held (c : Thread nD τ) (Pipeline.ucRefs τ sig) (V0 m c)) (fun c : Dev nD => Rr (F := F) c)]
    iframe
  ·
    iintro ⟨⟨%x, Hh⟩, HSI⟩
    unfold StableHlo.held
    ihave Hr := (pointsTo_read_all (Pipeline.ucRefs τ sig) (fun b => ((c : Thread nD τ).1, b)) (V8 m (outsAt m c x) c) s') $$ [Hh HSI]
    · isplitl [Hh] <;> iassumption
    icases Hr with ⟨%h, HSI⟩
    imodintro
    isplitr
    · ipureintro
      have hk {r : Ref sig .tc} (hr : _) (e : V8 m (outsAt m c x) c r = m ((c : Thread nD τ).loc r)) :=
        (h (Proc.devRef .tc r) (Finset.mem_filter.mpr ⟨StableHlo.devRef_mem_tcRefs r, hr⟩)).trans e
      exact ⟨hk (by decide) (V8_main_arg0 ..), hk (by decide) (V8_main_arg1 ..), hk (by decide) (V8_main_arg2 ..), hk (by decide) (V8_main_arg3 ..),
        hk (by decide) (V8_main_arg4 ..), hk (by decide) (V8_main_arg5 ..), hk (by decide) (V8_main_arg6 ..), hk (by decide) (V8_main_arg7 ..),
        hk (by decide) (V8_main_arg8 ..), hk (by decide) (V8_main_arg9 ..), hk (by decide) (V8_main_arg10 ..), hk (by decide) (V8_main_arg11 ..),
        hk (by decide) (V8_main_arg12 ..), hk (by decide) (V8_main_arg13 ..)⟩
    · iexact HSI

end Cert.Kernel.Frame

end
-- ==== Proof.KI.Base.lean ====
import proofs.«424062_j22247930593355_3_alg».proof.Proof.Gen.KernelIdeal.Regions
import proofs.«424062_j22247930593355_3_alg».proof.Proof.Gen.KernelIdeal.Skeleton
import proofs.«424062_j22247930593355_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

abbrev 𝒱₀ : Variants := Variants.none

abbrev L : GSem nD τ sig → Finset Unit := fun _ => ∅
abbrev lv : GSem nD τ sig → Unit → ℕ := fun _ _ => 0

abbrev Rr (c : Dev nD) : sProp 𝕄 :=
  iprop((∃ r, prngReg c r) ∗ ∃ W, owes (c : Thread nD τ) (0 : CellTallies nD τ sig Unit) W)

abbrev atTc (W : Dev nD → Valuation τ sig (Elt F)) : (c : Dev nD) → (b : Ref sig .tc) → Buf (Elt F) ((c : Thread nD τ).loc b) :=
  fun c b => W c b

end Cert.KernelIdeal.Frame

end
-- ==== Proof.KI.R0Data.lean ====
import proofs.«424062_j22247930593355_3_alg».proof.Proof.KI.Base
import Idealize.ShloMosaic.Lib.Pipeline.Value

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

theorem off00 : (![0, 0] : Fin 2 → ℕ) = fun _ => 0 := by
  funext a; fin_cases a <;> rfl

-- A whole memref is owned at `X` exactly when it points to the one contents that read `X`.
theorem owns_unread (c : Dev nD) {sp : Space} {s : Shape} {e : EltTy} {m : Memref sig .tc sp s e} (h : m.IsWhole) (q : PosShare TreeShare)
    (X : s.Idx → Elt F e) : (owns (c : Thread nD τ) m q X : sProp 𝕄) = (m.view.loc (c : Thread nD τ) ↦[m.view.set]{q} h.unread X) := by
  have h₁ : (owns (c : Thread nD τ) m q X : sProp 𝕄) ⊢ (m.view.loc (c : Thread nD τ) ↦[m.view.set]{q} h.unread X) := by
    unfold owns; iintro ⟨%f, %hf, H⟩; obtain rfl := h.eq_unread hf; iexact H
  have h₂ : _ ⊢ (owns (c : Thread nD τ) m q (m.view.read (Elt F) (h.unread X)) : sProp 𝕄) := owns_intro (c : Thread nD τ) m q _
  rw [h.read_unread] at h₂
  exact BI.equiv_iff.mp ⟨h₁, h₂⟩

-- A load through the full rectangle reads the contents.
theorem readAt_full {s : Shape} {e : EltTy} {m : Memref sig .tc .vmem s e} (h : m.IsWhole) (X : s.Idx → Elt F e)
    {off : Fin s.rank → ℕ} (ho : off = fun _ => 0) (inb : ∀ a, off a + s.size a ≤ s.size a) :
    View.readAt (Elt F) m.view (Rect.unit off s.size inb).toLoadRect (h.unread X) = X :=
  (congrArg (View.ld · _) (h.read_unread X)).trans (View.ld_unit_zero ho inb X)

-- One store through the full rectangle leaves its payload.
theorem read_writes_full {s : Shape} {e : EltTy} (v : View sig .tc .vmem s e) (f : v.ty.Contents (Elt F))
    {off : Fin s.rank → ℕ} (ho : off = fun _ => 0) (inb : ∀ a, off a + s.size a ≤ s.size a) (w : s.Idx → Elt F e) :
    v.read (Elt F) (v.writes (Elt F) f [(⟨Rect.unit off s.size inb, w⟩ : View.Piece (Elt F) s e)]) = w := by
  rw [View.read_writes_eq_canon v f _ (fun y => ⟨_, List.mem_singleton_self _, View.mem_set_unit_zero ho inb y⟩),
    View.canon_unit_zero ho]

section Body

variable (c : Dev nD) (i : grid0.Coords) {arg1 : Memref sig .tc .vmem S1x2048 .f32} {harg1 : arg1.IsWhole} {arg2 : Memref sig .tc .vmem S1x2048 .f32} {harg2 : arg2.IsWhole} {arg3 : Memref sig .tc .vmem S20x2048 .f32} {harg3 : arg3.IsWhole} {arg4 : Memref sig .tc .vmem S20x2048 .f32} {harg4 : arg4.IsWhole} {arg5 : Memref sig .tc .vmem S1x20 .f32} {harg5 : arg5.IsWhole} {arg6 : Memref sig .tc .vmem S20x2048 .f32} {harg6 : arg6.IsWhole} {arg7 : Memref sig .tc .vmem S256x2048 .f32} {harg7 : arg7.IsWhole} {arg8 : Memref sig .tc .vmem S256x2048 .f32} {harg8 : arg8.IsWhole} {arg9 : Memref sig .tc .vmem S1x256 .f32} {harg9 : arg9.IsWhole} {arg10 : Memref sig .tc .vmem S1x256 .f32} {harg10 : arg10.IsWhole} {arg11 : Memref sig .tc .vmem S1x20 .f32} {harg11 : arg11.IsWhole} {arg12 : Memref sig .tc .vmem S1x2048 .f32} {harg12 : arg12.IsWhole}

set_option maxHeartbeats 2000000 in
-- Past the first point the body computes the combine tile from the context row in the scratch.
theorem run0_later (hc : ¬k0_cond1 i = 1#1)
    (x1 : Vec F S1x2048 .f32) (x7 x8 : Vec F S256x2048 .f32) (x9 : Vec F S1x256 .f32) (xs : Vec F S1x2048 .f32)
    (E : Set ℕ) (K : PUnit → sProp 𝕄) :
    iprop(owns (c : Thread nD τ) arg1 fullShare x1 ∗ owns (c : Thread nD τ) arg7 fullShare x7 ∗ owns (c : Thread nD τ) arg8 fullShare x8 ∗ owns (c : Thread nD τ) arg9 fullShare x9
        ∗ (∃ d, owns (c : Thread nD τ) arg10 fullShare d) ∗ owns (c : Thread nD τ) arg12 fullShare xs
        ∗ (iprop(owns (c : Thread nD τ) arg1 fullShare x1 ∗ owns (c : Thread nD τ) arg7 fullShare x7 ∗ owns (c : Thread nD τ) arg8 fullShare x8 ∗ owns (c : Thread nD τ) arg9 fullShare x9
            ∗ owns (c : Thread nD τ) arg10 fullShare (k0_pay1 x1 xs x7 x8 x9) ∗ owns (c : Thread nD τ) arg12 fullShare xs) -∗ K ⟨⟩))
      ⊢ wp frame (wpE (defs₀ (F := F)) Variants.none c none) E (cc0_attn_comb_kernel i arg1 harg1 arg2 harg2 arg3 harg3 arg4 harg4 arg5 harg5 arg6 harg6 arg7 harg7 arg8 harg8 arg9 harg9 arg10 harg10 arg11 harg11 arg12 harg12) K := by
  simp only [cc0_attn_comb_kernel_eq_skeleton]; unfold cc0_attn_comb_kernel_skel
  rw [owns_unread c harg1, owns_unread c harg7, owns_unread c harg8, owns_unread c harg9, owns_unread c harg12]
  unfold owns
  iintro ⟨H1, H7, H8, H9, ⟨%d10, %f10, -, H10⟩, HS, Hk⟩
  sl_exec (disch := first | exact hc)
  sl_step
  iapply Hk
  iframe H1 H7 H8 H9 HS
  iexists _; isplitr
  swap; · iexact H10
  ipureintro
  rw [read_writes_full _ _ off00]; repeat rw [readAt_full _ _ off00]

set_option maxHeartbeats 4000000 in
-- At the first point the body also computes the attention weights and the context row.
theorem run0_first (hc : k0_cond1 i = 1#1)
    (x1 x2 : Vec F S1x2048 .f32) (x3 x4 : Vec F S20x2048 .f32) (x5 : Vec F S1x20 .f32) (x6 : Vec F S20x2048 .f32)
    (x7 x8 : Vec F S256x2048 .f32) (x9 : Vec F S1x256 .f32)
    (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
        ∗ owns (c : Thread nD τ) arg6 fullShare x6 ∗ owns (c : Thread nD τ) arg7 fullShare x7 ∗ owns (c : Thread nD τ) arg8 fullShare x8 ∗ owns (c : Thread nD τ) arg9 fullShare x9
        ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare x7 ∗ owns (c : Thread nD τ) arg8 fullShare x8 ∗ owns (c : Thread nD τ) arg9 fullShare x9
            ∗ owns (c : Thread nD τ) arg10 fullShare (k0_pay1 x1 (k0_pay3 x1 x2 x3 x4 x5 x6) x7 x8 x9)
            ∗ owns (c : Thread nD τ) arg11 fullShare (k0_pay2 x1 x2 x3 x4 x5)
            ∗ owns (c : Thread nD τ) arg12 fullShare (k0_pay3 x1 x2 x3 x4 x5 x6)) -∗ K ⟨⟩))
      ⊢ wp frame (wpE (defs₀ (F := F)) Variants.none c none) E (cc0_attn_comb_kernel i arg1 harg1 arg2 harg2 arg3 harg3 arg4 harg4 arg5 harg5 arg6 harg6 arg7 harg7 arg8 harg8 arg9 harg9 arg10 harg10 arg11 harg11 arg12 harg12) K := by
  simp only [cc0_attn_comb_kernel_eq_skeleton]; unfold cc0_attn_comb_kernel_skel
  simp only [k0_part1_eq_skeleton]
  rw [owns_unread c harg1, owns_unread c harg2, owns_unread c harg3, owns_unread c harg4, owns_unread c harg5, owns_unread c harg6, owns_unread c harg7, owns_unread c harg8, owns_unread c harg9]
  unfold owns
  iintro ⟨H1, H2, H3, H4, H5, H6, H7, H8, H9, ⟨%d10, %f10, -, H10⟩, ⟨%d11, %f11, -, H11⟩, ⟨%ds, %fs, -, HS⟩, Hk⟩
  sl_exec (disch := first | exact hc)
  sl_step
  iapply Hk
  iframe H1 H2 H3 H4 H5 H6 H7 H8 H9
  isplitl [H10]
  · iexists _; isplitr
    swap; · iexact H10
    ipureintro
    sl_unfold_run_names
    rw [read_writes_full _ _ off00, View.readCov_unit_zero _ off00]; repeat rw [readAt_full _ _ off00]
  isplitl [H11]
  · iexists _; isplitr
    swap; · iexact H11
    ipureintro
    rw [read_writes_full _ _ off00]; repeat rw [readAt_full _ _ off00]
  iexists _; isplitr
  swap; · iexact HS
  ipureintro
  sl_unfold_run_names
  rw [read_writes_full _ _ off00]; repeat rw [readAt_full _ _ off00]

end Body

variable (V : (c : Dev nD) → (b : Ref sig .tc) → Buf (Elt F) ((c : Thread nD τ).loc b))

def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def pt0 : Fin cfg0.N := ⟨0, lt_of_lt_of_eq (by decide : 0 < 8) N_0.symm⟩

-- The attention weights, from the first point's blocks.
def aw0 (c : Dev nD) : Vec F S1x20 .f32 :=
  k0_pay2 (blk0 V c 0 pt0) (blk0 V c 1 pt0) (blk0 V c 2 pt0) (blk0 V c 3 pt0) (blk0 V c 4 pt0)

-- The context row: the attention weights applied to the encoder outputs.
def ctx0 (c : Dev nD) : Vec F S1x2048 .f32 :=
  k0_pay3 (blk0 V c 0 pt0) (blk0 V c 1 pt0) (blk0 V c 2 pt0) (blk0 V c 3 pt0) (blk0 V c 4 pt0) (blk0 V c 5 pt0)

-- The combine tile of point `t`.
def comb0 (c : Dev nD) (t : Fin cfg0.N) : Vec F S1x256 .f32 :=
  k0_pay1 (blk0 V c 0 t) (ctx0 V c) (blk0 V c 6 t) (blk0 V c 7 t) (blk0 V c 8 t)

-- From the first point on, the scratch holds the context row.
def Phi0 (c : Dev nD) : ℕ → sProp 𝕄
  | 0 => iprop((∃ r, prngReg c r) ∗ Pipeline.scopedRest spec0 c)
  | _ + 1 => iprop(owns (c : Thread nD τ) (Memref.whole cc0_scratch0) fullShare (ctx0 V c) ∗ (∃ r, prngReg c r)
      ∗ Pipeline.scopedRestBut spec0 c [cc0_scratch0])

-- Two pairs of windows share an array, half each.
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => blk0 V c 5 t
    | ⟨6, _⟩ => blk0 V c 6 t
    | ⟨7, _⟩ => blk0 V c 7 t
    | ⟨8, _⟩ => blk0 V c 8 t
    | ⟨9, _⟩ => comb0 V c t
    | ⟨10, _⟩ => aw0 V c
  Φ t := Phi0 V c t.val
  q w := match w with
    | ⟨2, _⟩ | ⟨6, _⟩ => fullShare.left
    | ⟨3, _⟩ | ⟨7, _⟩ => fullShare.right
    | _ => fullShare
  owed _ := 0

theorem A_eq0 (c : Dev nD) (w : Fin cfg0.W) : (dat0 V c).A w = V c (Pipeline.arrRef spec0 w) := rfl

theorem owed0 (c : Dev nD) (t : Fin (cfg0.N + 1)) : (dat0 V c).owed t = 0 := rfl

theorem after0_9 (c : Dev nD) (t : Fin cfg0.N) : (dat0 V c).after 9 t = comb0 V c t := rfl
theorem after0_10 (c : Dev nD) (t : Fin cfg0.N) : (dat0 V c).after 10 t = aw0 V c := rfl

theorem Phi0_zero (c : Dev nD) :
    Phi0 V c 0 = iprop((∃ r, prngReg c r) ∗ (∃ d, owns (c : Thread nD τ) (Memref.whole cc0_scratch0) fullShare d)
      ∗ Pipeline.scopedRestBut spec0 c [cc0_scratch0]) := by
  unfold Phi0; rw [scopedRest0_split]; simp only [owns_whole]

theorem Phi0_pos (c : Dev nD) (n : ℕ) (hn : n ≠ 0) :
    Phi0 V c n = iprop(owns (c : Thread nD τ) (Memref.whole cc0_scratch0) fullShare (ctx0 V c) ∗ (∃ r, prngReg c r)
      ∗ Pipeline.scopedRestBut spec0 c [cc0_scratch0]) := by
  cases n
  · exact absurd rfl hn
  · rfl

theorem hin0 (c : Dev nD) : (iprop((∃ r, prngReg c r) ∗ Pipeline.scopedRest spec0 c) : sProp 𝕄) ⊢ (dat0 V c).Φ 0 :=
  Idealize.SL.BI.Entails.refl _

-- After the last point the scratch's contents are forgotten.
theorem hout0 (c : Dev nD) : (dat0 V c).Φ (Fin.last cfg0.N) ⊢ (iprop((∃ r, prngReg c r) ∗ Pipeline.scopedRest spec0 c) : sProp 𝕄) := by
  rw [show (dat0 V c).Φ (Fin.last cfg0.N) = Phi0 V c (7 + 1) from rfl, Phi0_pos V c (7 + 1) (Nat.succ_ne_zero 7), scopedRest0_split]
  simp only [owns_whole]
  iintro ⟨HS, Hg, Hr⟩
  iframe Hg Hr
  iexists _; iexact HS

-- At every point an input's block is the restriction of its array to the point's rectangle, which the body leaves.
theorem before0 (c : Dev nD) (w : Fin cfg0.W) (hw : (cfg0.win w).isOut = false) (t : Fin cfg0.N) (d) :
    (dat0 V c).before w t d = (dat0 V c).after w t := by
  fin_cases w <;> first
    | exact absurd hw (by decide)
    | exact ((dat0 V c).before_in_eq_fetched _ rfl (fun _ => rfl) (fun _ _ _ => rfl) (fun _ => rfl) t d).trans rfl

-- A window live at a point is left at what the body leaves in it.
theorem live0 (c : Dev nD) (w : Fin cfg0.W) (t : Fin cfg0.N) (h : cfg0.idle w (cfg0.grid.coords t) = false) :
    (dat0 V c).leavesExact w t = owns (c : Thread nD τ) ((cfg0.win w).stage (cfg0.slots t w)) fullShare ((dat0 V c).after w t) := by
  unfold Dat.leavesExact; rw [h]

theorem hcond0 : ∀ t : Fin cfg0.N, k0_cond1 (cfg0.grid.coords t) = 1#1 ↔ t.val = 0 :=
  (by decide +kernel : ∀ t : Fin grid0.N, k0_cond1 (grid0.coords t) = 1#1 ↔ t.val = 0)

theorem live0_10 : ∀ t : Fin cfg0.N, t.val = 0 → cfg0.idle 10 (cfg0.grid.coords t) = false := by decide +kernel
theorem idle0_10 : ∀ t : Fin cfg0.N, t.val ≠ 0 → cfg0.idle 10 (cfg0.grid.coords t) = true := by decide +kernel

theorem noflush0_10 : ∀ t : Fin cfg0.N, t.val ≠ 7 → (cfg0.win 10).flush t = false := by decide +kernel

-- After the first point the eleventh window's contents are the attention weights, by induction on the point.
theorem bef0_10 (c : Dev nD) (d) : ∀ (k : ℕ) (t : Fin cfg0.N), t.val = k + 1 → (dat0 V c).before 10 t d = aw0 V c := by
  intro k
  induction k
  all_goals
    intro t ht
    have hN : t.val < 8 := lt_of_lt_of_eq t.isLt N_0
    rw [(dat0 V c).before_of_pos 10 t (by omega) ((cfg0.win 10).fetch_out rfl t) d,
      if_neg (by rw [noflush0_10 ⟨t.val - 1, _⟩ (by simp only; omega)]; exact Bool.false_ne_true)]
    unfold Dat.left
  case zero =>
    rw [live0_10 ⟨t.val - 1, _⟩ (by simp only; omega)]
    dsimp only
    unfold Dat.kept
    rw [after0_10, Pipeline.fill_of_clip_none 10 _ (fun _ => rfl) d (aw0 V c), Pipeline.Window.fill_cut]
  case succ k ih =>
    rw [idle0_10 ⟨t.val - 1, _⟩ (by simp only; omega)]
    dsimp only
    exact ih ⟨t.val - 1, _⟩ (by simp only; omega)

-- A later point leaves the eleventh window as it finds it.
theorem keep0_10 (c : Dev nD) (t : Fin cfg0.N) (h0 : t.val ≠ 0) :
    (iprop(∃ d, owns (c : Thread nD τ) ((cfg0.win 10).stage (cfg0.slots t 10)) fullShare ((dat0 V c).before 10 t d)) : sProp 𝕄) ⊢ (dat0 V c).leavesExact 10 t := by
  have hN : t.val < 8 := lt_of_lt_of_eq t.isLt N_0
  by_cases h7 : t.val = 7
  · have hb : ∀ d, (dat0 V c).before 10 t d = aw0 V c := fun d => bef0_10 V c d (t.val - 1) t (by omega)
    rw [show (dat0 V c).leavesExact 10 t = owns (c : Thread nD τ) ((cfg0.win 10).stage (cfg0.slots t 10)) fullShare ((dat0 V c).after 10 t) from by
      unfold Dat.leavesExact; rw [idle0_10 t h0, (flush0_10 t).mpr (by omega)], after0_10]
    simp only [hb]
    iintro ⟨%d, H⟩
    iexact H
  · rw [Dat.leavesExact_idle (dat0 V c) 10 t (idle0_10 t h0) (noflush0_10 t h7)]

-- The two control cases, by the point's index.
theorem sound_body0 (c : Dev nD) (t : Fin cfg0.N) :
    iprop((dat0 V c).Φ t.castSucc ∗ (dat0 V c).owesAt () t.castSucc
        ∗ bigSep Finset.univ fun w : Fin cfg0.W => iprop(∃ d, owns (c : Thread nD τ) ((cfg0.win w).stage (cfg0.slots t w)) fullShare ((dat0 V c).before w t d)))
      ⊢ wp frame (wpE (defs₀ (F := F)) Variants.none c none) Set.univ (bodyAt0 t) fun _ =>
          iprop((dat0 V c).Φ t.succ ∗ (dat0 V c).owesAt () t.succ
            ∗ bigSep Finset.univ fun w : Fin cfg0.W => (dat0 V c).leavesExact w t) := by
  rw [bigSep_W0, bigSep_W0, show (dat0 V c).Φ t.castSucc = Phi0 V c t.val from rfl, show (dat0 V c).Φ t.succ = Phi0 V c (t.val + 1) from rfl,
    show (dat0 V c).owesAt () t.succ = (dat0 V c).owesAt () t.castSucc from rfl]
  unfold bodyAt0
  simp (disch := rfl) only [before0, live0]
  by_cases h0 : t.val = 0
  · have ht : pt0 = t := Fin.ext h0.symm
    rw [live0 V c 10 t (live0_10 t h0), h0, Phi0_zero, Phi0_pos V c (0 + 1) (Nat.succ_ne_zero 0)]
    dsimp only [dat0]
    unfold comb0 ctx0 aw0
    rw [ht]
    iintro ⟨⟨Hg, ⟨%ds, HS⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (run0_first c (grid0.coords t) ((hcond0 t).mpr h0) (blk0 V c 0 t) (blk0 V c 1 t) (blk0 V c 2 t) (blk0 V c 3 t) (blk0 V c 4 t) (blk0 V c 5 t) (blk0 V c 6 t) (blk0 V c 7 t) (blk0 V c 8 t) Set.univ _)
    iframe H0 H1 H2 H3 H4 H5 H6 H7 H8
    isplitl [H9]; · iexists _; iexact H9
    isplitl [H10]; · iexists _; iexact H10
    isplitl [HS]; · iexists _; iexact HS
    iintro ⟨H0, H1, H2, H3, H4, H5, H6, H7, H8, H9, H10, HS⟩
    iframe
  · rw [Phi0_pos V c t.val h0, Phi0_pos V c (t.val + 1) (Nat.succ_ne_zero _)]
    dsimp only [dat0]
    unfold comb0
    iintro ⟨⟨HS, Hg, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10⟩
    iapply (run0_later c (grid0.coords t) (fun h => h0 ((hcond0 t).mp h)) (blk0 V c 0 t) (blk0 V c 6 t) (blk0 V c 7 t) (blk0 V c 8 t) (ctx0 V c) Set.univ _)
    iframe H0 H6 H7 H8 HS
    isplitl [H9]; · iexists _; iexact H9
    iintro ⟨H0, H6, H7, H8, H9, HS⟩
    iframe HS Hg Hr Ho H0 H1 H2 H3 H4 H5 H6 H7 H8 H9
    iapply (keep0_10 V c t h0)
    iexact H10

theorem body_obligation0 (c : Dev nD) : BodyObligation (dat0 (F := F) V c) (defs₀ (F := F)) Variants.none () Set.univ := fun t => by
  have h := sound_body0 V c t
  rw [bigSep_W0, bigSep_W0] at h ⊢
  exact h

end Cert.KernelIdeal.Frame

end
-- ==== Proof.KI.R1Data.lean ====
import proofs.«424062_j22247930593355_3_alg».proof.Proof.KI.Base

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

abbrev rRow : Rect S1x2048 := Rect.unit (s := S1x2048) ![0, 0] S1x2048.size inb_S1x2048_S1x2048_0_0
abbrev rMat : Rect S256x2048 := Rect.unit (s := S256x2048) ![0, 0] S256x2048.size inb_S256x2048_S256x2048_0_0
abbrev rTile : Rect S1x256 := Rect.unit (s := S1x256) ![0, 0] S1x256.size inb_S1x256_S1x256_0_0
/-- The 256 columns of the old hidden row that the point at coordinates `i` updates. -/
abbrev rHid (i : grid1.Coords) : Rect S1x2048 := Rect.unit (s := S1x2048) (k1_off1 i) S1x256.size (k1_off1_inb i)

section Kernel

variable (i : grid1.Coords) (x0 x1 : Vec F S1x2048 .f32) (x2 x3 x4 x5 x6 x7 : Vec F S256x2048 .f32) (x8 x9 x10 x11 x12 x13 : Vec F S1x256 .f32)

/-- The new hidden tile at coordinates `i`, from the fourteen input blocks. -/
def gruTile : Vec F S1x256 .f32 :=
  k1_pay1 (k1_pay3 (View.ld x1 rRow)) (k1_pay4 (View.ld x5 rMat)) (k1_pay5 (View.ld x6 rMat)) (k1_pay6 (View.ld x7 rMat))
    (k1_pay7 (View.ld x0 rRow) (View.ld x2 rMat) (View.ld x8 rTile)) (k1_pay8 (View.ld x0 rRow) (View.ld x3 rMat) (View.ld x9 rTile))
    (k1_pay9 (View.ld x0 rRow) (View.ld x4 rMat)) (View.ld x10 rTile) (View.ld x11 rTile) (View.ld x12 rTile) (View.ld x13 rTile)
    (View.ld x1 (rHid i))

/-- What the output buffer holds after the body's one store, of the whole tile. -/
def out1_14 : Vec F S1x256 .f32 :=
  View.canon [⟨rTile, gruTile i x0 x1 x2 x3 x4 x5 x6 x7 x8 x9 x10 x11 x12 x13⟩]

end Kernel

section Data

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Proof data: inputs left at their blocks, the output at the new tile; three readers of one array hold a half and two quarters. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => out1_14 (cfg1.grid.coords t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t)
  Φ _ := Pipeline.ΦA spec1 c
  q := ![fullShare, fullShare, fullShare.left, fullShare.right.left, fullShare.right.right, fullShare.left, fullShare.right.left, fullShare.right.right, fullShare.left, fullShare.right.left, fullShare.right.right, fullShare.left, fullShare.right.left, fullShare.right.right, fullShare]
  owed _ := 0

theorem A_eq1 (c : Dev nD) (w : Fin cfg1.W) : (dat1 V c).A w = V c (Pipeline.arrRef spec1 w) := rfl

theorem owed1 (c : Dev nD) (t : Fin (cfg1.N + 1)) : (dat1 V c).owed t = 0 := rfl

theorem q1_0 (c : Dev nD) : (dat1 V c).q 0 = fullShare := rfl
theorem q1_1 (c : Dev nD) : (dat1 V c).q 1 = fullShare := rfl
theorem q1_2 (c : Dev nD) : (dat1 V c).q 2 = fullShare.left := rfl
theorem q1_3 (c : Dev nD) : (dat1 V c).q 3 = fullShare.right.left := rfl
theorem q1_4 (c : Dev nD) : (dat1 V c).q 4 = fullShare.right.right := rfl
theorem q1_5 (c : Dev nD) : (dat1 V c).q 5 = fullShare.left := rfl
theorem q1_6 (c : Dev nD) : (dat1 V c).q 6 = fullShare.right.left := rfl
theorem q1_7 (c : Dev nD) : (dat1 V c).q 7 = fullShare.right.right := rfl
theorem q1_8 (c : Dev nD) : (dat1 V c).q 8 = fullShare.left := rfl
theorem q1_9 (c : Dev nD) : (dat1 V c).q 9 = fullShare.right.left := rfl
theorem q1_10 (c : Dev nD) : (dat1 V c).q 10 = fullShare.right.right := rfl
theorem q1_11 (c : Dev nD) : (dat1 V c).q 11 = fullShare.left := rfl
theorem q1_12 (c : Dev nD) : (dat1 V c).q 12 = fullShare.right.left := rfl
theorem q1_13 (c : Dev nD) : (dat1 V c).q 13 = fullShare.right.right := rfl

theorem after1_14 (c : Dev nD) (t : Fin cfg1.N) :
    (dat1 V c).after 14 t = out1_14 (cfg1.grid.coords t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) := rfl

/-- What the body finds in an input's buffer is what it leaves there. -/
theorem before1 (c : Dev nD) (w : Fin cfg1.W) (hw : (cfg1.win w).isOut = false) (t : Fin cfg1.N) (d) :
    (dat1 V c).before w t d = (dat1 V c).after w t := by
  fin_cases w <;> first
    | exact absurd hw (by decide)
    | exact ((dat1 V c).before_in_eq_fetched _ rfl (fun _ => rfl) (fun _ _ _ => rfl) (fun _ => rfl) t d).trans rfl

set_option maxHeartbeats 1000000 in
/-- The body at any point reads its inputs and keeps them, and leaves the new hidden tile in the output's buffer. -/
theorem body_obligation1 (c : Dev nD) : BodyObligation (dat1 (F := F) V c) (defs₀ (F := F)) Variants.none () Set.univ := fun t => by
  rw [bigSep_W1, bigSep_W1]
  simp (disch := rfl) only [before1, show ∀ w i, cfg1.idle w i = false from fun _ _ => rfl]
  dsimp only [dat1]
  sl_whnfR [defs₀, Defs.onTc]
  sl_unfold [cc1_gru_kernel]
  conv_lhs => unfold owns
  iintro ⟨HΦ, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩, ⟨%d9, %f9, %hf9, H9⟩, ⟨%d10, %f10, %hf10, H10⟩, ⟨%d11, %f11, %hf11, H11⟩, ⟨%d12, %f12, %hf12, H12⟩, ⟨%d13, %f13, %hf13, H13⟩, ⟨%d14, %f14, -, H14⟩⟩
  rw [← hf0, ← hf1, ← hf2, ← hf3, ← hf4, ← hf5, ← hf6, ← hf7, ← hf8, ← hf9, ← hf10, ← hf11, ← hf12, ← hf13]
  iapply wp_frame_l _ _ _; isplitl [HΦ]; · iexact HΦ
  iapply wp_frame_l _ _ _; isplitl [Ho]; · iexact Ho
  sl_exec
  sl_step
  isplitl [H0]; · iapply owns_intro $$ H0
  isplitl [H1]; · iapply owns_intro $$ H1
  isplitl [H2]; · iapply owns_intro $$ H2
  isplitl [H3]; · iapply owns_intro $$ H3
  isplitl [H4]; · iapply owns_intro $$ H4
  isplitl [H5]; · iapply owns_intro $$ H5
  isplitl [H6]; · iapply owns_intro $$ H6
  isplitl [H7]; · iapply owns_intro $$ H7
  isplitl [H8]; · iapply owns_intro $$ H8
  isplitl [H9]; · iapply owns_intro $$ H9
  isplitl [H10]; · iapply owns_intro $$ H10
  isplitl [H11]; · iapply owns_intro $$ H11
  isplitl [H12]; · iapply owns_intro $$ H12
  isplitl [H13]; · iapply owns_intro $$ H13
  unfold owns; iexists _; isplitr; swap; · iexact H14
  ipureintro
  exact View.read_writes_eq_canon _ _ _ (View.cover_of_tiled _ S1x256.size (by rfl))

theorem hin1 (c : Dev nD) : (iprop((∃ r, prngReg c r) ∗ Pipeline.scopedRest spec1 c) : sProp 𝕄) ⊢ (dat1 V c).Φ 0 :=
  BI.sep_comm

theorem hout1 (c : Dev nD) : (dat1 V c).Φ (Fin.last cfg1.N) ⊢ (iprop((∃ r, prngReg c r) ∗ Pipeline.scopedRest spec1 c) : sProp 𝕄) :=
  BI.sep_comm

end Data

end Cert.KernelIdeal.Frame

end
-- ==== Proof.KI.R2Data.lean ====
import proofs.«424062_j22247930593355_3_alg».proof.Proof.KI.Base
import Idealize.ShloMosaic.Lib.Pipeline.Value

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- Column `j` of the payload reads row `j` of the weight block and entry `j` of the bias only. -/
class K2Local (F : FTy → Type) [FloatOps F] : Prop where
  col : ∀ (x0 : Vec F S1x2048 .f32) (X X' : Vec F S2048x2048 .f32) (b b' : Vec F S1x2048 .f32) (j : S1x2048.Idx),
    (∀ k : S2048x2048.Idx, (k 0).val = (j 1).val → X k = X' k) → b j = b' j → k2_pay1 x0 X b j = k2_pay1 x0 X' b' j

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The weight block filled out to the buffer's shape with zeros. -/
def wblk2 (c : Dev nD) (t : Fin cfg2.N) : S2048x2048.Idx → Elt F .f32 :=
  win2_1.fill (grid2.coords t) (fun _ => Scalar.ofBits .f32 0#32) (iblk2 V c 1 t)

def bblk2 (c : Dev nD) (t : Fin cfg2.N) : S1x2048.Idx → Elt F .f32 :=
  win2_2.fill (grid2.coords t) (fun _ => Scalar.ofBits .f32 0#32) (iblk2 V c 2 t)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => wblk2 V c t
    | ⟨2, _⟩ => bblk2 V c t
    | ⟨3, _⟩ => k2_pay1 (iblk2 V c 0 t) (wblk2 V c t) (bblk2 V c t)
  Φ _ := Pipeline.ΦA spec2 c
  q _ := fullShare
  owed _ := 0

theorem A_eq2 (c : Dev nD) (w : Fin cfg2.W) : (dat2 V c).A w = V c (Pipeline.arrRef spec2 w) := rfl

theorem owed2 (c : Dev nD) (t : Fin (cfg2.N + 1)) : (dat2 V c).owed t = 0 := rfl

theorem q2 (c : Dev nD) (w : Fin cfg2.W) : (dat2 V c).q w = fullShare := rfl

theorem after2_3 (c : Dev nD) (t : Fin cfg2.N) :
    (dat2 V c).after 3 t = k2_pay1 (iblk2 V c 0 t) (wblk2 V c t) (bblk2 V c t) := rfl

theorem hin2 (c : Dev nD) : (iprop((∃ r, prngReg c r) ∗ Pipeline.scopedRest spec2 c) : sProp 𝕄) ⊢ (dat2 V c).Φ 0 := sep_comm.1

theorem hout2 (c : Dev nD) : (dat2 V c).Φ (Fin.last cfg2.N) ⊢ (iprop((∃ r, prngReg c r) ∗ Pipeline.scopedRest spec2 c) : sProp 𝕄) := sep_comm.1

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d

/-- The weight block is cut along its rows as the result block is along its columns; the bias block as the result block. -/
theorem xsize2 : ∀ i : grid2.Coords,
    win2_1.xsize i 0 = win2_3.xsize i 1 ∧ win2_1.xsize i 1 = 2048 ∧ ∀ a, win2_2.xsize i a = win2_3.xsize i a := by
  decide +kernel

/-- A moved column `j` of the payload reads row `j` of the weight block and entry `j` of the bias, both inside the arrays. -/
theorem cut_out2 [K2Local F] (i : grid2.Coords) (x0 : Vec F S1x2048 .f32)
    (d1 d1' : S2048x2048.Idx → Elt F .f32) (B1 : (win2_1.xblock i).Idx → Elt F .f32)
    (d2 d2' : S1x2048.Idx → Elt F .f32) (B2 : (win2_2.xblock i).Idx → Elt F .f32) :
    win2_3.cut i (k2_pay1 x0 (win2_1.fill i d1 B1) (win2_2.fill i d2 B2))
      = win2_3.cut i (k2_pay1 x0 (win2_1.fill i d1' B1) (win2_2.fill i d2' B2)) := by
  funext j
  obtain ⟨h10, h11, h2⟩ := xsize2 i
  refine K2Local.col x0 _ _ _ _ (win2_3.xinj i j) (fun k hk => ?_) ?_
  · have hm : win2_1.moved i k = true := (win2_1.moved_iff i k).mpr fun a => by
      match a with
      | ⟨0, _⟩ => show (k 0).val < win2_1.xsize i 0; rw [h10, hk]; exact (j 1).isLt
      | ⟨1, _⟩ => show (k 1).val < win2_1.xsize i 1; rw [h11]; exact (k 1).isLt
    unfold Window.fill; rw [dif_pos hm, dif_pos hm]
  · have hm : win2_2.moved i (win2_3.xinj i j) = true :=
      (win2_2.moved_iff i _).mpr fun a => by rw [h2 a]; exact (j a).isLt
    unfold Window.fill; rw [dif_pos hm, dif_pos hm]

set_option maxHeartbeats 1000000 in
/-- Three whole loads and one whole store: the body hands the inputs' buffers back as found and the result's at the
    payload of what they hold, which `h` says is of the form `G d`. -/
theorem body2 (c : Dev nD) (t : Fin cfg2.N) (P G : (S1x2048.Idx → Elt F .f32) → S1x2048.Idx → Elt F .f32)
    (h : ∀ d1 d2, ∃ d, k2_pay1 (iblk2 V c 0 t) ((dat2 V c).fetched 1 t d1) ((dat2 V c).fetched 2 t d2) = G d) :
    iprop((dat2 V c).Φ t.castSucc ∗ (dat2 V c).owesAt () t.castSucc
      ∗ (∃ d, owns (c : Thread nD τ) (win2_0.stage (cfg2.slots t 0)) fullShare ((dat2 V c).before 0 t d))
      ∗ (∃ d, owns (c : Thread nD τ) (win2_1.stage (cfg2.slots t 1)) fullShare ((dat2 V c).before 1 t d))
      ∗ (∃ d, owns (c : Thread nD τ) (win2_2.stage (cfg2.slots t 2)) fullShare ((dat2 V c).before 2 t d))
      ∗ (∃ d, owns (c : Thread nD τ) (win2_3.stage (cfg2.slots t 3)) fullShare (P d)))
    ⊢ wp frame (wpE (defs₀ (F := F)) Variants.none c none) Set.univ (bodyAt2 t) fun _ =>
      iprop((dat2 V c).Φ t.castSucc ∗ (dat2 V c).owesAt () t.castSucc
        ∗ owns (c : Thread nD τ) (win2_0.stage (cfg2.slots t 0)) fullShare (iblk2 V c 0 t)
        ∗ (∃ d, owns (c : Thread nD τ) (win2_1.stage (cfg2.slots t 1)) fullShare
            (win2_1.fill (grid2.coords t) d (win2_1.cut (grid2.coords t) (wblk2 V c t))))
        ∗ (∃ d, owns (c : Thread nD τ) (win2_2.stage (cfg2.slots t 2)) fullShare
            (win2_2.fill (grid2.coords t) d (win2_2.cut (grid2.coords t) (bblk2 V c t))))
        ∗ (∃ d, owns (c : Thread nD τ) (win2_3.stage (cfg2.slots t 3)) fullShare (G d))) := by
  simp only [before2_0, (dat2 V c).before_fetched 1 t (fetch2_1 t), (dat2 V c).before_fetched 2 t (fetch2_2 t)]
  unfold wblk2 bblk2 bodyAt2
  rw [Window.cut_fill, Window.cut_fill]
  simp only [cc2_out_kernel_eq_skeleton]; unfold cc2_out_kernel_skel
  unfold owns
  iintro ⟨HΦ, Ho, ⟨%d0, %f0, %hf0, H0⟩, ⟨%d1, %f1, %hf1, H1⟩, ⟨%d2, %f2, %hf2, H2⟩, ⟨%d3, %f3, -, H3⟩⟩
  obtain ⟨d, hd⟩ := h d1 d2
  iapply wp_frame_l _ _ _; isplitl [HΦ]; · iexact HΦ
  iapply wp_frame_l _ _ _; isplitl [Ho]; · iexact Ho
  sl_exec
  sl_step
  isplitl [H0]
  · iexists f0; isplitr; · ipureintro; exact hf0
    iexact H0
  isplitl [H1]
  · iexists d1; iexists f1; isplitr; · ipureintro; exact hf1
    iexact H1
  isplitl [H2]
  · iexists d2; iexists f2; isplitr; · ipureintro; exact hf2
    iexact H2
  iexists d; iexists _; isplitr
  swap; · iexact H3
  ipureintro
  have hz : (![0, 0] : Fin 2 → Nat) = fun _ => 0 := funext fun a => by fin_cases a <;> rfl
  rw [← hd, ← hf0, ← hf1, ← hf2,
    View.read_writes_eq_canon _ _ _ (fun y => ⟨_, List.mem_singleton_self _, View.mem_set_unit_zero (S := S1x2048) hz inb_S1x2048_S1x2048_0_0 y⟩),
    View.canon_unit_zero (S := S1x2048) hz inb_S1x2048_S1x2048_0_0]
  exact congr (congr (congrArg k2_pay1 (View.ld_unit_zero (S := S1x2048) hz inb_S1x2048_S1x2048_0_0 _))
    (View.ld_unit_zero (S := S2048x2048) hz inb_S2048x2048_S2048x2048_0_0 _))
    (View.ld_unit_zero (S := S1x2048) hz inb_S1x2048_S1x2048_0_0 _)

theorem body_obligation2 [K2Local F] (c : Dev nD) :
    Pipeline.BodyObligationLoose (dat2 (F := F) V c) (defs₀ (F := F)) Variants.none () Set.univ := fun t => by
  rw [bigSep_W2, bigSep_W2]
  exact body2 V c t ((dat2 V c).before 3 t) (fun d => win2_3.fill (grid2.coords t) d (win2_3.cut (grid2.coords t) ((dat2 V c).after 3 t)))
    fun d1 d2 => ⟨_, (Window.fill_congr_cut win2_3 _ (cut_out2 (grid2.coords t) (iblk2 V c 0 t) d1 _ (iblk2 V c 1 t) d2 _ (iblk2 V c 2 t))).symm⟩

/-- The forgotten window: the result's. -/
def fgt2 : Fin cfg2.W → Bool := fun w => decide (w = 3)

theorem body_obligation2F (c : Dev nD) :
    Pipeline.BodyObligationLoose (dat2 (F := F) V c) (defs₀ (F := F)) Variants.none () Set.univ fgt2 := fun t => by
  rw [bigSep_W2, bigSep_W2]
  exact body2 V c t (fun X => X) (fun X => X) fun _ _ => ⟨_, rfl⟩

end Cert.KernelIdeal.Frame

end
-- ==== Proof.KI.Pdats.lean ====
import proofs.«424062_j22247930593355_3_alg».proof.Proof.KI.R0Data
import proofs.«424062_j22247930593355_3_alg».proof.Proof.KI.R1Data
import proofs.«424062_j22247930593355_3_alg».proof.Proof.KI.R2Data

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

def left0 (r : Ref sig .tc) (c : Dev nD) : Buf (Elt F) ((c : Thread nD τ).loc r) :=
  if h : r = main_v4_0 then h ▸ (dat0 (atTc (V2 m)) c).arrAt 9 cfg0.N
  else if h : r = main_v4_1 then h ▸ (dat0 (atTc (V2 m)) c).arrAt 10 cfg0.N
  else V2 m c r

def outsA : Outs (F := F) := fun _ r c => left0 m r c

def left1 (r : Ref sig .tc) (c : Dev nD) : Buf (Elt F) ((c : Thread nD τ).loc r) :=
  if h : r = main_v7 then h ▸ (dat1 (atTc (V4 m (outsA m))) c).arrAt 14 cfg1.N
  else V4 m (outsA m) c r

def outsB : Outs (F := F) := fun J r c => match J with | 3 => left0 m r c | _ => left1 m r c

def left2 (r : Ref sig .tc) (c : Dev nD) : Buf (Elt F) ((c : Thread nD τ).loc r) :=
  if h : r = main_v9 then h ▸ (dat2 (atTc (V6 m (outsB m))) c).arrAt 3 cfg2.N
  else V6 m (outsB m) c r

def outs : Outs (F := F) := fun J r c => match J with | 3 => left0 m r c | 5 => left1 m r c | _ => left2 m r c

def pdats : (p : Fin 3) → (c : Dev nD) → Dat τ (Elt F) Unit ℕ (UR sig nD τ) ℕ (cfgs p) c
  | ⟨0, _⟩ => fun c => dat0 (atTc (V2 m)) c
  | ⟨1, _⟩ => fun c => dat1 (atTc (V4 m (outsA m))) c
  | ⟨2, _⟩ => fun c => dat2 (atTc (V6 m (outsB m))) c

theorem outs_3_v4_0 (c : Dev nD) : outs m 3 main_v4_0 c = (dat0 (atTc (V2 m)) c).arrAt 9 cfg0.N := by
  show left0 m main_v4_0 c = _; unfold left0; rw [dif_pos rfl]
theorem outs_3_v4_1 (c : Dev nD) : outs m 3 main_v4_1 c = (dat0 (atTc (V2 m)) c).arrAt 10 cfg0.N := by
  show left0 m main_v4_1 c = _; unfold left0; rw [dif_neg (by decide), dif_pos rfl]
theorem outs_5_v7 (c : Dev nD) : outs m 5 main_v7 c = (dat1 (atTc (V4 m (outsA m))) c).arrAt 14 cfg1.N := by
  show left1 m main_v7 c = _; unfold left1; rw [dif_pos rfl]
theorem outs_7_v9 (c : Dev nD) : outs m 7 main_v9 c = (dat2 (atTc (V6 m (outsB m))) c).arrAt 3 cfg2.N := by
  show left2 m main_v9 c = _; unfold left2; rw [dif_pos rfl]

end Cert.KernelIdeal.Frame

end
-- ==== Proof.KI.Shares.lean ====
import proofs.«424062_j22247930593355_3_alg».proof.Proof.KI.Base

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem pt_two {ℓ : Loc nD τ sig} (f : Buf (Elt F) ℓ) :
    (ℓ ↦{fullShare} f : sProp 𝕄) ⊣⊢ iprop((ℓ ↦{fullShare.left} f) ∗ ℓ ↦{fullShare.right} f) :=
  pointsTo_share (PosShare.mem_left_op_right fullShare)

theorem pt_three {ℓ : Loc nD τ sig} (f : Buf (Elt F) ℓ) :
    (ℓ ↦{fullShare} f : sProp 𝕄)
      ⊣⊢ iprop((ℓ ↦{fullShare.left} f) ∗ (ℓ ↦{fullShare.right.left} f) ∗ ℓ ↦{fullShare.right.right} f) :=
  ⟨(pt_two f).1.trans (sep_mono .rfl (pointsTo_share (PosShare.mem_left_op_right fullShare.right)).1),
    (sep_mono .rfl (pointsTo_share (PosShare.mem_left_op_right fullShare.right)).2).trans (pt_two f).2⟩

end Cert.KernelIdeal.Frame

end
-- ==== Proof.KI.Seg0.lean ====
import proofs.«424062_j22247930593355_3_alg».proof.Proof.KI.Pdats
import proofs.«424062_j22247930593355_3_alg».proof.Proof.KI.Shares

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Arrays

variable (V : (c : Dev nD) → (b : Ref sig .tc) → Buf (Elt F) ((c : Thread nD τ).loc b)) (c : Dev nD)
    (G : (b : Ref sig .tc) → Buf (Elt F) ((c : Thread nD τ).loc b))
    (Fw : (w : Fin cfg0.W) → Buf (Elt F) ((cfg0.win w).arr.view.loc (c : Thread nD τ)))
    (hF : ∀ w, Fw w = G (Pipeline.arrRef spec0 w))

-- Buffer `r` at share `q`, holding `G r`.
private abbrev bufAt0 (r : Ref sig .tc) (q : PosShare TreeShare) : sProp 𝕄 := ((c : Thread nD τ).loc r) ↦{q} G r

include hF in

theorem arr0_pt (w : Fin cfg0.W) (q : PosShare TreeShare) (hq : (dat0 V c).share w = q) :
    ((cfg0.win w).arr.view.loc (c : Thread nD τ) ↦[(cfg0.win w).arr.view.set]{(dat0 V c).share w} Fw w : sProp 𝕄)
      = (((c : Thread nD τ).loc (Pipeline.arrRef spec0 w)) ↦{q} G (Pipeline.arrRef spec0 w)) := by
  rw [(arr_whole0 w).set_eq_univ, hq, hF w]

include hF in

-- Eleven arrays over nine buffers: two buffers are each read twice, at the two halves of the full share.
theorem arrays0_eq : ((dat0 V c).arrays Fw : sProp 𝕄) = iprop(
    bufAt0 c G main_v0 fullShare ∗ bufAt0 c G main_v1 fullShare
    ∗ bufAt0 c G main_arg4 fullShare.left ∗ bufAt0 c G main_arg4 fullShare.right
    ∗ bufAt0 c G main_v2 fullShare ∗ bufAt0 c G main_arg2 fullShare
    ∗ bufAt0 c G main_arg6 fullShare.left ∗ bufAt0 c G main_arg6 fullShare.right
    ∗ bufAt0 c G main_v3 fullShare ∗ bufAt0 c G main_v4_0 fullShare
    ∗ bufAt0 c G main_v4_1 fullShare) := by
  unfold Dat.arrays
  rw [bigSep_W0]
  repeat first
    | exact arr0_pt V c G Fw hF _ _ rfl
    | refine congrArg₂ BI.sep (arr0_pt V c G Fw hF _ _ rfl) ?_

theorem arrBufs0_eq : (Pipeline.arrBufs (Ix := Unit) (Name := ℕ) (U := UR sig nD τ) (Lvl := ℕ) spec0 c G : sProp 𝕄) = iprop(
    bufAt0 c G main_v0 fullShare ∗ bufAt0 c G main_v1 fullShare
    ∗ bufAt0 c G main_arg4 fullShare
    ∗ bufAt0 c G main_v2 fullShare ∗ bufAt0 c G main_arg2 fullShare
    ∗ bufAt0 c G main_arg6 fullShare
    ∗ bufAt0 c G main_v3 fullShare ∗ bufAt0 c G main_v4_0 fullShare
    ∗ bufAt0 c G main_v4_1 fullShare) := by
  unfold Pipeline.arrBufs
  rw [bigSep_eq_bigSepL_of_eq [main_v0, main_v1, main_arg4, main_v2, main_arg2, main_arg6, main_v3, main_v4_0, main_v4_1] (by decide) (by decide)]
  rfl

include hF in

theorem arrays0_of_bufs :
    (Pipeline.arrBufs (Ix := Unit) (Name := ℕ) (U := UR sig nD τ) (Lvl := ℕ) spec0 c G : sProp 𝕄) ⊢ (dat0 V c).arrays Fw := by
  rw [arrays0_eq V c G Fw hF, arrBufs0_eq c G]
  iintro ⟨H0, H1, H4, H2, Ha2, H6, H3, H40, H41⟩
  ihave H4 := (pt_two _).1 $$ H4
  icases H4 with ⟨H4l, H4r⟩
  ihave H6 := (pt_two _).1 $$ H6
  icases H6 with ⟨H6l, H6r⟩
  iframe

include hF in

theorem bufs0_of_arrays :
    ((dat0 V c).arrays Fw : sProp 𝕄) ⊢ Pipeline.arrBufs (Ix := Unit) (Name := ℕ) (U := UR sig nD τ) (Lvl := ℕ) spec0 c G := by
  rw [arrays0_eq V c G Fw hF, arrBufs0_eq c G]
  iintro ⟨H0, H1, H4l, H4r, H2, Ha2, H6l, H6r, H3, H40, H41⟩
  iframe H0 H1
  isplitl [H4l H4r]
  · iapply (pt_two _).2; iframe
  iframe H2 Ha2
  isplitl [H6l H6r]
  · iapply (pt_two _).2; iframe
  iframe

end Arrays

variable (m : (ℓ : Loc nD τ sig) → Buf (Elt F) ℓ)

theorem in_ne0 : ∀ w : Fin cfg0.W, (cfg0.win w).isOut = false → Pipeline.arrRef spec0 w ∉ ([main_v4_0, main_v4_1] : List (Ref sig .tc)) := by decide
theorem out0 : ∀ w : Fin cfg0.W, (cfg0.win w).isOut = true → w = 9 ∨ w = 10 := by decide

theorem hF0 (c : Dev nD) (w : Fin cfg0.W) :
    (dat0 (atTc (V2 m)) c).arrAt w cfg0.N = atTc (V3 m (outs m)) c (Pipeline.arrRef spec0 w) := by
  by_cases hin : (cfg0.win w).isOut = false
  · exact ((dat0 (atTc (V2 m)) c).arrAt_in w hin _).trans
      ((A_eq0 (atTc (V2 m)) c w).trans (V3_of m (outs m) c _ (in_ne0 w hin)).symm)
  · rcases out0 w (by simpa using hin) with rfl | rfl
    · show _ = Function.update (Function.update (V2 m c) (Proc.devRef .tc main_v4_0) (outs m 3 main_v4_0 c)) (Proc.devRef .tc main_v4_1) (outs m 3 main_v4_1 c)
        (Proc.devRef .tc main_v4_0)
      rw [Function.update_of_ne (StableHlo.devRef_ne_of_ne (by decide)), Function.update_self]
      exact (outs_3_v4_0 m c).symm
    · show _ = Function.update (Function.update (V2 m c) (Proc.devRef .tc main_v4_0) (outs m 3 main_v4_0 c)) (Proc.devRef .tc main_v4_1) (outs m 3 main_v4_1 c)
        (Proc.devRef .tc main_v4_1)
      rw [Function.update_self]
      exact (outs_3_v4_1 m c).symm

theorem hrest0 (c : Dev nD) (b : Ref sig .tc) (hb : b ∉ Finset.univ.image (Pipeline.arrRef spec0)) :
    atTc (V3 m (outs m)) c b = atTc (V2 m) c b :=
  V3_of m (outs m) c b fun h => hb (by rcases List.mem_pair.mp h with rfl | rfl <;> decide)

set_option backward.isDefEq.respectTransparency.types false in
def reg0 (m : (ℓ : Loc nD τ sig) → Buf (Elt F) ℓ) : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (atTc (V2 m)) c).loose
  hwaits := Pipeline.hwaits_of_owed_zero _ _ _ _ L lv 0 fun c t => owed0 (atTc (V2 m)) c t
  pre c := iprop(StableHlo.held (c : Thread nD τ) (Pipeline.ucRefs τ sig) (V2 m c) ∗ Rr c)
  post c := iprop(StableHlo.held (c : Thread nD τ) (Pipeline.ucRefs τ sig) (V3 m (outs m) c) ∗ Rr c)
  X c := iprop(∃ r, prngReg c r)
  Y c := iprop(∃ r, prngReg c r)
  Z c := Pipeline.unscopedRest (Ix := Unit) (Name := ℕ) (U := UR sig nD τ) (Lvl := ℕ) spec0 c (atTc (V2 m) c)
  hentry c := by
    rw [Pipeline.ownSems0_none]
    have hsplit : (StableHlo.held (c : Thread nD τ) (Pipeline.ucRefs τ sig) (V2 m c) : sProp 𝕄)
        ⊢ iprop((pdats m 0 c).arrays ((pdats m 0 c).arrAt · 0)
          ∗ Pipeline.unscopedRest (Ix := Unit) (Name := ℕ) (U := UR sig nD τ) (Lvl := ℕ) spec0 c (atTc (V2 m) c)) := by
      rw [← Pipeline.unscopedBufs_held, Pipeline.unscopedBufs_split₀ cfgs 0 winFacts₀0.arr_unscoped c]
      exact sep_mono (arrays0_of_bufs (atTc (V2 m)) c _ _ fun w => A_eq0 (atTc (V2 m)) c w) .rfl
    iintro ⟨⟨Hub, Hp, HO⟩, -, -⟩
    ihave H := hsplit $$ Hub
    icases H with ⟨Ha, Hrest⟩
    imodintro
    iframe Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    iframe
  hin c := by
    refine BIBase.Entails.trans ?_ (show (iprop((∃ r, prngReg c r) ∗ Pipeline.scopedRest spec0 c) : sProp 𝕄) ⊢ (pdats m 0 c).Φ 0
      from hin0 (atTc (V2 m)) c)
    iintro ⟨Hp, -, Hr⟩
    iframe
  hout c := by
    rw [Pipeline.ownSems0_none]
    refine BIBase.Entails.trans (show (pdats m 0 c).Φ (Fin.last _) ⊢ (iprop((∃ r, prngReg c r) ∗ Pipeline.scopedRest spec0 c) : sProp 𝕄)
      from hout0 (atTc (V2 m)) c) ?_
    iintro ⟨Hp, Hr⟩
    iframe Hp
    isplitr; · iempintro
    iexact Hr
  hexit c := by
    have hjoin : (iprop((pdats m 0 c).arrays ((pdats m 0 c).arrAt · cfg0.N)
          ∗ Pipeline.unscopedRest (Ix := Unit) (Name := ℕ) (U := UR sig nD τ) (Lvl := ℕ) spec0 c (atTc (V2 m) c)) : sProp 𝕄)
        ⊢ StableHlo.held (c : Thread nD τ) (Pipeline.ucRefs τ sig) (V3 m (outs m) c) := by
      rw [← Pipeline.unscopedBufs_held, Pipeline.unscopedBufs_split₀ cfgs 0 winFacts₀0.arr_unscoped c]
      refine sep_mono (bufs0_of_arrays (atTc (V2 m)) c _ _ (hF0 m c)) (Entails.of_eq ?_)
      unfold Pipeline.unscopedRest
      exact bigSep_congr fun b hb => congrArg (fun f => (((c : Thread nD τ).loc b) ↦{fullShare} f : sProp 𝕄))
        (hrest0 m c b (Finset.mem_sdiff.mp hb).2).symm
    iintro ⟨Ha, HO, HY, Hrest⟩
    imodintro
    isplitl [Ha Hrest]
    · iapply hjoin; iframe
    isplitl [HY]; · iexact HY
    unfold Pipeline.Dat.owesAt Pipeline.owesWithin
    icases HO with ⟨%W, -, HO⟩; iexists W; iexact HO

theorem hpre0 (m : (ℓ : Loc nD τ sig) → Buf (Elt F) ℓ) (c : Dev nD) :
    (iprop(StableHlo.held (c : Thread nD τ) (Pipeline.ucRefs τ sig) (V2 m c) ∗ Rr c) : sProp 𝕄) ⊢ (reg0 m).pre c := .rfl

theorem hpost0 (m : (ℓ : Loc nD τ sig) → Buf (Elt F) ℓ) (c : Dev nD) :
    (reg0 m).post c ⊢ (iprop(StableHlo.held (c : Thread nD τ) (Pipeline.ucRefs τ sig) (V3 m (outs m) c) ∗ Rr c) : sProp 𝕄) := .rfl

end Cert.KernelIdeal.Frame

end
-- ==== Proof.KI.Seg1.lean ====
import proofs.«424062_j22247930593355_3_alg».proof.Proof.KI.Pdats
import proofs.«424062_j22247930593355_3_alg».proof.Proof.KI.Shares

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Arrays

variable (m : (ℓ : Loc nD τ sig) → Buf (Elt F) ℓ)

abbrev arrs1 : List (Ref sig .tc) := [main_v4_0, main_v1, main_arg8, main_arg9, main_v5, main_v6, main_v7]

/-- Window w's buffer at share q, holding G w. -/
private abbrev pt1 (c : Dev nD) (G : (w : Fin cfg1.W) → Buf (Elt F) ((cfg1.win w).arr.view.loc (c.tc : Thread nD τ))) (w : Fin cfg1.W)
    (q : PosShare TreeShare) : sProp 𝕄 :=
  ((c : Thread nD τ).loc (Pipeline.arrRef spec1 w)) ↦{q} G w

/-- Each window's array is a whole buffer, and its share evaluates to the one written here. -/
theorem arrays1_chain (c : Dev nD) (G : (w : Fin cfg1.W) → Buf (Elt F) ((cfg1.win w).arr.view.loc (c.tc : Thread nD τ))) :
    (pdats m 1 c).arrays G
      = (iprop(pt1 c G 0 fullShare
        ∗ pt1 c G 1 fullShare
        ∗ pt1 c G 2 fullShare.left
        ∗ pt1 c G 3 fullShare.right.left
        ∗ pt1 c G 4 fullShare.right.right
        ∗ pt1 c G 5 fullShare.left
        ∗ pt1 c G 6 fullShare.right.left
        ∗ pt1 c G 7 fullShare.right.right
        ∗ pt1 c G 8 fullShare.left
        ∗ pt1 c G 9 fullShare.right.left
        ∗ pt1 c G 10 fullShare.right.right
        ∗ pt1 c G 11 fullShare.left
        ∗ pt1 c G 12 fullShare.right.left
        ∗ pt1 c G 13 fullShare.right.right
        ∗ pt1 c G 14 fullShare) : sProp 𝕄) := by
  unfold Dat.arrays
  exact (bigSep_congr (Ψ := fun w => pt1 c G w ((pdats m 1 c).share w))
    fun w _ => by
      show ((((cfg1.win w).arr.view.loc (c.tc : Thread nD τ)) ↦[(cfg1.win w).arr.view.set]{(pdats m 1 c).share w} G w : sProp 𝕄)) = _
      rw [(arr_whole1 w).set_eq_univ]).trans (bigSep_W1 _)

theorem arrBufs1_chain (c : Dev nD) (W : (b : Ref sig .tc) → Buf (Elt F) ((c : Thread nD τ).loc b)) :
    (Pipeline.arrBufs spec1 c W : sProp 𝕄)
      = (iprop((((c : Thread nD τ).loc main_v4_0) ↦{fullShare} W main_v4_0)
        ∗ (((c : Thread nD τ).loc main_v1) ↦{fullShare} W main_v1)
        ∗ (((c : Thread nD τ).loc main_arg8) ↦{fullShare} W main_arg8)
        ∗ (((c : Thread nD τ).loc main_arg9) ↦{fullShare} W main_arg9)
        ∗ (((c : Thread nD τ).loc main_v5) ↦{fullShare} W main_v5)
        ∗ (((c : Thread nD τ).loc main_v6) ↦{fullShare} W main_v6)
        ∗ (((c : Thread nD τ).loc main_v7) ↦{fullShare} W main_v7)) : sProp 𝕄) := by
  unfold Pipeline.arrBufs; rw [bigSep_eq_bigSepL_of_eq arrs1 (by decide) (by decide)]; rfl

theorem arrAt1_zero (c : Dev nD) (w : Fin cfg1.W) : (pdats m 1 c).arrAt w 0 = V4 m (outs m) c (Pipeline.arrRef spec1 w) :=
  A_eq1 (atTc (V4 m (outsA m))) c w

theorem exitV1_of_ne (c : Dev nD) (r : Ref sig .tc) (h : r ∉ ([main_v7] : List (Ref sig .tc))) :
    V5 m (outs m) c r = V4 m (outs m) c r := V5_of m (outs m) c r h

theorem exitV1_out (c : Dev nD) : V5 m (outs m) c main_v7 = (pdats m 1 c).arrAt 14 cfg1.N := by
  show Function.update (V4 m (outs m) c) main_v7 (outs m 5 main_v7 c) main_v7 = _
  rw [Function.update_self]
  show left1 m main_v7 c = _
  unfold left1
  rw [dif_pos rfl] <;> rfl

theorem in_ne1 : ∀ w : Fin cfg1.W, (cfg1.win w).isOut = false → Pipeline.arrRef spec1 w ∉ ([main_v7] : List (Ref sig .tc)) := by decide
theorem out1 : ∀ w : Fin cfg1.W, (cfg1.win w).isOut = true → w = 14 := by decide

theorem arrAt1_last (c : Dev nD) (w : Fin cfg1.W) : (pdats m 1 c).arrAt w cfg1.N = V5 m (outs m) c (Pipeline.arrRef spec1 w) := by
  by_cases hin : (cfg1.win w).isOut = false
  · exact (((pdats m 1 c).arrAt_in w hin _).trans (A_eq1 (atTc (V4 m (outsA m))) c w)).trans (exitV1_of_ne m c _ (in_ne1 w hin)).symm
  · obtain rfl := out1 w (by simpa using hin)
    exact (exitV1_out m c).symm

theorem arrays1_of_bufs (c : Dev nD) :
    (Pipeline.arrBufs spec1 c (atTc (V4 m (outs m)) c) : sProp 𝕄)
      ⊢ (pdats m 1 c).arrays ((pdats m 1 c).arrAt · 0) := by
  rw [show ((pdats m 1 c).arrAt · 0) = (fun w => V4 m (outs m) c (Pipeline.arrRef spec1 w)) from funext (arrAt1_zero m c),
    arrays1_chain, arrBufs1_chain]
  iintro ⟨Hx, Hh, Hwi, Hwh, Hbi, Hbh, Ho⟩
  ihave Twi := (pt_three _).1 $$ Hwi; icases Twi with ⟨H2, H3, H4⟩
  ihave Twh := (pt_three _).1 $$ Hwh; icases Twh with ⟨H5, H6, H7⟩
  ihave Tbi := (pt_three _).1 $$ Hbi; icases Tbi with ⟨H8, H9, H10⟩
  ihave Tbh := (pt_three _).1 $$ Hbh; icases Tbh with ⟨H11, H12, H13⟩
  iframe

theorem bufs_of_arrays1 (c : Dev nD) :
    (pdats m 1 c).arrays ((pdats m 1 c).arrAt · cfg1.N)
      ⊢ (Pipeline.arrBufs spec1 c (atTc (V5 m (outs m)) c) : sProp 𝕄) := by
  rw [show ((pdats m 1 c).arrAt · cfg1.N) = (fun w => V5 m (outs m) c (Pipeline.arrRef spec1 w)) from funext (arrAt1_last m c),
    arrays1_chain, arrBufs1_chain]
  iintro ⟨Hx, Hh, H2, H3, H4, H5, H6, H7, H8, H9, H10, H11, H12, H13, Ho⟩
  iframe Hx Hh
  isplitl [H2 H3 H4]
  · iapply (pt_three _).2; iframe
  isplitl [H5 H6 H7]
  · iapply (pt_three _).2; iframe
  isplitl [H8 H9 H10]
  · iapply (pt_three _).2; iframe
  isplitl [H11 H12 H13]
  · iapply (pt_three _).2; iframe
  iexact Ho

theorem rest1_exit (c : Dev nD) :
    (Pipeline.unscopedRest spec1 c (atTc (V4 m (outs m)) c) : sProp 𝕄)
      = Pipeline.unscopedRest spec1 c (atTc (V5 m (outs m)) c) := by
  unfold Pipeline.unscopedRest
  refine bigSep_congr fun b hb => ?_
  have hne : b ≠ main_v7 := fun e => (Finset.mem_sdiff.mp hb).2
    (Finset.mem_image.mpr ⟨14, Finset.mem_univ _, (show Pipeline.arrRef spec1 14 = main_v7 from rfl).trans e.symm⟩)
  exact congrArg (fun f => ((((c : Thread nD τ).loc b) ↦{fullShare} f : sProp 𝕄))) (exitV1_of_ne m c b fun h => hne (List.mem_singleton.mp h)).symm

theorem held1_split (c : Dev nD) (W : Valuation τ sig (Elt F)) :
    (StableHlo.held (c : Thread nD τ) (Pipeline.ucRefs τ sig) W : sProp 𝕄)
      = iprop((Pipeline.arrBufs spec1 c (fun b => W b) : sProp 𝕄)
          ∗ Pipeline.unscopedRest spec1 c (fun b => W b)) := by
  rw [← Pipeline.unscopedBufs_held c W]
  exact Pipeline.unscopedBufs_split₀ cfgs 1 winFacts₀1.arr_unscoped c _

end Arrays

set_option backward.isDefEq.respectTransparency.types false in
def reg1 (m : (ℓ : Loc nD τ sig) → Buf (Elt F) ℓ) : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (atTc (V4 m (outsA m))) c).loose
  hwaits := Pipeline.hwaits_of_owed_zero _ _ _ _ L lv 1 fun c t => owed1 (atTc (V4 m (outsA m))) c t
  pre c := iprop(StableHlo.held (c : Thread nD τ) (Pipeline.ucRefs τ sig) (V4 m (outs m) c) ∗ Rr c)
  post c := iprop(StableHlo.held (c : Thread nD τ) (Pipeline.ucRefs τ sig) (V5 m (outs m) c) ∗ Rr c)
  X c := iprop(∃ r, prngReg c r)
  Y c := iprop(∃ r, prngReg c r)
  Z c := Pipeline.unscopedRest (Ix := Unit) (Name := ℕ) (U := UR sig nD τ) (Lvl := ℕ) spec1 c (atTc (V4 m (outs m)) c)
  hentry c := by
    rw [Pipeline.ownSems0_none]
    have hs := (Entails.of_eq (held1_split c (V4 m (outs m) c))).trans (BIClass.sep_mono (arrays1_of_bufs m c) .rfl)
    iintro ⟨⟨Hh, Hp, HO⟩, -, -⟩
    ihave H := hs $$ Hh
    icases H with ⟨Ha, Hrest⟩
    imodintro
    iframe Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    iframe
  hin c := Entails.trans (by
      iintro ⟨Hp, -, Hr⟩
      iframe) (hin1 (atTc (V4 m (outsA m))) c)
  hout c := (hout1 (atTc (V4 m (outsA m))) c).trans (by
      rw [Pipeline.ownSems0_none]
      iintro ⟨Hp, Hr⟩
      iframe Hp
      isplitr; · iempintro
      iexact Hr)
  hexit c := by
    have hjoin := (BIClass.sep_mono (bufs_of_arrays1 m c) (Entails.of_eq (rest1_exit m c))).trans (Entails.of_eq (held1_split c (V5 m (outs m) c)).symm)
    iintro ⟨Ha, HO, HY, Hrest⟩
    imodintro
    isplitl [Ha Hrest]
    · iapply hjoin; iframe
    isplitl [HY]; · iexact HY
    unfold Pipeline.Dat.owesAt Pipeline.owesWithin
    icases HO with ⟨%W, -, HO⟩; iexists W; iexact HO

theorem hpre1 (m : (ℓ : Loc nD τ sig) → Buf (Elt F) ℓ) (c : Dev nD) :
    (iprop(StableHlo.held (c : Thread nD τ) (Pipeline.ucRefs τ sig) (V4 m (outs m) c) ∗ Rr c) : sProp 𝕄) ⊢ (reg1 m).pre c := .rfl

theorem hpost1 (m : (ℓ : Loc nD τ sig) → Buf (Elt F) ℓ) (c : Dev nD) :
    (reg1 m).post c ⊢ (iprop(StableHlo.held (c : Thread nD τ) (Pipeline.ucRefs τ sig) (V5 m (outs m) c) ∗ Rr c) : sProp 𝕄) := .rfl

end Cert.KernelIdeal.Frame

end
-- ==== Proof.KI.Seg2.lean ====
import proofs.«424062_j22247930593355_3_alg».proof.Proof.KI.Pdats

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable [K2Local F]
variable (m : (ℓ : Loc nD τ sig) → Buf (Elt F) ℓ)

/-- At the exit the inputs' arrays hold what they held at entry, the result's array what the exit contents name. -/
theorem hF2 (c : Dev nD) : ∀ w : Fin cfg2.W,
    (pdats m 2 c).arrAt w cfg2.N = atTc (V7 m (outs m)) c (Pipeline.arrRef spec2 w)
  | ⟨3, _⟩ => by
    show _ = Function.update (V6 m (outs m) c) main_v9 (outs m 7 main_v9 c) main_v9
    rw [Function.update_self, outs_7_v9]; rfl
  | ⟨0, _⟩ => ((dat2 (atTc (V6 m (outsB m))) c).arrAt_in 0 rfl _).trans
      ((A_eq2 (atTc (V6 m (outsB m))) c 0).trans (V7_of m (outs m) c main_v7 (by decide)).symm)
  | ⟨1, _⟩ => ((dat2 (atTc (V6 m (outsB m))) c).arrAt_in 1 rfl _).trans
      ((A_eq2 (atTc (V6 m (outsB m))) c 1).trans (V7_of m (outs m) c main_arg12 (by decide)).symm)
  | ⟨2, _⟩ => ((dat2 (atTc (V6 m (outsB m))) c).arrAt_in 2 rfl _).trans
      ((A_eq2 (atTc (V6 m (outsB m))) c 2).trans (V7_of m (outs m) c main_v8 (by decide)).symm)

theorem hrest2 (c : Dev nD) : ∀ b, b ∉ Finset.univ.image (Pipeline.arrRef spec2) →
    atTc (V7 m (outs m)) c b = atTc (V6 m (outs m)) c b :=
  fun b hb => V7_of m (outs m) c b fun h => hb (List.mem_singleton.mp h ▸ by decide)

set_option backward.isDefEq.respectTransparency.types false in
/-- The region's arrays are split out of the unscoped buffers at entry and put back at exit. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := body_obligation2 _ c
  hwaits := Pipeline.hwaits_of_owed_zero _ _ _ _ L lv 2 fun _ _ => rfl
  pre c := iprop(StableHlo.held (c : Thread nD τ) (Pipeline.ucRefs τ sig) (V6 m (outs m) c) ∗ Rr c)
  post c := iprop(StableHlo.held (c : Thread nD τ) (Pipeline.ucRefs τ sig) (V7 m (outs m) c) ∗ Rr c)
  X c := iprop(∃ r, prngReg c r)
  Y c := iprop(∃ r, prngReg c r)
  Z c := Pipeline.unscopedRest (Ix := Unit) (Name := ℕ) (U := UR sig nD τ) (Lvl := ℕ) spec2 c (atTc (V6 m (outs m)) c)
  hentry c := by
    rw [Pipeline.ownSems0_none]
    have hsplit := Pipeline.arrays_of_unscopedBufs (p := 2) (pcfgs (F := F)) adm (pdats m) launch2.win launch2.arr_whole c
      ((pdats m 2 c).share_full fun _ => rfl) (atTc (V6 m (outs m)) c) fun _ => rfl
    rw [Pipeline.unscopedBufs_held] at hsplit
    iintro ⟨⟨Hub, Hp, %W, HO⟩, -, -⟩
    ihave ⟨Ha, Hrest⟩ := hsplit $$ Hub
    imodintro
    iframe Ha Hp Hrest
    isplitr; · unfold Pipeline.prefHeld; rw [show (Finset.univ : Finset (Fin 0)) = ∅ from rfl, BI.bigSep_empty]; iempintro
    unfold Pipeline.Dat.owesAt Pipeline.owesWithin
    iexists W; isplitr; · ipureintro; exact fun _ _ => Or.inl trivial
    iexact HO
  hin c := by
    refine .trans ?_ (hin2 _ c)
    iintro ⟨Hp, -, Hr⟩; iframe Hp Hr
  hout c := by
    rw [Pipeline.ownSems0_none]
    refine (hout2 _ c).trans ?_
    iintro ⟨Hp, Hr⟩; iframe Hp Hr; iempintro
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (atTc (V6 m (outs m)) c) (atTc (V7 m (outs m)) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; iframe Ha Hrest
    isplitl [HY]; · iexact HY
    unfold Pipeline.Dat.owesAt Pipeline.owesWithin
    icases HO with ⟨%W, -, HO⟩; iexists W; iexact HO

theorem hpre2 (c : Dev nD) :
    (iprop(StableHlo.held (c : Thread nD τ) (Pipeline.ucRefs τ sig) (V6 m (outs m) c) ∗ Rr c) : sProp 𝕄) ⊢ (reg2 m).pre c := .rfl

theorem hpost2 (c : Dev nD) :
    (reg2 m).post c ⊢ (iprop(StableHlo.held (c : Thread nD τ) (Pipeline.ucRefs τ sig) (V7 m (outs m) c) ∗ Rr c) : sProp 𝕄) := .rfl

end Cert.KernelIdeal.Frame

end
-- ==== Proof.KI.Run.lean ====
import proofs.«424062_j22247930593355_3_alg».proof.Proof.KI.Seg0
import proofs.«424062_j22247930593355_3_alg».proof.Proof.KI.Seg1
import proofs.«424062_j22247930593355_3_alg».proof.Proof.KI.Seg2
import proofs.«424062_j22247930593355_3_alg».proof.Proof.KI.RunCond

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable [K2Local F] (m : (ℓ : Loc nD τ sig) → Buf (Elt F) ℓ) (ρ : Dev nD → PrngReg)

abbrev launched (c : Dev nD) : sProp 𝕄 :=
  iprop(unscopedSems0 c ∗ owes (c : Thread nD τ) ((0 : Dev nD → CellTallies nD τ sig Unit) c) ∅
    ∗ Pipeline.launchCred (0 : Dev nD → CellTallies nD τ sig Unit) c ∗ prngReg c (ρ c) ∗ (emp : sProp 𝕄))

theorem ride_one (c : Dev nD) : launched (F := F) ρ c ⊢ Rr (F := F) c := by
  iintro ⟨-, HO, -, Hp, -⟩
  isplitl [Hp]; · iexists _; iexact Hp
  iexists ∅; iexact HO

theorem ride_init :
    (iprop((bigSep Finset.univ fun c : Dev nD => launched (F := F) ρ c) ∗ levAts L lv) : sProp 𝕄)
      ⊢ (|={Set.univ}=> bigSep Finset.univ (fun c : Dev nD => Rr (F := F) c) : sProp 𝕄) := by
  have h1 : (bigSep Finset.univ fun c : Dev nD => launched (F := F) ρ c) ⊢ (bigSep Finset.univ fun c : Dev nD => Rr (F := F) c) :=
    bigSep_mono fun c _ => ride_one ρ c
  iintro ⟨H, -⟩
  imodintro
  iapply h1
  iexact H

abbrev kept (c : Dev nD) (s : MemSt nD τ sig (Elt F)) : Prop :=
  s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)
  ∧ s.mem ((c.tc : Thread nD τ).loc main_arg5) = m ((c.tc : Thread nD τ).loc main_arg5)
  ∧ s.mem ((c.tc : Thread nD τ).loc main_arg6) = m ((c.tc : Thread nD τ).loc main_arg6)
  ∧ s.mem ((c.tc : Thread nD τ).loc main_arg7) = m ((c.tc : Thread nD τ).loc main_arg7)
  ∧ s.mem ((c.tc : Thread nD τ).loc main_arg8) = m ((c.tc : Thread nD τ).loc main_arg8)
  ∧ s.mem ((c.tc : Thread nD τ).loc main_arg9) = m ((c.tc : Thread nD τ).loc main_arg9)
  ∧ s.mem ((c.tc : Thread nD τ).loc main_arg10) = m ((c.tc : Thread nD τ).loc main_arg10)
  ∧ s.mem ((c.tc : Thread nD τ).loc main_arg11) = m ((c.tc : Thread nD τ).loc main_arg11)
  ∧ s.mem ((c.tc : Thread nD τ).loc main_arg12) = m ((c.tc : Thread nD τ).loc main_arg12)
  ∧ s.mem ((c.tc : Thread nD τ).loc main_arg13) = m ((c.tc : Thread nD τ).loc main_arg13)

theorem run_values : θ_run defs (onTc (τ := τ) (main (F := F))) ⟨m, fun _ => 0, ρ⟩ (fun r => ∀ c : Dev nD,
      r.2.mem ((c.tc : Thread nD τ).loc main_v9) = V8 m (outs m) c main_v9
      ∧ r.2.mem ((c.tc : Thread nD τ).loc main_v10) = V8 m (outs m) c main_v10
      ∧ r.2.mem ((c.tc : Thread nD τ).loc main_v4_1) = V8 m (outs m) c main_v4_1
      ∧ kept m c r.2) :=
  Gen.run_cond m (Ix := Unit) (U := UR sig nD τ) (Lvl := ℕ) emb₁ () 𝒱₀ L lv (fun _ _ => rfl) ρ (outs m) (pdats m)
    (0 : Dev nD → CellTallies nD τ sig Unit) (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => Rr c) (ride_init ρ)
    (fun c => by iintro ⟨-, HO⟩; iexact HO)
    (reg0 m) (hpre0 m) (hpost0 m) (reg1 m) (hpre1 m) (hpost1 m) (reg2 m) (hpre2 m) (hpost2 m)

end Cert.KernelIdeal.Frame

end
-- ==== Proof.Spec.lean ====
import Idealize.ShloMosaic.PureOps.Ideal
import Mathlib.Algebra.BigOperators.Fin

noncomputable section

namespace Cert.Spec

open Idealize.ShloMosaic

def lo (k : Fin 2048) : Fin 4096 := ⟨k.val, by have := k.isLt; omega⟩
def hi (k : Fin 2048) : Fin 4096 := ⟨2048 + k.val, by have := k.isLt; omega⟩
def gate (g : Fin 3) (j : Fin 2048) : Fin 6144 := ⟨g.val * 2048 + j.val, by have := g.isLt; have := j.isLt; omega⟩

abbrev negInfW : EReal := Ideal.ofBits .f32 0xFF800000#32
abbrev zeroW : EReal := Ideal.ofBits .f32 0x00000000#32
abbrev oneW : EReal := Ideal.ofBits .f32 0x3F800000#32

def affine {n o : Nat} (x : Fin n → EReal) (W : Fin o → Fin n → EReal) (b : Fin o → EReal) (j : Fin o) : EReal :=
  (∑ k, x k * W j k) + b j

def cell (x h : Fin 2048 → EReal) (Wi Wh : Fin 6144 → Fin 2048 → EReal) (bi bh : Fin 6144 → EReal) (j : Fin 2048) : EReal :=
  (oneW - Ideal.logistic (affine x Wi bi (gate 1 j) + affine h Wh bh (gate 1 j)))
      * Ideal.tanh (affine x Wi bi (gate 2 j)
          + Ideal.logistic (affine x Wi bi (gate 0 j) + affine h Wh bh (gate 0 j)) * affine h Wh bh (gate 2 j))
    + Ideal.logistic (affine x Wi bi (gate 1 j) + affine h Wh bh (gate 1 j)) * h j

section

variable (e h : Fin 2048 → EReal) (enc : Fin 20 → Fin 2048 → EReal)
  (Wa : Fin 20 → Fin 4096 → EReal) (ba : Fin 20 → EReal)
  (Wc : Fin 2048 → Fin 4096 → EReal) (bc : Fin 2048 → EReal)
  (Wi Wh : Fin 6144 → Fin 2048 → EReal) (bi bh : Fin 6144 → EReal)
  (Wo : Fin 50257 → Fin 2048 → EReal) (bo : Fin 50257 → EReal)

def score (l : Fin 20) : EReal := ((∑ k, e k * Wa l (lo k)) + ∑ k, h k * Wa l (hi k)) + ba l
def scoreMax : EReal := max negInfW ((Finset.univ : Finset (Fin 20)).fold max negInfW (score e h Wa ba))
def scoreExp (l : Fin 20) : EReal := Ideal.exp (score e h Wa ba l - scoreMax e h Wa ba)
def weight (l : Fin 20) : EReal := Ideal.div (scoreExp e h Wa ba l) (∑ l', scoreExp e h Wa ba l')
def context (k : Fin 2048) : EReal := ∑ l, weight e h Wa ba l * enc l k
def combined (j : Fin 2048) : EReal :=
  max (((∑ k, e k * Wc j (lo k)) + ∑ k, context e h enc Wa ba k * Wc j (hi k)) + bc j) zeroW
def gateIn (r : Fin 6144) : EReal := (∑ k, combined e h enc Wa ba Wc bc k * Wi r k) + bi r
def gateHid (r : Fin 6144) : EReal := (∑ k, h k * Wh r k) + bh r
def resetG (j : Fin 2048) : EReal :=
  Ideal.logistic (gateIn e h enc Wa ba Wc bc Wi bi (gate 0 j) + gateHid h Wh bh (gate 0 j))
def updateG (j : Fin 2048) : EReal :=
  Ideal.logistic (gateIn e h enc Wa ba Wc bc Wi bi (gate 1 j) + gateHid h Wh bh (gate 1 j))
def candidate (j : Fin 2048) : EReal :=
  Ideal.tanh (gateIn e h enc Wa ba Wc bc Wi bi (gate 2 j) + resetG e h enc Wa ba Wc bc Wi Wh bi bh j * gateHid h Wh bh (gate 2 j))
def hiddenNew (j : Fin 2048) : EReal :=
  (oneW - updateG e h enc Wa ba Wc bc Wi Wh bi bh j) * candidate e h enc Wa ba Wc bc Wi Wh bi bh j
    + updateG e h enc Wa ba Wc bc Wi Wh bi bh j * h j
def logit (v : Fin 50257) : EReal := (∑ k, hiddenNew e h enc Wa ba Wc bc Wi Wh bi bh k * Wo v k) + bo v

-- The new hidden row is the cell of the combined row and the previous hidden row.
theorem hiddenNew_eq_cell (j : Fin 2048) :
    hiddenNew e h enc Wa ba Wc bc Wi Wh bi bh j = cell (combined e h enc Wa ba Wc bc) h Wi Wh bi bh j := rfl

theorem logit_eq_affine (v : Fin 50257) :
    logit e h enc Wa ba Wc bc Wi Wh bi bh Wo bo v = affine (hiddenNew e h enc Wa ba Wc bc Wi Wh bi bh) Wo bo v := rfl

end

-- A sum over 4096 coordinates splits into its first and last 2048.
theorem sum_halves (f : Fin 4096 → EReal) : ∑ k : Fin 4096, f k = (∑ k : Fin 2048, f (lo k)) + ∑ k : Fin 2048, f (hi k) :=
  (Fin.sum_univ_add (M := EReal) (a := 2048) (b := 2048) f).trans
    (congrArg₂ (· + ·) (Finset.sum_congr rfl fun k _ => congrArg f (Fin.ext rfl))
      (Finset.sum_congr rfl fun k _ => congrArg f (Fin.ext rfl)))

end Cert.Spec

end
-- ==== Proof.KI.Pay0.lean ====
import proofs.«424062_j22247930593355_3_alg».proof.Proof.Gen.KernelIdeal.Skeleton
import proofs.«424062_j22247930593355_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Frame

open Idealize.ShloMosaic Idealize.ShloMosaic.ValueIdx
open Cert.KernelIdeal Cert.KernelIdeal.Gen

/-- A row times a matrix along the row's axis 1 and the matrix's axis 0, from the zero row: the plain sum over the shared coordinate. -/
theorem rowMat_apply {m n : Nat} {φ₁ φ₂ : FTy} (d : DotDims ⟨2, ![1, m]⟩ ⟨2, ![m, n]⟩ ⟨2, ![1, n]⟩)
    (hl : d.lhsContracting = [1]) (hr : d.rhsContracting = [0]) (hb : (1 : Fin 2) ∉ d.rhsBatch)
    (hn : (1 : Fin 2) ∈ d.rhsNonContracting) (hp : d.lhsBatch.length + d.lhsNonContracting.length + d.rhsNonContracting.idxOf 1 = 1)
    (h1 : d.contr.rank = 1) (hs : d.contr.size ⟨0, by omega⟩ = m)
    (x : FVec Ideal ⟨2, ![1, m]⟩ φ₁) (w : FVec Ideal ⟨2, ![m, n]⟩ φ₂) (u : Fin 1) (r : Fin n) :
    FloatOps.matmul d none x w (constant (F := Ideal) ⟨2, ![1, n]⟩ .f32 0x00000000#32) (ix2 u r)
      = ∑ k : Fin m, x (ix2 u k) * w (ix2 k r) := by
  rw [Ideal.matmul_constant_zero_apply, ← Equiv.sum_comp (contrEquiv1 d m h1 hs).symm]
  refine Finset.sum_congr rfl fun k _ => ?_
  have hk := contrEquiv1_symm_val d m h1 hs k
  have key : ∀ (j : (⟨2, ![1, n]⟩ : Shape).Idx) (p q : Nat) (hp : p < 2) (hq : q < 2), p = q → (j ⟨p, hp⟩).val = (j ⟨q, hq⟩).val :=
    fun j p q _ _ h => by subst h; rfl
  have el : d.lhsIdx (ix2 u r) ((contrEquiv1 d m h1 hs).symm k) = ix2 u k := funext fun a => Fin.ext (by
    match a with
    | ⟨0, _⟩ => exact (Nat.lt_one_iff.mp (d.lhsIdx _ _ ⟨0, _⟩).isLt).trans (Nat.lt_one_iff.mp u.isLt).symm
    | ⟨1, _⟩ => exact (d.lhsIdx_val_of_single hl _ _).trans hk)
  have e1 : (d.rhsIdx (ix2 u r) ((contrEquiv1 d m h1 hs).symm k) (1 : Fin 2)).val = r.val := by
    unfold DotDims.rhsIdx
    rw [dif_neg hb, dif_pos hn]
    exact key (ix2 u r) _ 1 _ (by decide) hp
  have er : d.rhsIdx (ix2 u r) ((contrEquiv1 d m h1 hs).symm k) = ix2 k r := funext fun a => Fin.ext (by
    match a with
    | ⟨0, _⟩ => exact (d.rhsIdx_val_of_single hr _ _).trans hk
    | ⟨1, _⟩ => exact e1)
  rw [el, er]

/-- Against a transposed block, entry r reads the block's row r. -/
theorem rowMatT_apply {m n : Nat} {φ₁ φ₂ : FTy} (d : DotDims ⟨2, ![1, m]⟩ ⟨2, ![m, n]⟩ ⟨2, ![1, n]⟩)
    (hl : d.lhsContracting = [1]) (hr : d.rhsContracting = [0]) (hb : (1 : Fin 2) ∉ d.rhsBatch)
    (hn : (1 : Fin 2) ∈ d.rhsNonContracting) (hp : d.lhsBatch.length + d.lhsNonContracting.length + d.rhsNonContracting.idxOf 1 = 1)
    (h1 : d.contr.rank = 1) (hs : d.contr.size ⟨0, by omega⟩ = m)
    (x : FVec Ideal ⟨2, ![1, m]⟩ φ₁) (w : FVec Ideal ⟨2, ![n, m]⟩ φ₂) (h : (⟨2, ![n, m]⟩ : Shape).Transposes [1, 0] ⟨2, ![m, n]⟩)
    (u : Fin 1) (r : Fin n) :
    FloatOps.matmul d none x (transpose ⟨2, ![m, n]⟩ [1, 0] w h) (constant (F := Ideal) ⟨2, ![1, n]⟩ .f32 0x00000000#32) (ix2 u r)
      = ∑ k : Fin m, x (ix2 u k) * w (ix2 r k) :=
  (rowMat_apply d hl hr hb hn hp h1 hs x _ u r).trans (Finset.sum_congr rfl fun k _ => congrArg (x (ix2 u k) * ·) (transpose_ix2_apply w h k r))

theorem lane_lift (j : S1.Idx) (l : Fin 20) : reduces_S1x20_S1.lift j l = ix2 (0 : Fin 1) l := by
  funext a
  match a with
  | ⟨0, h0⟩ => exact Fin.ext (Nat.lt_one_iff.mp (reduces_S1x20_S1.lift j l ⟨0, h0⟩).isLt)
  | ⟨1, _⟩ => exact Fin.ext rfl

theorem lane_max_apply (s : FVec Ideal S1x20 .f32) (j : S1.Idx) :
    multiReduction (F := Ideal) .maximumf [1] S1 s 0xFF800000#32 reduces_S1x20_S1 (.inl rfl) rfl j
      = (Finset.univ : Finset (Fin 20)).fold max Cert.Spec.negInfW (fun l => s (ix2 0 l)) :=
  (Ideal.multiReduction_maximumf_single s 0xFF800000#32 reduces_S1x20_S1 (.inl rfl) rfl j).trans
    (congrArg (fun f : Fin 20 → EReal => (Finset.univ : Finset (Fin 20)).fold max Cert.Spec.negInfW f)
      (funext fun l => congrArg s (lane_lift j l)))

theorem lane_sum_apply (s : FVec Ideal S1x20 .f32) (j : S1.Idx) :
    multiReduction (F := Ideal) .add [1] S1 s 0x00000000#32 reduces_S1x20_S1 (.inl rfl) rfl j
      = ∑ l : Fin 20, s (ix2 0 l) :=
  (Ideal.multiReduction_add_single s 0x00000000#32 reduces_S1x20_S1 (.inl rfl) rfl j).trans
    (Finset.sum_congr rfl fun l _ => congrArg s (lane_lift j l))

/-- Broadcasting along the lanes copies the single entry. -/
theorem col_bcast_apply (m : FVec Ideal S1 .f32) (u : Fin 1) (l : Fin 20) :
    broadcastTo S1x20 (shapeCast S1x1 m shapeCasts_S1_S1x1) broadcasts_S1x1_S1x20 (ix2 u l) = m (ix1 0) := by
  refine (broadcastTo_apply _ broadcasts_S1x1_S1x20 (ix2 u l) (ix2 (0 : Fin 1) (0 : Fin 1)) fun a => ?_).trans ?_
  · match a with
    | ⟨0, _⟩ => rfl
    | ⟨1, _⟩ => rfl
  · exact shapeCast_apply m shapeCasts_S1_S1x1 _ (ix1 0) (by rw [Shape.rowMajor_val_one, Shape.rowMajor_val_two]; rfl)

def rowMax (s : FVec Ideal S1x20 .f32) : FVec Ideal S1 .f32 :=
  maximumf (broadcast S1 (Scalar.ofBits (F := Ideal) .f32 0xFF800000#32))
    (multiReduction (F := Ideal) .maximumf [1] S1 s 0xFF800000#32 reduces_S1x20_S1 (.inl rfl) rfl)

def expRow (s : FVec Ideal S1x20 .f32) : FVec Ideal S1x20 .f32 :=
  exp (subf s (broadcastTo S1x20 (shapeCast S1x1 (rowMax s) shapeCasts_S1_S1x1) broadcasts_S1x1_S1x20))

/-- The softmax of a row as the payload spells it: the exponentials of the row shifted by its maximum, over their sum. -/
def softRow (s : FVec Ideal S1x20 .f32) : FVec Ideal S1x20 .f32 :=
  divf (expRow s)
    (broadcastTo S1x20 (shapeCast S1x1 (multiReduction (F := Ideal) .add [1] S1 (expRow s) 0x00000000#32 reduces_S1x20_S1 (.inl rfl) rfl)
      shapeCasts_S1_S1x1) broadcasts_S1x1_S1x20)

def shiftOf (s : FVec Ideal S1x20 .f32) : EReal :=
  max Cert.Spec.negInfW ((Finset.univ : Finset (Fin 20)).fold max Cert.Spec.negInfW fun l => s (ix2 0 l))

theorem rowMax_apply (s : FVec Ideal S1x20 .f32) (j : S1.Idx) : rowMax s j = shiftOf s := by
  unfold rowMax
  rw [maximumf_apply, lane_max_apply]
  rfl

theorem expRow_apply (s : FVec Ideal S1x20 .f32) (u : Fin 1) (l : Fin 20) :
    expRow s (ix2 u l) = Ideal.exp (s (ix2 u l) - shiftOf s) := by
  show Ideal.exp (s (ix2 u l) - broadcastTo S1x20 (shapeCast S1x1 (rowMax s) shapeCasts_S1_S1x1) broadcasts_S1x1_S1x20 (ix2 u l)) = _
  rw [col_bcast_apply, rowMax_apply]

theorem softRow_apply (s : FVec Ideal S1x20 .f32) (u : Fin 1) (l : Fin 20) :
    softRow s (ix2 u l)
      = Ideal.div (Ideal.exp (s (ix2 0 l) - shiftOf s)) (∑ l' : Fin 20, Ideal.exp (s (ix2 0 l') - shiftOf s)) := by
  obtain rfl : u = 0 := Subsingleton.elim _ _
  unfold softRow
  rw [divf_apply, col_bcast_apply, lane_sum_apply, expRow_apply]
  exact congrArg _ (Finset.sum_congr rfl fun l' _ => expRow_apply s 0 l')

/-- The twenty scores before the softmax. -/
def scoreRow (v23 v26 : FVec Ideal S1x2048 .f32) (v29 v31 : FVec Ideal S20x2048 .f32) (v38 : FVec Ideal S1x20 .f32) :
    FVec Ideal S1x20 .f32 :=
  addf
    (addf
      (matmul (F := Ideal) dot_S1x2048_S2048x20_S1x20_1_0_0_1_n_n none
        (truncf .bf16 (shapeCast S1x2048 v23 shapeCasts_S1x2048_S1x2048) bitsLt_bf16_f32)
        (transpose S2048x20 [1, 0] (truncf .bf16 v29 bitsLt_bf16_f32) transposes_S20x2048_p1_0_S2048x20)
        (constant (F := Ideal) S1x20 .f32 0x00000000#32))
      (matmul (F := Ideal) dot_S1x2048_S2048x20_S1x20_1_0_0_1_n_n none
        (truncf .bf16 (shapeCast S1x2048 v26 shapeCasts_S1x2048_S1x2048) bitsLt_bf16_f32)
        (transpose S2048x20 [1, 0] (truncf .bf16 v31 bitsLt_bf16_f32) transposes_S20x2048_p1_0_S2048x20)
        (constant (F := Ideal) S1x20 .f32 0x00000000#32)))
    (shapeCast S1x20 v38 shapeCasts_S1x20_S1x20)

theorem scoreRow_apply (v23 v26 : FVec Ideal S1x2048 .f32) (v29 v31 : FVec Ideal S20x2048 .f32) (v38 : FVec Ideal S1x20 .f32)
    (u : Fin 1) (l : Fin 20) :
    scoreRow v23 v26 v29 v31 v38 (ix2 u l)
      = ((∑ k : Fin 2048, v23 (ix2 0 k) * v29 (ix2 l k)) + ∑ k : Fin 2048, v26 (ix2 0 k) * v31 (ix2 l k)) + v38 (ix2 0 l) := by
  obtain rfl : u = 0 := Subsingleton.elim _ _
  have hm := @rowMatT_apply 2048 20 .bf16 .bf16 dot_S1x2048_S2048x20_S1x20_1_0_0_1_n_n rfl rfl (by decide) (by decide) rfl rfl rfl
  unfold scoreRow
  simp only [matmul]
  rw [addf_apply, addf_apply, shapeCast_self, shapeCast_self, shapeCast_self, hm, hm]
  rfl

/-- Softmax of the scores; `lo` and `hi` split each attention row where the two products split it. -/
theorem k0_pay2_apply (v23 v26 : FVec Ideal S1x2048 .f32) (v29 v31 : FVec Ideal S20x2048 .f32) (v38 : FVec Ideal S1x20 .f32)
    (e h : Fin 2048 → EReal) (Wa : Fin 20 → Fin 4096 → EReal) (ba : Fin 20 → EReal)
    (he : ∀ k, v23 (ix2 0 k) = e k) (hh : ∀ k, v26 (ix2 0 k) = h k)
    (hlo : ∀ l k, v29 (ix2 l k) = Wa l (Cert.Spec.lo k)) (hhi : ∀ l k, v31 (ix2 l k) = Wa l (Cert.Spec.hi k))
    (hb : ∀ l, v38 (ix2 0 l) = ba l) (u : Fin 1) (l : Fin 20) :
    k0_pay2 (F := Ideal) v23 v26 v29 v31 v38 (ix2 u l) = Cert.Spec.weight e h Wa ba l := by
  have hs : ∀ l', scoreRow v23 v26 v29 v31 v38 (ix2 0 l') = Cert.Spec.score e h Wa ba l' := fun l' => by
    rw [scoreRow_apply]
    unfold Cert.Spec.score
    simp only [he, hh, hlo, hhi, hb]
  have hm : shiftOf (scoreRow v23 v26 v29 v31 v38) = Cert.Spec.scoreMax e h Wa ba :=
    congrArg (fun f : Fin 20 → EReal => max Cert.Spec.negInfW ((Finset.univ : Finset (Fin 20)).fold max Cert.Spec.negInfW f)) (funext hs)
  show softRow (scoreRow v23 v26 v29 v31 v38) (ix2 u l) = _
  rw [softRow_apply, hm, hs]
  unfold Cert.Spec.weight Cert.Spec.scoreExp
  exact congrArg _ (Finset.sum_congr rfl fun l' _ => by rw [hs])

theorem k0_pay3_apply (v23 v26 : FVec Ideal S1x2048 .f32) (v29 v31 : FVec Ideal S20x2048 .f32) (v38 : FVec Ideal S1x20 .f32)
    (v53 : FVec Ideal S20x2048 .f32)
    (e h : Fin 2048 → EReal) (enc : Fin 20 → Fin 2048 → EReal) (Wa : Fin 20 → Fin 4096 → EReal) (ba : Fin 20 → EReal)
    (he : ∀ k, v23 (ix2 0 k) = e k) (hh : ∀ k, v26 (ix2 0 k) = h k)
    (hlo : ∀ l k, v29 (ix2 l k) = Wa l (Cert.Spec.lo k)) (hhi : ∀ l k, v31 (ix2 l k) = Wa l (Cert.Spec.hi k))
    (hb : ∀ l, v38 (ix2 0 l) = ba l) (henc : ∀ l k, v53 (ix2 l k) = enc l k) (u : Fin 1) (k : Fin 2048) :
    k0_pay3 (F := Ideal) v23 v26 v29 v31 v38 v53 (ix2 u k) = Cert.Spec.context e h enc Wa ba k := by
  obtain rfl : u = 0 := Subsingleton.elim _ _
  unfold k0_pay3
  simp only [matmul]
  rw [shapeCast_self, rowMat_apply dot_S1x20_S20x2048_S1x2048_1_0_0_1_n_n rfl rfl (by decide) (by decide) rfl rfl rfl]
  unfold Cert.Spec.context
  refine Finset.sum_congr rfl fun l _ => ?_
  show k0_pay2 (F := Ideal) v23 v26 v29 v31 v38 (ix2 0 l) * v53 (ix2 l k) = _
  rw [k0_pay2_apply v23 v26 v29 v31 v38 e h Wa ba he hh hlo hhi hb, henc]

theorem k0_pay1_apply (v3 v6 : FVec Ideal S1x2048 .f32) (v8 v10 : FVec Ideal S256x2048 .f32) (v17 : FVec Ideal S1x256 .f32)
    (u : Fin 1) (r : Fin 256) :
    k0_pay1 (F := Ideal) v3 v6 v8 v10 v17 (ix2 u r)
      = max (((∑ k : Fin 2048, v3 (ix2 0 k) * v8 (ix2 r k)) + ∑ k : Fin 2048, v6 (ix2 0 k) * v10 (ix2 r k)) + v17 (ix2 0 r))
          Cert.Spec.zeroW := by
  obtain rfl : u = 0 := Subsingleton.elim _ _
  have hm := @rowMatT_apply 2048 256 .bf16 .bf16 dot_S1x2048_S2048x256_S1x256_1_0_0_1_n_n rfl rfl (by decide) (by decide) rfl rfl rfl
  unfold k0_pay1
  simp only [matmul]
  rw [maximumf_apply, addf_apply, addf_apply, shapeCast_self, shapeCast_self, hm, hm]
  rfl

end Cert.KernelIdeal.Frame

end
-- ==== Proof.KI.Pay2.lean ====
import proofs.«424062_j22247930593355_3_alg».proof.Proof.KI.Pay0

noncomputable section

namespace Cert.KernelIdeal.Frame

open Idealize.ShloMosaic Idealize.ShloMosaic.ValueIdx
open Cert.KernelIdeal Cert.KernelIdeal.Gen

/-- Entry (0, r) of the payload: the hidden row against row r of the weight block, plus the bias at r. -/
theorem k2_pay1_apply (v0 : FVec Ideal S1x2048 .f32) (v3 : FVec Ideal S2048x2048 .f32) (v7 : FVec Ideal S1x2048 .f32)
    (u : Fin 1) (r : Fin 2048) :
    k2_pay1 (F := Ideal) v0 v3 v7 (ix2 u r) = (∑ k : Fin 2048, v0 (ix2 0 k) * v3 (ix2 r k)) + v7 (ix2 0 r) := by
  obtain rfl : u = 0 := Subsingleton.elim _ _
  unfold k2_pay1
  simp only [matmul]
  rw [addf_apply, shapeCast_self, shapeCast_self,
    rowMatT_apply dot_S1x2048_S2048x2048_S1x2048_1_0_0_1_n_n rfl rfl (by decide) (by decide) rfl rfl rfl]
  rfl

theorem k2_pay1_col (x0 : FVec Ideal S1x2048 .f32) (X X' : FVec Ideal S2048x2048 .f32) (b b' : FVec Ideal S1x2048 .f32)
    (j : S1x2048.Idx) (hX : ∀ k : S2048x2048.Idx, (k 0).val = (j 1).val → X k = X' k) (hb : b j = b' j) :
    k2_pay1 (F := Ideal) x0 X b j = k2_pay1 (F := Ideal) x0 X' b' j := by
  obtain ⟨u, r, rfl⟩ : ∃ (u : Fin 1) (r : Fin 2048), j = ix2 u r := ⟨j 0, j 1, eq_ix2 j⟩
  obtain rfl : u = 0 := Subsingleton.elim _ _
  rw [k2_pay1_apply, k2_pay1_apply]
  exact congr (congrArg (· + ·) (Finset.sum_congr rfl fun k _ => congrArg (_ * ·) (hX (ix2 r k) rfl))) hb

end Cert.KernelIdeal.Frame

end
-- ==== Proof.KI.R2Local.lean ====
import proofs.«424062_j22247930593355_3_alg».proof.Proof.KI.R2Data
import proofs.«424062_j22247930593355_3_alg».proof.Proof.KI.Pay2

noncomputable section

namespace Cert.KernelIdeal.Frame

open Idealize.ShloMosaic
open Cert.KernelIdeal Cert.KernelIdeal.Gen

/-- Over the extended reals the product is the exact contraction, which is what makes its columns local. -/
instance k2Local_ideal : K2Local Ideal := ⟨k2_pay1_col⟩

end Cert.KernelIdeal.Frame

end
-- ==== Proof.Ref.RunH.lean ====
import proofs.«424062_j22247930593355_3_alg».proof.Proof.Ref.OpsP
import proofs.«424062_j22247930593355_3_alg».proof.Proof.Ref.ReadP
import Idealize.ShloMosaic.Lib.Pipeline.Frame

noncomputable section

namespace Cert.ReferenceIdeal.RunH

open Cert.ReferenceIdeal Cert.ReferenceIdeal.Gen Idealize.ShloMosaic Idealize.ShloMosaic.TcCoe Idealize.SL.Sem Idealize.ShloMosaic.StableHlo
open Cert.ReferenceIdeal.OpsP Cert.ReferenceIdeal.ReadP

variable {F : FTy → Type} [FloatOps F]

/-- The list is cut before each of its two concatenations, so that a concatenation's operands are buffers its stretch is entered with. -/
abbrev opsA : List (HloOp τ sig (Elt F)) := ops.take 10

abbrev wrA : List (Ref sig .tc) := [main_c, main_v0, main_v1, main_c_0, main_v2, main_v3, main_v4, main_v5, main_v6, main_v7]

theorem opsA_writes : (opsA : List (HloOp τ sig (Elt F))).Forall fun op => op.writes ⊆ (wrA.map (Proc.devRef (τ := τ) .tc)).toFinset := by
  simp only [List.take_succ_cons, List.take_zero, List.drop_succ_cons, List.drop_zero, List.Forall, nullary_writes, unary_writes, binary_writes, ternary_writes, quaternary_writes, reshape_writes, binaryIndexed_writes, unaryIndexed_writes, nary_writes, Finset.singleton_subset_iff, List.mem_toFinset]
  and_intros <;> exact List.mem_map_of_mem (by decide)

theorem keepA (W : Valuation τ sig (Elt F)) {r : Ref sig .tc} (hr : r ∉ wrA) :
    after opsA W (Proc.devRef .tc r) = W (Proc.devRef .tc r) :=
  after_of_writes_sub opsA W opsA_writes hr

abbrev opsB : List (HloOp τ sig (Elt F)) := (ops.drop 10).take 20

abbrev wrB : List (Ref sig .tc) := [main_v8, main_v9, main_v10, main_v11, main_v12, main_cst, main_v13, main_cst_1, main_v14, main_v15, main_v16, main_v17, main_v18, main_v19, main_cst_2, main_v20, main_v21, main_v22, main_v23, main_v24]

theorem opsB_writes : (opsB : List (HloOp τ sig (Elt F))).Forall fun op => op.writes ⊆ (wrB.map (Proc.devRef (τ := τ) .tc)).toFinset := by
  simp only [opsB, List.take_succ_cons, List.take_zero, List.drop_succ_cons, List.drop_zero, List.Forall, nullary_writes, unary_writes, binary_writes, ternary_writes, quaternary_writes, reshape_writes, binaryIndexed_writes, unaryIndexed_writes, nary_writes, Finset.singleton_subset_iff, List.mem_toFinset]
  and_intros <;> exact List.mem_map_of_mem (by decide)

theorem keepB (W : Valuation τ sig (Elt F)) {r : Ref sig .tc} (hr : r ∉ wrB) :
    after opsB W (Proc.devRef .tc r) = W (Proc.devRef .tc r) :=
  after_of_writes_sub opsB W opsB_writes hr

abbrev opsC : List (HloOp τ sig (Elt F)) := ops.drop 30

abbrev wrC : List (Ref sig .tc) := [main_v25, main_v26, main_v27, main_v28, main_v29, main_call0_cst, main_call0_v0, main_v30, main_v31, main_v32, main_v33, main_v34, main_v35, main_v36, main_v37, main_v38, main_v39, main_v40, main_v41, main_v42, main_v43, main_v44, main_v45, main_v46, main_v47, main_cst_3, main_v48, main_v49, main_cst_4, main_v50, main_v51, main_v52, main_v53, main_v54, main_cst_5, main_v55, main_v56, main_cst_6, main_v57, main_v58, main_v59, main_v60, main_v61, main_cst_7, main_v62, main_v63, main_v64, main_v65, main_v66, main_v67, main_v68, main_v69, main_v70, main_v71]

theorem opsC_writes : (opsC : List (HloOp τ sig (Elt F))).Forall fun op => op.writes ⊆ (wrC.map (Proc.devRef (τ := τ) .tc)).toFinset := by
  simp only [List.take_succ_cons, List.take_zero, List.drop_succ_cons, List.drop_zero, List.Forall, nullary_writes, unary_writes, binary_writes, ternary_writes, quaternary_writes, reshape_writes, binaryIndexed_writes, unaryIndexed_writes, nary_writes, Finset.singleton_subset_iff, List.mem_toFinset]
  and_intros <;> exact List.mem_map_of_mem (by decide)

theorem keepC (W : Valuation τ sig (Elt F)) {r : Ref sig .tc} (hr : r ∉ wrC) :
    after opsC W (Proc.devRef .tc r) = W (Proc.devRef .tc r) :=
  after_of_writes_sub opsC W opsC_writes hr

theorem ops_split : (ops : List (HloOp τ sig (Elt F))) = opsA ++ (opsB ++ opsC) := rfl

theorem stageA (W : Valuation τ sig (Elt F)) :
    after opsA W (Proc.devRef .tc main_v6) = val_main_v6 (F := F) (W (Proc.devRef .tc main_arg0)) (W (Proc.devRef .tc main_arg3))
    ∧ after opsA W (Proc.devRef .tc main_v7) = val_main_v7 (F := F) (W (Proc.devRef .tc main_arg1)) := by
  constructor
  · simp only [List.take_succ_cons, List.take_zero, List.drop_succ_cons, List.drop_zero]; after_results_simp; rfl
  · simp only [List.take_succ_cons, List.take_zero, List.drop_succ_cons, List.drop_zero]; after_results_simp; rfl

set_option maxHeartbeats 4000000 in
theorem stageB (W : Valuation τ sig (Elt F)) {x0 x1 x2 x3 x4 x5}
    (h6 : W (Proc.devRef .tc main_v6) = val_main_v6 (F := F) x0 x3) (h7 : W (Proc.devRef .tc main_v7) = val_main_v7 (F := F) x1)
    (h2 : W (Proc.devRef .tc main_arg2) = x2) (h4 : W (Proc.devRef .tc main_arg4) = x4) (h5 : W (Proc.devRef .tc main_arg5) = x5) :
    after opsB W (Proc.devRef .tc main_v23) = val_main_v23 (F := F) x0 x1 x3 x4 x5
    ∧ after opsB W (Proc.devRef .tc main_v24) = val_main_v24 (F := F) x0 x1 x2 x3 x4 x5 := by
  constructor
  · simp only [opsB, List.take_succ_cons, List.take_zero, List.drop_succ_cons, List.drop_zero]; after_results_simp; rw [h6, h7, h4, h5]; rfl
  · simp only [opsB, List.take_succ_cons, List.take_zero, List.drop_succ_cons, List.drop_zero]; after_results_simp; rw [h6, h7, h2, h4, h5]; rfl

set_option maxHeartbeats 8000000 in
theorem stageC (W : Valuation τ sig (Elt F)) {x0 x1 x2 x3 x4 x5 x6 x7 x8 x9 x10 x11 x12 x13}
    (h6 : W (Proc.devRef .tc main_v6) = val_main_v6 (F := F) x0 x3) (h7 : W (Proc.devRef .tc main_v7) = val_main_v7 (F := F) x1)
    (h24 : W (Proc.devRef .tc main_v24) = val_main_v24 (F := F) x0 x1 x2 x3 x4 x5)
    (a6 : W (Proc.devRef .tc main_arg6) = x6) (a7 : W (Proc.devRef .tc main_arg7) = x7) (a8 : W (Proc.devRef .tc main_arg8) = x8) (a9 : W (Proc.devRef .tc main_arg9) = x9) (a10 : W (Proc.devRef .tc main_arg10) = x10) (a11 : W (Proc.devRef .tc main_arg11) = x11) (a12 : W (Proc.devRef .tc main_arg12) = x12) (a13 : W (Proc.devRef .tc main_arg13) = x13) :
    after opsC W (Proc.devRef .tc main_v70) = val_main_v70 (F := F) x0 x1 x2 x3 x4 x5 x6 x7 x8 x9 x10 x11 x12 x13
    ∧ after opsC W (Proc.devRef .tc main_v71) = val_main_v71 (F := F) x0 x1 x2 x3 x4 x5 x6 x7 x8 x9 x10 x11 := by
  constructor
  · simp only [List.take_succ_cons, List.take_zero, List.drop_succ_cons, List.drop_zero]; after_results_simp; rw [h6, h7, h24, a6, a7, a8, a9, a10, a11, a12, a13]; rfl
  · simp only [List.take_succ_cons, List.take_zero, List.drop_succ_cons, List.drop_zero]; after_results_simp; rw [h6, h7, h24, a6, a7, a8, a9, a10, a11]; rfl

theorem after_ops (V : Valuation τ sig (Elt F)) : after ops V = after opsC (after opsB (after opsA V)) := by
  rw [ops_split, after_append, after_append]

theorem keep_arg (V : Valuation τ sig (Elt F)) {r : Ref sig .tc} (hA : r ∉ wrA) (hB : r ∉ wrB) (hC : r ∉ wrC) :
    after ops V (Proc.devRef .tc r) = V (Proc.devRef .tc r) := by
  rw [after_ops, keepC _ hC, keepB _ hB, keepA _ hA]

abbrev arg (m : (ℓ : Loc nD τ sig) → Buf (Elt F) ℓ) (c : Dev nD) (r : Ref sig .tc) := m ((c.tc : Thread nD τ).loc r)

set_option maxHeartbeats 4000000 in
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v70) = val_main_v70 (F := F) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13)
      ∧ r.2.mem ((c.tc : Thread nD τ).loc main_v71) = val_main_v71 (F := F) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11)
      ∧ r.2.mem ((c.tc : Thread nD τ).loc main_v23) = val_main_v23 (F := F) (arg m c main_arg0) (arg m c main_arg1) (arg m c main_arg3) (arg m c main_arg4) (arg m c main_arg5)
      ∧ r.2.mem ((c.tc : Thread nD τ).loc main_arg0) = arg m c main_arg0
      ∧ r.2.mem ((c.tc : Thread nD τ).loc main_arg1) = arg m c main_arg1
      ∧ r.2.mem ((c.tc : Thread nD τ).loc main_arg2) = arg m c main_arg2
      ∧ r.2.mem ((c.tc : Thread nD τ).loc main_arg3) = arg m c main_arg3
      ∧ r.2.mem ((c.tc : Thread nD τ).loc main_arg4) = arg m c main_arg4
      ∧ r.2.mem ((c.tc : Thread nD τ).loc main_arg5) = arg m c main_arg5
      ∧ r.2.mem ((c.tc : Thread nD τ).loc main_arg6) = arg m c main_arg6
      ∧ r.2.mem ((c.tc : Thread nD τ).loc main_arg7) = arg m c main_arg7
      ∧ r.2.mem ((c.tc : Thread nD τ).loc main_arg8) = arg m c main_arg8
      ∧ r.2.mem ((c.tc : Thread nD τ).loc main_arg9) = arg m c main_arg9
      ∧ r.2.mem ((c.tc : Thread nD τ).loc main_arg10) = arg m c main_arg10
      ∧ r.2.mem ((c.tc : Thread nD τ).loc main_arg11) = arg m c main_arg11
      ∧ r.2.mem ((c.tc : Thread nD τ).loc main_arg12) = arg m c main_arg12
      ∧ r.2.mem ((c.tc : Thread nD τ).loc main_arg13) = arg m c main_arg13 := by
  refine (θ_run defs _ _).mono (fun _ h c => ?_)
    (run_seq scopedRefs_eq scopedSems_eq defs main (fun _ => ops) main_eq (fun _ => ops_sub) m ρ)
  have hA := stageA (F := F) (launchContents m c)
  have hB := stageB (after opsA (launchContents m c)) hA.1 hA.2 (keepA _ (by decide)) (keepA _ (by decide)) (keepA _ (by decide))
  have kAB {r : Ref sig .tc} (hr : r ∉ wrA ∧ r ∉ wrB) := (keepB (after opsA (launchContents m c)) hr.2).trans (keepA _ hr.1)
  have hC := stageC (after opsB (after opsA (launchContents m c))) ((keepB _ (by decide)).trans hA.1) ((keepB _ (by decide)).trans hA.2) hB.2
    (kAB (by decide)) (kAB (by decide)) (kAB (by decide)) (kAB (by decide)) (kAB (by decide)) (kAB (by decide)) (kAB (by decide)) (kAB (by decide))
  have ka (r : Ref sig .tc) (hr : r ∉ wrA ∧ r ∉ wrB ∧ r ∉ wrC) := (h c r).trans (keep_arg _ hr.1 hr.2.1 hr.2.2)
  refine ⟨(h c main_v70).trans ?_, (h c main_v71).trans ?_, (h c main_v23).trans ?_,
    ka main_arg0 (by decide), ka main_arg1 (by decide), ka main_arg2 (by decide), ka main_arg3 (by decide), ka main_arg4 (by decide), ka main_arg5 (by decide), ka main_arg6 (by decide), ka main_arg7 (by decide), ka main_arg8 (by decide), ka main_arg9 (by decide), ka main_arg10 (by decide), ka main_arg11 (by decide), ka main_arg12 (by decide), ka main_arg13 (by decide)⟩
  · rw [after_ops]; exact hC.1
  · rw [after_ops]; exact hC.2
  · rw [after_ops, keepC _ (by decide)]; exact hB.1

end Cert.ReferenceIdeal.RunH

end
-- ==== Proof.KI.HostReads.lean ====
import proofs.«424062_j22247930593355_3_alg».proof.Proof.KI.Base
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Frame

open Idealize.ShloMosaic Idealize.ShloMosaic.TcCoe Idealize.SL.Sem
open Cert.KernelIdeal Cert.KernelIdeal.Gen
open Idealize.ShloMosaic.StableHlo Idealize.ShloMosaic.ValueIdx

variable {F : FTy → Type} [FloatOps F]

variable (m : (ℓ : Loc nD τ sig) → Buf (Elt F) ℓ) (outs : Outs (F := F))

-- A vector recast as a one-row matrix keeps its entries.
theorem rowCast {α : Type} {d1 : Fin 1 → Nat} {d2 : Fin 2 → Nat} (x : (⟨1, d1⟩ : Shape).Idx → α)
    (h : (⟨1, d1⟩ : Shape).ShapeCasts ⟨2, d2⟩) (j : (⟨2, d2⟩ : Shape).Idx) (k : (⟨1, d1⟩ : Shape).Idx)
    (h0 : (j 0).val = 0) (h1 : (k 0).val = (j 1).val) : shapeCast ⟨2, d2⟩ x h j = x k :=
  shapeCast_apply x h j k (by rw [Shape.rowMajor_val_one, Shape.rowMajor_val_two, h0, h1, Nat.zero_mul, Nat.zero_add])

theorem V2_main_v1 (c : Dev nD) (u : Fin 1) (k : Fin 2048) :
    (V2 m c main_v1 : S1x2048.Idx → Elt F .f32) (ix2 u k)
      = (m ((c : Thread nD τ).loc main_arg1) : S1x1x2048.Idx → Elt F .f32) (ix3 (0 : Fin 1) (0 : Fin 1) k) := by
  show StableHlo.after hostOps0_1 _ (Proc.devRef .tc main_v1) (ix2 u k) = _
  after_results
  refine shapeCast_apply (s := S1x1x2048) (t := S1x2048) _ _ _ _ ?_
  rw [Shape.rowMajor_val_three, Shape.rowMajor_val_two]
  show ((0 * 1 + 0) * 2048 + k.val) = u.val * 2048 + k.val
  rw [Fin.val_eq_zero u]

theorem V2_main_v2 (c : Dev nD) (u : Fin 1) (l : Fin 20) :
    (V2 m c main_v2 : S1x20.Idx → Elt F .f32) (ix2 u l)
      = (m ((c : Thread nD τ).loc main_arg5) : S20.Idx → Elt F .f32) (ix1 l) := by
  show StableHlo.after hostOps0_1 _ (Proc.devRef .tc main_v2) (ix2 u l) = _
  after_results
  exact rowCast _ _ _ (ix1 l) (Fin.val_eq_zero u) rfl

theorem V2_main_v3 (c : Dev nD) (u : Fin 1) (k : Fin 2048) :
    (V2 m c main_v3 : S1x2048.Idx → Elt F .f32) (ix2 u k)
      = (m ((c : Thread nD τ).loc main_arg7) : S2048.Idx → Elt F .f32) (ix1 k) := by
  show StableHlo.after hostOps0_1 _ (Proc.devRef .tc main_v3) (ix2 u k) = _
  after_results
  exact rowCast _ _ _ (ix1 k) (Fin.val_eq_zero u) rfl

-- A reference that nothing earlier writes still holds its initial contents.
theorem V2_launch (c : Dev nD) (r : Ref sig .tc) (h0 : r ∉ hostOps0_W) (h1 : r ∉ hostOps0_1_W) :
    V2 m c r = m ((c : Thread nD τ).loc r) :=
  (V2_of m c r h1).trans ((V1_of m c r h0).trans rfl)

theorem V3_launch (c : Dev nD) (r : Ref sig .tc) (h0 : r ∉ hostOps0_W) (h1 : r ∉ hostOps0_1_W)
    (h2 : r ∉ ([main_v4_0, main_v4_1] : List (Ref sig .tc))) : V3 m outs c r = m ((c : Thread nD τ).loc r) :=
  (V3_of m outs c r h2).trans (V2_launch m c r h0 h1)

theorem V4_launch (c : Dev nD) (r : Ref sig .tc) (h0 : r ∉ hostOps0_W) (h1 : r ∉ hostOps0_1_W)
    (h2 : r ∉ ([main_v4_0, main_v4_1] : List (Ref sig .tc))) (h3 : r ∉ hostOps1_W) :
    V4 m outs c r = m ((c : Thread nD τ).loc r) :=
  (V4_of m outs c r h3).trans (V3_launch m outs c r h0 h1 h2)

theorem V5_launch (c : Dev nD) (r : Ref sig .tc) (h0 : r ∉ hostOps0_W) (h1 : r ∉ hostOps0_1_W)
    (h2 : r ∉ ([main_v4_0, main_v4_1] : List (Ref sig .tc))) (h3 : r ∉ hostOps1_W)
    (h4 : r ∉ ([main_v7] : List (Ref sig .tc))) : V5 m outs c r = m ((c : Thread nD τ).loc r) :=
  (V5_of m outs c r h4).trans (V4_launch m outs c r h0 h1 h2 h3)

theorem V2_main_arg2 (c : Dev nD) : V2 m c main_arg2 = m ((c : Thread nD τ).loc main_arg2) := V2_launch m c main_arg2 (by decide) (by decide)
theorem V2_main_arg4 (c : Dev nD) : V2 m c main_arg4 = m ((c : Thread nD τ).loc main_arg4) := V2_launch m c main_arg4 (by decide) (by decide)
theorem V2_main_arg6 (c : Dev nD) : V2 m c main_arg6 = m ((c : Thread nD τ).loc main_arg6) := V2_launch m c main_arg6 (by decide) (by decide)
theorem V4_main_arg8 (c : Dev nD) : V4 m outs c main_arg8 = m ((c : Thread nD τ).loc main_arg8) :=
  V4_launch m outs c main_arg8 (by decide) (by decide) (by decide) (by decide)
theorem V4_main_arg9 (c : Dev nD) : V4 m outs c main_arg9 = m ((c : Thread nD τ).loc main_arg9) :=
  V4_launch m outs c main_arg9 (by decide) (by decide) (by decide) (by decide)
theorem V6_main_arg12 (c : Dev nD) : V6 m outs c main_arg12 = m ((c : Thread nD τ).loc main_arg12) :=
  (V6_of m outs c main_arg12 (by decide)).trans
    (V5_launch m outs c main_arg12 (by decide) (by decide) (by decide) (by decide) (by decide))

theorem V3_main_v4_0 (c : Dev nD) : V3 m outs c main_v4_0 = outs 3 main_v4_0 c := by
  show Function.update (Function.update (V2 m c) main_v4_0 (outs 3 main_v4_0 c)) main_v4_1 (outs 3 main_v4_1 c) main_v4_0 = _
  rw [Function.update_of_ne (StableHlo.devRef_ne_of_ne (by decide) : (Proc.devRef .tc main_v4_0 : DevRef τ sig) ≠ Proc.devRef .tc main_v4_1),
    Function.update_self]
theorem V3_main_v4_1 (c : Dev nD) : V3 m outs c main_v4_1 = outs 3 main_v4_1 c :=
  Function.update_self ..
theorem V5_main_v7 (c : Dev nD) : V5 m outs c main_v7 = outs 5 main_v7 c :=
  Function.update_self ..
theorem V7_main_v9 (c : Dev nD) : V7 m outs c main_v9 = outs 7 main_v9 c :=
  Function.update_self ..

theorem V4_main_v4_0 (c : Dev nD) : V4 m outs c main_v4_0 = outs 3 main_v4_0 c :=
  (V4_of m outs c main_v4_0 (by decide)).trans (V3_main_v4_0 m outs c)
theorem V4_main_v1 (c : Dev nD) : V4 m outs c main_v1 = V2 m c main_v1 :=
  (V4_of m outs c main_v1 (by decide)).trans (V3_of m outs c main_v1 (by decide))
theorem V6_main_v7 (c : Dev nD) : V6 m outs c main_v7 = outs 5 main_v7 c :=
  (V6_of m outs c main_v7 (by decide)).trans (V5_main_v7 m outs c)
theorem V7_main_v7 (c : Dev nD) : V7 m outs c main_v7 = outs 5 main_v7 c :=
  (V7_of m outs c main_v7 (by decide)).trans (V6_main_v7 m outs c)

theorem V4_main_v5 (c : Dev nD) (u : Fin 1) (r : Fin 6144) :
    (V4 m outs c main_v5 : S1x6144.Idx → Elt F .f32) (ix2 u r)
      = (m ((c : Thread nD τ).loc main_arg10) : S6144.Idx → Elt F .f32) (ix1 r) := by
  show StableHlo.after hostOps1 _ (Proc.devRef .tc main_v5) (ix2 u r) = _
  after_results
  refine (rowCast _ _ _ (ix1 r) (Fin.val_eq_zero u) rfl).trans ?_
  exact congrFun (V3_launch m outs c main_arg10 (by decide) (by decide) (by decide)) _

theorem V4_main_v6 (c : Dev nD) (u : Fin 1) (r : Fin 6144) :
    (V4 m outs c main_v6 : S1x6144.Idx → Elt F .f32) (ix2 u r)
      = (m ((c : Thread nD τ).loc main_arg11) : S6144.Idx → Elt F .f32) (ix1 r) := by
  show StableHlo.after hostOps1 _ (Proc.devRef .tc main_v6) (ix2 u r) = _
  after_results
  refine (rowCast _ _ _ (ix1 r) (Fin.val_eq_zero u) rfl).trans ?_
  exact congrFun (V3_launch m outs c main_arg11 (by decide) (by decide) (by decide)) _

theorem V6_main_v8 (c : Dev nD) (u : Fin 1) (v : Fin 50257) :
    (V6 m outs c main_v8 : S1x50257.Idx → Elt F .f32) (ix2 u v)
      = (m ((c : Thread nD τ).loc main_arg13) : S50257.Idx → Elt F .f32) (ix1 v) := by
  show StableHlo.after hostOps2 _ (Proc.devRef .tc main_v8) (ix2 u v) = _
  after_results
  refine (rowCast _ _ _ (ix1 v) (Fin.val_eq_zero u) rfl).trans ?_
  exact congrFun (V5_launch m outs c main_arg13 (by decide) (by decide) (by decide) (by decide) (by decide)) _

theorem V8_main_v10 (c : Dev nD) (u w : Fin 1) (k : Fin 2048) :
    (V8 m outs c main_v10 : S1x1x2048.Idx → Elt F .f32) (ix3 u w k)
      = (V7 m outs c main_v7 : S1x2048.Idx → Elt F .f32) (ix2 (0 : Fin 1) k) := by
  show StableHlo.after hostOps3 _ (Proc.devRef .tc main_v10) (ix3 u w k) = _
  after_results
  exact broadcastInDim_apply (s := S1x2048) (t := S1x1x2048) _ _ _ _ _ fun a =>
    match a with | ⟨0, _⟩ => rfl | ⟨1, _⟩ => rfl

theorem V8_main_v9 (c : Dev nD) : V8 m outs c main_v9 = outs 7 main_v9 c :=
  (V8_of m outs c main_v9 (by decide)).trans (V7_main_v9 m outs c)

theorem V8_main_v4_1 (c : Dev nD) : V8 m outs c main_v4_1 = outs 3 main_v4_1 c :=
  (V8_of m outs c main_v4_1 (by decide)).trans <| (V7_of m outs c main_v4_1 (by decide)).trans <|
    (V6_of m outs c main_v4_1 (by decide)).trans <| (V5_of m outs c main_v4_1 (by decide)).trans <|
    (V4_of m outs c main_v4_1 (by decide)).trans (V3_main_v4_1 m outs c)

end Cert.KernelIdeal.Frame

end
-- ==== Proof.KI.Arr0.lean ====
import proofs.«424062_j22247930593355_3_alg».proof.Proof.KI.R0Data
import Idealize.ShloMosaic.Lib.Pipeline.Value
import Idealize.ShloMosaic.Lib.ValueIdx

noncomputable section

namespace Cert.KernelIdeal.Frame

open Idealize.ShloMosaic Idealize.ShloMosaic.TcCoe Idealize.SL.Sem Idealize.ShloMosaic.ValueIdx
open Cert.KernelIdeal Cert.KernelIdeal.Gen

variable {F : FTy → Type} [FloatOps F]

variable (V : (c : Dev nD) → (b : Ref sig .tc) → Buf (Elt F) ((c : Thread nD τ).loc b))

/-- An array read at two indices with the same coordinates. -/
private theorem at2 {a b : Nat} {α : Type} (A : (⟨2, ![a, b]⟩ : Shape).Idx → α) {p q : (⟨2, ![a, b]⟩ : Shape).Idx}
    (h0 : (p 0).val = (q 0).val) (h1 : (p 1).val = (q 1).val) : A p = A q :=
  congrArg A (funext fun i => Fin.ext (match i with
    | ⟨0, _⟩ => h0
    | ⟨1, _⟩ => h1))

theorem idx0_9 : ∀ t : Fin cfg0.N, win0_9.index t (0 : Fin 2) = 0 ∧ win0_9.index t (1 : Fin 2) = t.val :=
  (by decide +kernel : ∀ t : Fin grid0.N, _)
theorem idx0_10 : ∀ t : Fin cfg0.N, win0_10.index t (0 : Fin 2) = 0 ∧ win0_10.index t (1 : Fin 2) = 0 :=
  (by decide +kernel : ∀ t : Fin grid0.N, _)

theorem blk0_0_apply (c : Dev nD) (t : Fin cfg0.N) (k : Fin 2048) :
    (blk0 V c 0 t : Vec F S1x2048 .f32) (ix2 0 k) = (V c main_v0 : S1x2048.Idx → Elt F .f32) (ix2 0 k) :=
  have ⟨e0, e1⟩ := (by decide +kernel : ∀ t : Fin grid0.N, win0_0.index t (0 : Fin 2) = 0 ∧ win0_0.index t (1 : Fin 2) = 0) t
  at2 (V c main_v0) (by show win0_0.index t (0 : Fin 2) * 1 + 1 * (0 : Fin 1).val = (0 : Fin 1).val; omega) (by show win0_0.index t (1 : Fin 2) * 2048 + 1 * k.val = k.val; omega)

theorem blk0_1_apply (c : Dev nD) (t : Fin cfg0.N) (k : Fin 2048) :
    (blk0 V c 1 t : Vec F S1x2048 .f32) (ix2 0 k) = (V c main_v1 : S1x2048.Idx → Elt F .f32) (ix2 0 k) :=
  have ⟨e0, e1⟩ := (by decide +kernel : ∀ t : Fin grid0.N, win0_1.index t (0 : Fin 2) = 0 ∧ win0_1.index t (1 : Fin 2) = 0) t
  at2 (V c main_v1) (by show win0_1.index t (0 : Fin 2) * 1 + 1 * (0 : Fin 1).val = (0 : Fin 1).val; omega) (by show win0_1.index t (1 : Fin 2) * 2048 + 1 * k.val = k.val; omega)

theorem blk0_2_apply (c : Dev nD) (t : Fin cfg0.N) (l : Fin 20) (k : Fin 2048) :
    (blk0 V c 2 t : Vec F S20x2048 .f32) (ix2 l k) = (V c main_arg4 : S20x4096.Idx → Elt F .f32) (ix2 l ⟨k.val, by have := k.isLt; omega⟩) :=
  have ⟨e0, e1⟩ := (by decide +kernel : ∀ t : Fin grid0.N, win0_2.index t (0 : Fin 2) = 0 ∧ win0_2.index t (1 : Fin 2) = 0) t
  at2 (V c main_arg4) (by show win0_2.index t (0 : Fin 2) * 20 + 1 * l.val = l.val; omega) (by show win0_2.index t (1 : Fin 2) * 2048 + 1 * k.val = k.val; omega)

theorem blk0_3_apply (c : Dev nD) (t : Fin cfg0.N) (l : Fin 20) (k : Fin 2048) :
    (blk0 V c 3 t : Vec F S20x2048 .f32) (ix2 l k) = (V c main_arg4 : S20x4096.Idx → Elt F .f32) (ix2 l ⟨2048 + k.val, by have := k.isLt; omega⟩) :=
  have ⟨e0, e1⟩ := (by decide +kernel : ∀ t : Fin grid0.N, win0_3.index t (0 : Fin 2) = 0 ∧ win0_3.index t (1 : Fin 2) = 1) t
  at2 (V c main_arg4) (by show win0_3.index t (0 : Fin 2) * 20 + 1 * l.val = l.val; omega) (by show win0_3.index t (1 : Fin 2) * 2048 + 1 * k.val = 2048 + k.val; omega)

theorem blk0_4_apply (c : Dev nD) (t : Fin cfg0.N) (l : Fin 20) :
    (blk0 V c 4 t : Vec F S1x20 .f32) (ix2 0 l) = (V c main_v2 : S1x20.Idx → Elt F .f32) (ix2 0 l) :=
  have ⟨e0, e1⟩ := (by decide +kernel : ∀ t : Fin grid0.N, win0_4.index t (0 : Fin 2) = 0 ∧ win0_4.index t (1 : Fin 2) = 0) t
  at2 (V c main_v2) (by show win0_4.index t (0 : Fin 2) * 1 + 1 * (0 : Fin 1).val = (0 : Fin 1).val; omega) (by show win0_4.index t (1 : Fin 2) * 20 + 1 * l.val = l.val; omega)

theorem blk0_5_apply (c : Dev nD) (t : Fin cfg0.N) (l : Fin 20) (k : Fin 2048) :
    (blk0 V c 5 t : Vec F S20x2048 .f32) (ix2 l k) = (V c main_arg2 : S20x2048.Idx → Elt F .f32) (ix2 l k) :=
  have ⟨e0, e1⟩ := (by decide +kernel : ∀ t : Fin grid0.N, win0_5.index t (0 : Fin 2) = 0 ∧ win0_5.index t (1 : Fin 2) = 0) t
  at2 (V c main_arg2) (by show win0_5.index t (0 : Fin 2) * 20 + 1 * l.val = l.val; omega) (by show win0_5.index t (1 : Fin 2) * 2048 + 1 * k.val = k.val; omega)

theorem blk0_6_apply (c : Dev nD) (t : Fin cfg0.N) (r : Fin 256) (k : Fin 2048) :
    (blk0 V c 6 t : Vec F S256x2048 .f32) (ix2 r k) = (V c main_arg6 : S2048x4096.Idx → Elt F .f32) (ix2 ⟨256 * t.val + r.val, by have := lt_of_lt_of_eq t.isLt N_0; have := r.isLt; omega⟩ ⟨k.val, by have := k.isLt; omega⟩) :=
  have ⟨e0, e1⟩ := (by decide +kernel : ∀ t : Fin grid0.N, win0_6.index t (0 : Fin 2) = t.val ∧ win0_6.index t (1 : Fin 2) = 0) t
  at2 (V c main_arg6) (by show win0_6.index t (0 : Fin 2) * 256 + 1 * r.val = 256 * t.val + r.val; omega) (by show win0_6.index t (1 : Fin 2) * 2048 + 1 * k.val = k.val; omega)

theorem blk0_7_apply (c : Dev nD) (t : Fin cfg0.N) (r : Fin 256) (k : Fin 2048) :
    (blk0 V c 7 t : Vec F S256x2048 .f32) (ix2 r k) = (V c main_arg6 : S2048x4096.Idx → Elt F .f32) (ix2 ⟨256 * t.val + r.val, by have := lt_of_lt_of_eq t.isLt N_0; have := r.isLt; omega⟩ ⟨2048 + k.val, by have := k.isLt; omega⟩) :=
  have ⟨e0, e1⟩ := (by decide +kernel : ∀ t : Fin grid0.N, win0_7.index t (0 : Fin 2) = t.val ∧ win0_7.index t (1 : Fin 2) = 1) t
  at2 (V c main_arg6) (by show win0_7.index t (0 : Fin 2) * 256 + 1 * r.val = 256 * t.val + r.val; omega) (by show win0_7.index t (1 : Fin 2) * 2048 + 1 * k.val = 2048 + k.val; omega)

theorem blk0_8_apply (c : Dev nD) (t : Fin cfg0.N) (r : Fin 256) :
    (blk0 V c 8 t : Vec F S1x256 .f32) (ix2 0 r) = (V c main_v3 : S1x2048.Idx → Elt F .f32) (ix2 0 ⟨256 * t.val + r.val, by have := lt_of_lt_of_eq t.isLt N_0; have := r.isLt; omega⟩) :=
  have ⟨e0, e1⟩ := (by decide +kernel : ∀ t : Fin grid0.N, win0_8.index t (0 : Fin 2) = 0 ∧ win0_8.index t (1 : Fin 2) = t.val) t
  at2 (V c main_v3) (by show win0_8.index t (0 : Fin 2) * 1 + 1 * (0 : Fin 1).val = (0 : Fin 1).val; omega) (by show win0_8.index t (1 : Fin 2) * 256 + 1 * r.val = 256 * t.val + r.val; omega)

def ptOf (j : Fin 2048) : Fin cfg0.N := ⟨j.val / 256, lt_of_lt_of_eq (by have := j.isLt; omega) N_0.symm⟩

def colOf (j : Fin 2048) : Fin 256 := ⟨j.val % 256, Nat.mod_lt _ (by decide)⟩

def xrow0 (c : Dev nD) : S1x2048.Idx → Elt F .f32 := fun i => comb0 V c (ptOf (i 1)) (ix2 0 (colOf (i 1)))

theorem flushed0_9 (c : Dev nD) (t : Fin cfg0.N) :
    (dat0 V c).flushed 9 t = ((cfg0.win 9).blk t).view.read (Elt F) (xrow0 V c) := by
  obtain ⟨e0, e1⟩ := idx0_9 t
  have hN : t.val < 8 := lt_of_lt_of_eq t.isLt N_0
  show (cfg0.win 9).cut (grid0.coords t) ((dat0 V c).after 9 t) = _
  rw [after0_9]
  funext y
  rw [View.read_apply]
  show comb0 V c t y = xrow0 V c (((cfg0.win 9).blk t).view.emb y)
  have hy : (y 1).val < 256 := (y 1).isLt
  have hp : ptOf ((((cfg0.win 9).blk t).view.emb y) 1) = t :=
    Fin.ext (by show (win0_9.index t (1 : Fin 2) * 256 + 1 * (y 1).val) / 256 = t.val; rw [e1]; omega)
  have hq : colOf ((((cfg0.win 9).blk t).view.emb y) 1) = y 1 :=
    Fin.ext (by show (win0_9.index t (1 : Fin 2) * 256 + 1 * (y 1).val) % 256 = (y 1).val; rw [e1]; omega)
  unfold xrow0
  rw [hp, hq]
  exact at2 (comb0 V c t) (congrArg Fin.val (Fin.eq_zero (y 0 : Fin 1))) rfl

theorem cover0_9 (i : S1x2048.Idx) : ∃ t : Fin cfg0.N, (cfg0.win 9).flush t = true ∧ i ∈ ((cfg0.win 9).blk t).view.set := by
  refine ⟨ptOf (i 1), flush0_9 _, ?_⟩
  obtain ⟨e0, e1⟩ := idx0_9 (ptOf (i 1))
  have h0 : (i 0).val < 1 := (i 0).isLt
  have h1 : (i 1).val < 2048 := (i 1).isLt
  show i ∈ ((View.whole main_v4_0).slice (win0_9.rect (ptOf (i 1)))).set
  rw [View.set_slice_whole, Rect.mem_set_unit]
  intro a
  match a with
  | ⟨0, _⟩ => show win0_9.index (ptOf (i 1)) (0 : Fin 2) * 1 ≤ (i 0).val ∧ (i 0).val < win0_9.index (ptOf (i 1)) (0 : Fin 2) * 1 + 1; omega
  | ⟨1, _⟩ => show win0_9.index (ptOf (i 1)) (1 : Fin 2) * 256 ≤ (i 1).val ∧ (i 1).val < win0_9.index (ptOf (i 1)) (1 : Fin 2) * 256 + 256; rw [e1]; show (i 1).val / 256 * 256 ≤ (i 1).val ∧ (i 1).val < (i 1).val / 256 * 256 + 256; omega

/-- Column `j` lies in the tile of point `j / 256`, at place `j % 256`, and the tiles cover the row. -/
theorem arr0_x (c : Dev nD) (u : Fin 1) (j : Fin 2048) :
    ((dat0 V c).arrAt 9 cfg0.N : S1x2048.Idx → Elt F .f32) (ix2 u j) = comb0 V c (ptOf j) (ix2 0 (colOf j)) := by
  rw [show (dat0 V c).arrAt 9 cfg0.N = xrow0 V c from
    (dat0 V c).arrAt_eq_of_cover 9 (xrow0 V c) (fun t _ => flushed0_9 V c t) cover0_9]
  rfl

theorem flushed0_10 (c : Dev nD) (t : Fin cfg0.N) :
    (dat0 V c).flushed 10 t = ((cfg0.win 10).blk t).view.read (Elt F) (aw0 V c) := by
  obtain ⟨e0, e1⟩ := idx0_10 t
  show (cfg0.win 10).cut (grid0.coords t) ((dat0 V c).after 10 t) = _
  rw [after0_10]
  funext y
  exact at2 (aw0 V c) (by show (y 0).val = win0_10.index t (0 : Fin 2) * 1 + 1 * (y 0).val; omega)
    (by show (y 1).val = win0_10.index t (1 : Fin 2) * 20 + 1 * (y 1).val; omega)

theorem cover0_10 (i : S1x20.Idx) : ∃ t : Fin cfg0.N, (cfg0.win 10).flush t = true ∧ i ∈ ((cfg0.win 10).blk t).view.set := by
  have h7 : (7 : ℕ) < cfg0.N := lt_of_lt_of_eq (by decide : 7 < 8) N_0.symm
  refine ⟨⟨7, h7⟩, (flush0_10 _).mpr rfl, ?_⟩
  obtain ⟨e0, e1⟩ := idx0_10 ⟨7, h7⟩
  have h0 : (i 0).val < 1 := (i 0).isLt
  have h1 : (i 1).val < 20 := (i 1).isLt
  show i ∈ ((View.whole main_v4_1).slice (win0_10.rect ⟨7, h7⟩)).set
  rw [View.set_slice_whole, Rect.mem_set_unit]
  intro a
  match a with
  | ⟨0, _⟩ => show win0_10.index ⟨7, h7⟩ (0 : Fin 2) * 1 ≤ (i 0).val ∧ (i 0).val < win0_10.index ⟨7, h7⟩ (0 : Fin 2) * 1 + 1; omega
  | ⟨1, _⟩ => show win0_10.index ⟨7, h7⟩ (1 : Fin 2) * 20 ≤ (i 1).val ∧ (i 1).val < win0_10.index ⟨7, h7⟩ (1 : Fin 2) * 20 + 20; rw [e1]; omega

theorem arr0_w (c : Dev nD) (u : Fin 1) (l : Fin 20) :
    ((dat0 V c).arrAt 10 cfg0.N : S1x20.Idx → Elt F .f32) (ix2 u l) = aw0 V c (ix2 0 l) := by
  rw [show (dat0 V c).arrAt 10 cfg0.N = aw0 V c from
    (dat0 V c).arrAt_eq_of_cover 10 (aw0 V c) (fun t _ => flushed0_10 V c t) cover0_10]
  rw [Subsingleton.elim u 0]

end Cert.KernelIdeal.Frame

end
-- ==== Proof.KI.Val0.lean ====
import proofs.«424062_j22247930593355_3_alg».proof.Proof.KI.Arr0
import proofs.«424062_j22247930593355_3_alg».proof.Proof.KI.Pay0
import proofs.«424062_j22247930593355_3_alg».proof.Proof.Spec
import Idealize.ShloMosaic.Lib.ValueIdx

noncomputable section

namespace Cert.KernelIdeal.Frame

open Idealize.ShloMosaic Idealize.ShloMosaic.TcCoe Idealize.SL.Sem Idealize.ShloMosaic.ValueIdx
open Idealize.ShloMosaic.Pipeline (Dat)
open Cert.KernelIdeal Cert.KernelIdeal.Gen

section

variable (V : (c : Dev nD) → (b : Ref sig .tc) → Buf (Elt Ideal) ((c : Thread nD τ).loc b)) (c : Dev nD)

/-- Quotient and remainder by 256 rebuild j. -/
theorem row_of_tile (j : Fin 2048) (h : 256 * (ptOf j).val + (colOf j).val < 2048) :
    (⟨256 * (ptOf j).val + (colOf j).val, h⟩ : Fin 2048) = j :=
  Fin.ext (Nat.div_add_mod j.val 256)

/-- The first point's blocks are the embedding row, the hidden row, the encoder rows, the attention matrix's column halves and the bias. -/
theorem ctx0_at (u : Fin 1) (k : Fin 2048) :
    (ctx0 V c : S1x2048.Idx → EReal) (ix2 u k)
      = Cert.Spec.context (fun k => (V c main_v0 : S1x2048.Idx → EReal) (ix2 0 k)) (fun k => (V c main_v1 : S1x2048.Idx → EReal) (ix2 0 k)) (fun l k => (V c main_arg2 : S20x2048.Idx → EReal) (ix2 l k)) (fun l k => (V c main_arg4 : S20x4096.Idx → EReal) (ix2 l k)) (fun l => (V c main_v2 : S1x20.Idx → EReal) (ix2 0 l)) k :=
  k0_pay3_apply (blk0 V c 0 pt0) (blk0 V c 1 pt0) (blk0 V c 2 pt0) (blk0 V c 3 pt0) (blk0 V c 4 pt0) (blk0 V c 5 pt0) _ _ _ _ _
    (blk0_0_apply V c pt0) (blk0_1_apply V c pt0) (blk0_2_apply V c pt0) (blk0_3_apply V c pt0) (blk0_4_apply V c pt0)
    (blk0_5_apply V c pt0) u k

end

/-- Both sides clip at zero a sum over each column half plus the bias; the summands agree block by block. -/
theorem val0_x (V : (c : Dev nD) → (b : Ref sig .tc) → Buf (Elt Ideal) ((c : Thread nD τ).loc b)) (c : Dev nD) (u : Fin 1) (j : Fin 2048) :
    ((dat0 V c).arrAt 9 cfg0.N : S1x2048.Idx → EReal) (ix2 u j)
      = Cert.Spec.combined (fun k => (V c main_v0 : S1x2048.Idx → EReal) (ix2 0 k)) (fun k => (V c main_v1 : S1x2048.Idx → EReal) (ix2 0 k))
          (fun l k => (V c main_arg2 : S20x2048.Idx → EReal) (ix2 l k))
          (fun l k => (V c main_arg4 : S20x4096.Idx → EReal) (ix2 l k)) (fun l => (V c main_v2 : S1x20.Idx → EReal) (ix2 0 l))
          (fun j k => (V c main_arg6 : S2048x4096.Idx → EReal) (ix2 j k)) (fun j => (V c main_v3 : S1x2048.Idx → EReal) (ix2 0 j)) j := by
  refine (arr0_x V c u j).trans ?_
  show k0_pay1 (F := Ideal) (blk0 V c 0 (ptOf j)) (ctx0 V c) (blk0 V c 6 (ptOf j)) (blk0 V c 7 (ptOf j)) (blk0 V c 8 (ptOf j)) (ix2 0 (colOf j)) = _
  rw [k0_pay1_apply]
  unfold Cert.Spec.combined
  refine congrArg (fun x : EReal => max x Cert.Spec.zeroW) ?_
  refine congr (congrArg (fun x y : EReal => x + y) (congr (congrArg (fun x y : EReal => x + y)
    (Finset.sum_congr rfl fun k _ => ?_)) (Finset.sum_congr rfl fun k _ => ?_)))
    ((blk0_8_apply V c (ptOf j) (colOf j)).trans (by rw [row_of_tile]))
  · rw [blk0_0_apply, blk0_6_apply, row_of_tile]
    rfl
  · rw [ctx0_at, blk0_7_apply, row_of_tile]
    rfl

theorem val0_w (V : (c : Dev nD) → (b : Ref sig .tc) → Buf (Elt Ideal) ((c : Thread nD τ).loc b)) (c : Dev nD) (u : Fin 1) (l : Fin 20) :
    ((dat0 V c).arrAt 10 cfg0.N : S1x20.Idx → EReal) (ix2 u l)
      = Cert.Spec.weight (fun k => (V c main_v0 : S1x2048.Idx → EReal) (ix2 0 k)) (fun k => (V c main_v1 : S1x2048.Idx → EReal) (ix2 0 k))
          (fun l k => (V c main_arg4 : S20x4096.Idx → EReal) (ix2 l k)) (fun l => (V c main_v2 : S1x20.Idx → EReal) (ix2 0 l)) l :=
  (arr0_w V c u l).trans (k0_pay2_apply (blk0 V c 0 pt0) (blk0 V c 1 pt0) (blk0 V c 2 pt0) (blk0 V c 3 pt0) (blk0 V c 4 pt0) _ _ _ _
    (blk0_0_apply V c pt0) (blk0_1_apply V c pt0) (blk0_2_apply V c pt0) (blk0_3_apply V c pt0) (blk0_4_apply V c pt0) 0 l)

end Cert.KernelIdeal.Frame

end
-- ==== Proof.KI.Pay1.lean ====
import proofs.«424062_j22247930593355_3_alg».proof.Proof.KI.Pay0

noncomputable section

namespace Cert.KernelIdeal.Frame

open Idealize.ShloMosaic Idealize.ShloMosaic.ValueIdx
open Cert.KernelIdeal Cert.KernelIdeal.Gen

/-- A row against row r of a block. -/
def rowDot (x : S1x2048.Idx → EReal) (w : S256x2048.Idx → EReal) (r : Fin 256) : EReal :=
  ∑ k : Fin 2048, x (ix2 (0 : Fin 1) k) * w (ix2 r k)

theorem rowBlock_apply (x : FVec Ideal S1x2048 .bf16) (w : FVec Ideal S256x2048 .bf16) (r : Fin 256) :
    (matmul dot_S1x2048_S2048x256_S1x256_1_0_0_1_n_n none x (transpose S2048x256 [1, 0] w transposes_S256x2048_p1_0_S2048x256)
        (constant (F := Ideal) S1x256 .f32 0x00000000#32) : FVec Ideal S1x256 .f32) (ix2 (0 : Fin 1) r)
      = rowDot x w r :=
  rowMatT_apply dot_S1x2048_S2048x256_S1x256_1_0_0_1_n_n rfl rfl (by decide) (by decide) rfl rfl rfl x w _ 0 r

theorem logistic_at {s : Shape} {φ : FTy} (a : FVec Ideal s φ) (i : s.Idx) : logistic a i = Ideal.logistic (a i) := rfl
theorem tanh_at {s : Shape} {φ : FTy} (a : FVec Ideal s φ) (i : s.Idx) : tanh a i = Ideal.tanh (a i) := rfl

theorem narrowRow_eq (x : Vec Ideal S1x2048 .f32) : (k1_pay2 x : S1x2048.Idx → EReal) = x := by
  unfold k1_pay2
  rw [shapeCast_self]
  rfl
theorem narrowHidden_eq (h0 : Vec Ideal S1x2048 .f32) : (k1_pay3 h0 : S1x2048.Idx → EReal) = h0 := by
  unfold k1_pay3
  rw [shapeCast_self]
  rfl
theorem narrowBlockR_eq (w : Vec Ideal S256x2048 .f32) : (k1_pay4 w : S256x2048.Idx → EReal) = w := rfl
theorem narrowBlockZ_eq (w : Vec Ideal S256x2048 .f32) : (k1_pay5 w : S256x2048.Idx → EReal) = w := rfl
theorem narrowBlockN_eq (w : Vec Ideal S256x2048 .f32) : (k1_pay6 w : S256x2048.Idx → EReal) = w := rfl

/-- A gate before its nonlinearity: the product plus the bias entry. -/
def gatePre (x : S1x2048.Idx → EReal) (w : S256x2048.Idx → EReal) (b : S1x256.Idx → EReal) (r : Fin 256) : EReal :=
  rowDot x w r + b (ix2 (0 : Fin 1) r)

/-- The input-side candidate product: a change of float format is the identity on the extended reals. -/
theorem inCand_apply (x : Vec Ideal S1x2048 .f32) (w : Vec Ideal S256x2048 .f32) (r : Fin 256) :
    (k1_pay9 x w : S1x256.Idx → EReal) (ix2 (0 : Fin 1) r) = rowDot x w r := by
  refine (rowBlock_apply (k1_pay2 x) _ r).trans ?_
  rw [narrowRow_eq]
  rfl

theorem inReset_apply (x : Vec Ideal S1x2048 .f32) (w : Vec Ideal S256x2048 .f32) (b : Vec Ideal S1x256 .f32) (r : Fin 256) :
    (k1_pay7 x w b : S1x256.Idx → EReal) (ix2 (0 : Fin 1) r) = gatePre x w b r := by
  unfold k1_pay7
  simp only [addf_apply, shapeCast_self]
  exact congrArg (· + b (ix2 (0 : Fin 1) r)) (inCand_apply x w r)

/-- The update pre-activation is spelled as the reset one. -/
theorem inUpdate_apply (x : Vec Ideal S1x2048 .f32) (w : Vec Ideal S256x2048 .f32) (b : Vec Ideal S1x256 .f32) (r : Fin 256) :
    (k1_pay8 x w b : S1x256.Idx → EReal) (ix2 (0 : Fin 1) r) = gatePre x w b r :=
  inReset_apply x w b r

/-- The cell at column r: (1 − z) n + z h, z and the reset gate logistic, n a tanh. -/
def cellTile (x h0 : S1x2048.Idx → EReal) (wir wiz win whr whz whn : S256x2048.Idx → EReal)
    (bir biz bin bhr bhz bhn h0t : S1x256.Idx → EReal) (r : Fin 256) : EReal :=
  (Cert.Spec.oneW - Ideal.logistic (gatePre x wiz biz r + gatePre h0 whz bhz r))
      * Ideal.tanh (gatePre x win bin r
          + Ideal.logistic (gatePre x wir bir r + gatePre h0 whr bhr r) * gatePre h0 whn bhn r)
    + Ideal.logistic (gatePre x wiz biz r + gatePre h0 whz bhz r) * h0t (ix2 (0 : Fin 1) r)

/-- Every operation of the tile is entrywise except the six products, each a `rowDot`. -/
theorem storedTile_apply (x h0 : Vec Ideal S1x2048 .f32) (wir wiz win whr whz whn : Vec Ideal S256x2048 .f32)
    (bir biz bin bhr bhz bhn h0t : Vec Ideal S1x256 .f32) (u : Fin 1) (r : Fin 256) :
    (k1_pay1 (F := Ideal) (k1_pay3 h0) (k1_pay4 whr) (k1_pay5 whz) (k1_pay6 whn) (k1_pay7 x wir bir) (k1_pay8 x wiz biz)
        (k1_pay9 x win) bin bhr bhz bhn h0t : S1x256.Idx → EReal) (ix2 u r)
      = cellTile x h0 wir wiz win whr whz whn bir biz bin bhr bhz bhn h0t r := by
  obtain rfl : u = 0 := Subsingleton.elim _ _
  have hr := rowBlock_apply (k1_pay3 h0) (k1_pay4 whr) r
  have hz := rowBlock_apply (k1_pay3 h0) (k1_pay5 whz) r
  have hn := rowBlock_apply (k1_pay3 h0) (k1_pay6 whn) r
  rw [narrowHidden_eq, narrowBlockR_eq] at hr
  rw [narrowHidden_eq, narrowBlockZ_eq] at hz
  rw [narrowHidden_eq, narrowBlockN_eq] at hn
  unfold k1_pay1 cellTile
  simp only [addf_apply, mulf_apply, subf_apply, broadcast_apply, shapeCast_self, logistic_at, tanh_at]
  rw [inReset_apply, inUpdate_apply, inCand_apply, narrowHidden_eq, narrowBlockR_eq, narrowBlockZ_eq, narrowBlockN_eq, hr, hz, hn]
  rfl

end Cert.KernelIdeal.Frame

end
-- ==== Proof.KI.Val1.lean ====
import proofs.«424062_j22247930593355_3_alg».proof.Proof.KI.R1Data
import proofs.«424062_j22247930593355_3_alg».proof.Proof.KI.Pay1
import proofs.«424062_j22247930593355_3_alg».proof.Proof.Spec
import Idealize.ShloMosaic.Lib.ValueIdx
import Idealize.ShloMosaic.Lib.Pipeline.Value
import Idealize.ShloMosaic.PureOps.Ideal.Laws

noncomputable section

namespace Cert.KernelIdeal.Frame

open Idealize.ShloMosaic Idealize.ShloMosaic.TcCoe Idealize.SL.Sem Idealize.ShloMosaic.ValueIdx
open Idealize.ShloMosaic.Pipeline (Dat)
open Cert.KernelIdeal Cert.KernelIdeal.Gen

theorem cellZeroOffsets : (![0, 0] : Fin 2 → Nat) = fun _ => 0 := funext fun a => by fin_cases a <;> rfl

/-- Loading a whole block returns it, which leaves the cell formula over the blocks. -/
theorem tile_apply (i : grid1.Coords) (x0 x1 : Vec Ideal S1x2048 .f32) (x2 x3 x4 x5 x6 x7 : Vec Ideal S256x2048 .f32)
    (x8 x9 x10 x11 x12 x13 : Vec Ideal S1x256 .f32) (u : Fin 1) (r : Fin 256) :
    (gruTile i x0 x1 x2 x3 x4 x5 x6 x7 x8 x9 x10 x11 x12 x13 : S1x256.Idx → EReal) (ix2 u r)
      = cellTile x0 x1 x2 x3 x4 x5 x6 x7 x8 x9 x10 x11 x12 x13 (View.ld x1 (rHid i)) r := by
  unfold gruTile
  simp only [View.ld_unit_zero (S := S1x2048) cellZeroOffsets, View.ld_unit_zero (S := S256x2048) cellZeroOffsets,
    View.ld_unit_zero (S := S1x256) cellZeroOffsets]
  exact storedTile_apply x0 x1 x2 x3 x4 x5 x6 x7 x8 x9 x10 x11 x12 x13 (View.ld x1 (rHid i)) u r

/-- A matrix read at two indices with the same coordinates. -/
private theorem at2 {a b : Nat} {α : Type} (A : (⟨2, ![a, b]⟩ : Shape).Idx → α) {p q : (⟨2, ![a, b]⟩ : Shape).Idx}
    (h0 : (p 0).val = (q 0).val) (h1 : (p 1).val = (q 1).val) : A p = A q :=
  congrArg A (funext fun i => Fin.ext (match i with
    | ⟨0, _⟩ => h0
    | ⟨1, _⟩ => h1))

/-- If the three blocks agree entrywise with a row, row g and entry g of whole arrays, the gate is the arrays' affine map at g. -/
private theorem gate_at (x : S1x2048.Idx → EReal) (w : S256x2048.Idx → EReal) (b : S1x256.Idx → EReal) (r : Fin 256)
    (X : S1x2048.Idx → EReal) (W : S6144x2048.Idx → EReal) (B : S1x6144.Idx → EReal) (g : Fin 6144)
    (hx : ∀ k : Fin 2048, x (ix2 (0 : Fin 1) k) = X (ix2 0 k)) (hw : ∀ k : Fin 2048, w (ix2 r k) = W (ix2 g k))
    (hb : b (ix2 (0 : Fin 1) r) = B (ix2 0 g)) :
    gatePre x w b r = Cert.Spec.affine (fun k => X (ix2 0 k)) (fun r k => W (ix2 r k)) (fun r => B (ix2 0 r)) g := by
  unfold gatePre rowDot Cert.Spec.affine
  rw [hb]
  exact congrArg (· + B (ix2 0 g)) (Finset.sum_congr rfl fun k _ => by rw [hx k, hw k])

theorem rowWin_facts : ∀ t : Fin cfg1.N, win1_0.index t (0 : Fin 2) = 0 ∧ win1_0.index t (1 : Fin 2) = 0
    ∧ win1_1.index t (0 : Fin 2) = 0 ∧ win1_1.index t (1 : Fin 2) = 0 :=
  (by decide +kernel : ∀ t : Fin grid1.N, _)
theorem inMat_facts : ∀ t : Fin cfg1.N, win1_2.index t (0 : Fin 2) = t.val ∧ win1_2.index t (1 : Fin 2) = 0
    ∧ win1_3.index t (0 : Fin 2) = 8 + t.val ∧ win1_3.index t (1 : Fin 2) = 0
    ∧ win1_4.index t (0 : Fin 2) = 16 + t.val ∧ win1_4.index t (1 : Fin 2) = 0 :=
  (by decide +kernel : ∀ t : Fin grid1.N, _)
theorem hidMat_facts : ∀ t : Fin cfg1.N, win1_5.index t (0 : Fin 2) = t.val ∧ win1_5.index t (1 : Fin 2) = 0
    ∧ win1_6.index t (0 : Fin 2) = 8 + t.val ∧ win1_6.index t (1 : Fin 2) = 0
    ∧ win1_7.index t (0 : Fin 2) = 16 + t.val ∧ win1_7.index t (1 : Fin 2) = 0 :=
  (by decide +kernel : ∀ t : Fin grid1.N, _)
theorem inBias_facts : ∀ t : Fin cfg1.N, win1_8.index t (0 : Fin 2) = 0 ∧ win1_8.index t (1 : Fin 2) = t.val
    ∧ win1_9.index t (0 : Fin 2) = 0 ∧ win1_9.index t (1 : Fin 2) = 8 + t.val
    ∧ win1_10.index t (0 : Fin 2) = 0 ∧ win1_10.index t (1 : Fin 2) = 16 + t.val :=
  (by decide +kernel : ∀ t : Fin grid1.N, _)
theorem hidBias_facts : ∀ t : Fin cfg1.N, win1_11.index t (0 : Fin 2) = 0 ∧ win1_11.index t (1 : Fin 2) = t.val
    ∧ win1_12.index t (0 : Fin 2) = 0 ∧ win1_12.index t (1 : Fin 2) = 8 + t.val
    ∧ win1_13.index t (0 : Fin 2) = 0 ∧ win1_13.index t (1 : Fin 2) = 16 + t.val :=
  (by decide +kernel : ∀ t : Fin grid1.N, _)
theorem outWin_facts : ∀ t : Fin cfg1.N, win1_14.index t (0 : Fin 2) = 0 ∧ win1_14.index t (1 : Fin 2) = t.val :=
  (by decide +kernel : ∀ t : Fin grid1.N, _)
theorem hidSlice_facts : ∀ t : Fin cfg1.N, k1_off1 (grid1.coords t) (0 : Fin 2) = 0
    ∧ k1_off1 (grid1.coords t) (1 : Fin 2) = 256 * t.val :=
  (by decide +kernel : ∀ t : Fin grid1.N, _)

section Value

variable (V : (c : Dev nD) → (b : Ref sig .tc) → Buf (Elt Ideal) ((c : Thread nD τ).loc b)) (c : Dev nD) (t : Fin cfg1.N)

theorem readInRow (k : Fin 2048) :
    (iblk1 V c 0 t : S1x2048.Idx → EReal) (ix2 (0 : Fin 1) k) = (V c main_v4_0 : S1x2048.Idx → EReal) (ix2 0 k) :=
  have ⟨e0, e1, _⟩ := rowWin_facts t
  at2 (V c main_v4_0) (by show win1_0.index t (0 : Fin 2) * 1 + 1 * 0 = 0; omega)
    (by show win1_0.index t (1 : Fin 2) * 2048 + 1 * k.val = k.val; omega)

theorem readHidRow (k : Fin 2048) :
    (iblk1 V c 1 t : S1x2048.Idx → EReal) (ix2 (0 : Fin 1) k) = (V c main_v1 : S1x2048.Idx → EReal) (ix2 0 k) :=
  have ⟨_, _, e0, e1⟩ := rowWin_facts t
  at2 (V c main_v1) (by show win1_1.index t (0 : Fin 2) * 1 + 1 * 0 = 0; omega)
    (by show win1_1.index t (1 : Fin 2) * 2048 + 1 * k.val = k.val; omega)

/-- The slice starts at column 256 t. -/
theorem readHidSlice (r : Fin 256) (j : Fin 2048) (hj : j.val = 256 * t.val + r.val) :
    (View.ld (iblk1 V c 1 t) (rHid (cfg1.grid.coords t)) : S1x256.Idx → EReal) (ix2 (0 : Fin 1) r)
      = (V c main_v1 : S1x2048.Idx → EReal) (ix2 0 j) :=
  have ⟨_, _, e0, e1⟩ := rowWin_facts t
  have ⟨o0, o1⟩ := hidSlice_facts t
  at2 (V c main_v1) (by show win1_1.index t (0 : Fin 2) * 1 + 1 * (k1_off1 (grid1.coords t) (0 : Fin 2) + 1 * 0) = 0; omega)
    (by show win1_1.index t (1 : Fin 2) * 2048 + 1 * (k1_off1 (grid1.coords t) (1 : Fin 2) + 1 * r.val) = j.val; omega)

/-- The specification's cell at column j, over the arrays at entry. -/
def cellAt (j : Fin 2048) : EReal :=
  Cert.Spec.cell (fun k => (V c main_v4_0 : S1x2048.Idx → EReal) (ix2 0 k)) (fun k => (V c main_v1 : S1x2048.Idx → EReal) (ix2 0 k))
    (fun r k => (V c main_arg8 : S6144x2048.Idx → EReal) (ix2 r k)) (fun r k => (V c main_arg9 : S6144x2048.Idx → EReal) (ix2 r k))
    (fun r => (V c main_v5 : S1x6144.Idx → EReal) (ix2 0 r)) (fun r => (V c main_v6 : S1x6144.Idx → EReal) (ix2 0 r)) j

def newRow : Buf (Elt Ideal) ((c : Thread nD τ).loc main_v7) := fun i : S1x2048.Idx => cellAt V c (i 1 : Fin 2048)

/-- Gate g of column j sits at row 2048 g + j of the stacked arrays, which is row r of point t's g-th block. -/
theorem tile_eq_cell (u : Fin 1) (r : Fin 256) (j : Fin 2048) (hj : j.val = 256 * t.val + r.val) :
    (gruTile (cfg1.grid.coords t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) : S1x256.Idx → EReal) (ix2 u r) = cellAt V c j := by
  refine (tile_apply _ _ _ _ _ _ _ _ _ _ _ _ _ _ _ u r).trans ?_
  have ⟨a0, a1, a2, a3, a4, a5⟩ := inMat_facts t
  have ⟨b0, b1, b2, b3, b4, b5⟩ := hidMat_facts t
  have ⟨c0, c1, c2, c3, c4, c5⟩ := inBias_facts t
  have ⟨d0, d1, d2, d3, d4, d5⟩ := hidBias_facts t
  unfold cellTile cellAt Cert.Spec.cell
  rw [gate_at (iblk1 V c 0 t) (iblk1 V c 2 t) (iblk1 V c 8 t) r _ _ _ (Cert.Spec.gate 0 j) (readInRow V c t)
      (fun k => at2 (V c main_arg8) (by show win1_2.index t (0 : Fin 2) * 256 + 1 * r.val = 0 * 2048 + j.val; omega)
        (by show win1_2.index t (1 : Fin 2) * 2048 + 1 * k.val = k.val; omega))
      (at2 (V c main_v5) (by show win1_8.index t (0 : Fin 2) * 1 + 1 * 0 = 0; omega)
        (by show win1_8.index t (1 : Fin 2) * 256 + 1 * r.val = 0 * 2048 + j.val; omega)),
    gate_at (iblk1 V c 0 t) (iblk1 V c 3 t) (iblk1 V c 9 t) r _ _ _ (Cert.Spec.gate 1 j) (readInRow V c t)
      (fun k => at2 (V c main_arg8) (by show win1_3.index t (0 : Fin 2) * 256 + 1 * r.val = 1 * 2048 + j.val; omega)
        (by show win1_3.index t (1 : Fin 2) * 2048 + 1 * k.val = k.val; omega))
      (at2 (V c main_v5) (by show win1_9.index t (0 : Fin 2) * 1 + 1 * 0 = 0; omega)
        (by show win1_9.index t (1 : Fin 2) * 256 + 1 * r.val = 1 * 2048 + j.val; omega)),
    gate_at (iblk1 V c 0 t) (iblk1 V c 4 t) (iblk1 V c 10 t) r _ _ _ (Cert.Spec.gate 2 j) (readInRow V c t)
      (fun k => at2 (V c main_arg8) (by show win1_4.index t (0 : Fin 2) * 256 + 1 * r.val = 2 * 2048 + j.val; omega)
        (by show win1_4.index t (1 : Fin 2) * 2048 + 1 * k.val = k.val; omega))
      (at2 (V c main_v5) (by show win1_10.index t (0 : Fin 2) * 1 + 1 * 0 = 0; omega)
        (by show win1_10.index t (1 : Fin 2) * 256 + 1 * r.val = 2 * 2048 + j.val; omega)),
    gate_at (iblk1 V c 1 t) (iblk1 V c 5 t) (iblk1 V c 11 t) r _ _ _ (Cert.Spec.gate 0 j) (readHidRow V c t)
      (fun k => at2 (V c main_arg9) (by show win1_5.index t (0 : Fin 2) * 256 + 1 * r.val = 0 * 2048 + j.val; omega)
        (by show win1_5.index t (1 : Fin 2) * 2048 + 1 * k.val = k.val; omega))
      (at2 (V c main_v6) (by show win1_11.index t (0 : Fin 2) * 1 + 1 * 0 = 0; omega)
        (by show win1_11.index t (1 : Fin 2) * 256 + 1 * r.val = 0 * 2048 + j.val; omega)),
    gate_at (iblk1 V c 1 t) (iblk1 V c 6 t) (iblk1 V c 12 t) r _ _ _ (Cert.Spec.gate 1 j) (readHidRow V c t)
      (fun k => at2 (V c main_arg9) (by show win1_6.index t (0 : Fin 2) * 256 + 1 * r.val = 1 * 2048 + j.val; omega)
        (by show win1_6.index t (1 : Fin 2) * 2048 + 1 * k.val = k.val; omega))
      (at2 (V c main_v6) (by show win1_12.index t (0 : Fin 2) * 1 + 1 * 0 = 0; omega)
        (by show win1_12.index t (1 : Fin 2) * 256 + 1 * r.val = 1 * 2048 + j.val; omega)),
    gate_at (iblk1 V c 1 t) (iblk1 V c 7 t) (iblk1 V c 13 t) r _ _ _ (Cert.Spec.gate 2 j) (readHidRow V c t)
      (fun k => at2 (V c main_arg9) (by show win1_7.index t (0 : Fin 2) * 256 + 1 * r.val = 2 * 2048 + j.val; omega)
        (by show win1_7.index t (1 : Fin 2) * 2048 + 1 * k.val = k.val; omega))
      (at2 (V c main_v6) (by show win1_13.index t (0 : Fin 2) * 1 + 1 * 0 = 0; omega)
        (by show win1_13.index t (1 : Fin 2) * 256 + 1 * r.val = 2 * 2048 + j.val; omega)),
    readHidSlice V c t r j hj]

/-- The written tile, re-indexed by the block's place in the row. -/
theorem flushed1_eq : (dat1 V c).flushed 14 t = ((cfg1.win 14).blk t).view.read (Elt Ideal) (newRow V c) := by
  show (cfg1.win 14).cut (grid1.coords t) ((dat1 V c).after 14 t) = _
  rw [after1_14]
  unfold out1_14
  rw [View.canon_unit_zero cellZeroOffsets]
  obtain ⟨e0, e1⟩ := outWin_facts t
  have t8 : t.val < 8 := lt_of_lt_of_eq t.isLt N_1
  refine funext fun (y : S1x256.Idx) => ?_
  obtain ⟨u, r, rfl⟩ : ∃ (u : Fin 1) (r : Fin 256), y = ix2 u r := ⟨y 0, y 1, eq_ix2 y⟩
  refine (tile_eq_cell V c t u r ⟨256 * t.val + r.val, by omega⟩ rfl).trans ?_
  show newRow V c (ix2 (0 : Fin 1) (⟨256 * t.val + r.val, by omega⟩ : Fin 2048)) = newRow V c (((cfg1.win 14).blk t).view.emb (ix2 u r))
  exact at2 (newRow V c) (by show 0 = win1_14.index t (0 : Fin 2) * 1 + 1 * u.val; omega)
    (by show 256 * t.val + r.val = win1_14.index t (1 : Fin 2) * 256 + 1 * r.val; omega)

/-- Division by 256 finds a column's block. -/
theorem outCovered (i : S1x2048.Idx) :
    ∃ t : Fin cfg1.N, (cfg1.win 14).flush t = true ∧ i ∈ ((cfg1.win 14).blk t).view.set := by
  have hi0 : (i 0).val < 1 := (i 0).isLt
  have hi1 : (i 1).val < 2048 := (i 1).isLt
  obtain ⟨t, ht⟩ : ∃ t : Fin cfg1.N, t.val = (i 1).val / 256 :=
    ⟨⟨(i 1).val / 256, by rw [show cfg1.N = 8 from N_1]; omega⟩, rfl⟩
  obtain ⟨e0, e1⟩ := outWin_facts t
  refine ⟨t, flush1_14 t, ?_⟩
  show i ∈ ((View.whole main_v7).slice (win1_14.rect t)).set
  rw [View.set_slice_whole, Rect.mem_set_unit]
  intro a
  match a with
  | ⟨0, _⟩ => show win1_14.index t (0 : Fin 2) * 1 ≤ (i 0).val ∧ (i 0).val < win1_14.index t (0 : Fin 2) * 1 + 1; omega
  | ⟨1, _⟩ => show win1_14.index t (1 : Fin 2) * 256 ≤ (i 1).val ∧ (i 1).val < win1_14.index t (1 : Fin 2) * 256 + 256; omega

end Value

/-- Blocks that cover an array and are each written once determine it. -/
theorem val1 (V : (c : Dev nD) → (b : Ref sig .tc) → Buf (Elt Ideal) ((c : Thread nD τ).loc b)) (c : Dev nD) (u : Fin 1) (j : Fin 2048) :
    ((dat1 V c).arrAt 14 cfg1.N : S1x2048.Idx → EReal) (ix2 u j)
      = Cert.Spec.cell (fun k => (V c main_v4_0 : S1x2048.Idx → EReal) (ix2 0 k)) (fun k => (V c main_v1 : S1x2048.Idx → EReal) (ix2 0 k))
          (fun r k => (V c main_arg8 : S6144x2048.Idx → EReal) (ix2 r k)) (fun r k => (V c main_arg9 : S6144x2048.Idx → EReal) (ix2 r k))
          (fun r => (V c main_v5 : S1x6144.Idx → EReal) (ix2 0 r)) (fun r => (V c main_v6 : S1x6144.Idx → EReal) (ix2 0 r)) j :=
  congrFun ((dat1 V c).arrAt_eq_of_cover 14 (newRow V c) (fun t _ => flushed1_eq V c t) outCovered) (ix2 u j)

end Cert.KernelIdeal.Frame

end
-- ==== Proof.KI.Val2.lean ====
import proofs.«424062_j22247930593355_3_alg».proof.Proof.KI.R2Data
import proofs.«424062_j22247930593355_3_alg».proof.Proof.KI.Pay2
import proofs.«424062_j22247930593355_3_alg».proof.Proof.Spec
import Idealize.ShloMosaic.Lib.Pipeline.Value
import Idealize.ShloMosaic.Lib.ValueIdx
import Idealize.ShloMosaic.PureOps.Ideal.Laws

noncomputable section

namespace Cert.KernelIdeal.Frame

open Idealize.ShloMosaic Idealize.ShloMosaic.TcCoe Idealize.SL.Sem Idealize.ShloMosaic.ValueIdx
open Idealize.ShloMosaic.Pipeline (Dat Window)
open Cert.KernelIdeal Cert.KernelIdeal.Gen

/-- A matrix read at two indices with the same coordinates. -/
private theorem at2 {a b : Nat} {α : Type} (A : (⟨2, ![a, b]⟩ : Shape).Idx → α) {p q : (⟨2, ![a, b]⟩ : Shape).Idx}
    (h0 : (p 0).val = (q 0).val) (h1 : (p 1).val = (q 1).val) : A p = A q :=
  congrArg A (funext fun i => Fin.ext (match i with
    | ⟨0, _⟩ => h0
    | ⟨1, _⟩ => h1))

theorem out_index_facts : ∀ t : Fin cfg2.N,
    win2_0.index t (0 : Fin 2) = 0 ∧ win2_0.index t (1 : Fin 2) = 0
    ∧ win2_1.index t (0 : Fin 2) = t.val ∧ win2_1.index t (1 : Fin 2) = 0
    ∧ win2_2.index t (0 : Fin 2) = 0 ∧ win2_2.index t (1 : Fin 2) = t.val
    ∧ win2_3.index t (0 : Fin 2) = 0 ∧ win2_3.index t (1 : Fin 2) = t.val :=
  (by decide +kernel : ∀ t : Fin grid2.N, _)

/-- Every block has its full size except the last, cut where the 50257 columns end. -/
theorem out_xsize_facts : ∀ t : Fin cfg2.N,
    win2_1.xsize (grid2.coords t) (0 : Fin 2) = win2_3.xsize (grid2.coords t) (1 : Fin 2)
    ∧ win2_1.xsize (grid2.coords t) (1 : Fin 2) = 2048
    ∧ win2_2.xsize (grid2.coords t) (0 : Fin 2) = 1
    ∧ win2_2.xsize (grid2.coords t) (1 : Fin 2) = win2_3.xsize (grid2.coords t) (1 : Fin 2)
    ∧ win2_3.xsize (grid2.coords t) (0 : Fin 2) = 1
    ∧ t.val * 2048 + win2_3.xsize (grid2.coords t) (1 : Fin 2) = min ((t.val + 1) * 2048) 50257 :=
  (by decide +kernel : ∀ t : Fin grid2.N, _)

section

variable (V : (c : Dev nD) → (b : Ref sig .tc) → Buf (Elt Ideal) ((c : Thread nD τ).loc b)) (c : Dev nD)

/-- The scores as one array: entry (0, v) is the affine map of the hidden row at v. -/
def logits2 : S1x50257.Idx → EReal := fun i =>
  Cert.Spec.affine (fun k => (V c main_v7 : S1x2048.Idx → EReal) (ix2 0 k))
    (fun v k => (V c main_arg12 : S50257x2048.Idx → EReal) (ix2 v k))
    (fun v => (V c main_v8 : S1x50257.Idx → EReal) (ix2 0 v)) (i 1)

theorem hid_at (t : Fin cfg2.N) (k : Fin 2048) :
    (iblk2 V c 0 t : S1x2048.Idx → EReal) (ix2 0 k) = (V c main_v7 : S1x2048.Idx → EReal) (ix2 0 k) :=
  have ⟨i00, i01, _⟩ := out_index_facts t
  at2 (V c main_v7) (by show win2_0.index t (0 : Fin 2) * 1 + 1 * 0 = 0; omega)
    (by show win2_0.index t (1 : Fin 2) * 2048 + 1 * k.val = k.val; omega)

/-- Below the cut, row r of weight block t is row 2048 t + r of the weight array. -/
theorem wt_at (t : Fin cfg2.N) (r k : Fin 2048) (hr : r.val < win2_3.xsize (grid2.coords t) (1 : Fin 2))
    (hv : t.val * 2048 + r.val < 50257) :
    (wblk2 V c t : S2048x2048.Idx → EReal) (ix2 r k)
      = (V c main_arg12 : S50257x2048.Idx → EReal) (ix2 (⟨t.val * 2048 + r.val, hv⟩ : Fin 50257) k) := by
  obtain ⟨-, -, i10, i11, -⟩ := out_index_facts t
  obtain ⟨x10, x11, -⟩ := out_xsize_facts t
  have hm : win2_1.moved (grid2.coords t) (ix2 r k) = true := (win2_1.moved_iff _ _).mpr fun a => by
    match a with
    | ⟨0, _⟩ => show r.val < win2_1.xsize (grid2.coords t) (0 : Fin 2); omega
    | ⟨1, _⟩ => show k.val < win2_1.xsize (grid2.coords t) (1 : Fin 2); omega
  unfold wblk2 Window.fill
  rw [dif_pos hm]
  exact at2 (V c main_arg12) (by show win2_1.index t (0 : Fin 2) * 2048 + 1 * r.val = t.val * 2048 + r.val; omega)
    (by show win2_1.index t (1 : Fin 2) * 2048 + 1 * k.val = k.val; omega)

theorem bias_at (t : Fin cfg2.N) (r : Fin 2048) (hr : r.val < win2_3.xsize (grid2.coords t) (1 : Fin 2))
    (hv : t.val * 2048 + r.val < 50257) :
    (bblk2 V c t : S1x2048.Idx → EReal) (ix2 0 r)
      = (V c main_v8 : S1x50257.Idx → EReal) (ix2 0 (⟨t.val * 2048 + r.val, hv⟩ : Fin 50257)) := by
  obtain ⟨-, -, -, -, i20, i21, -⟩ := out_index_facts t
  obtain ⟨-, -, x20, x21, -⟩ := out_xsize_facts t
  have hm : win2_2.moved (grid2.coords t) (ix2 (0 : Fin 1) r) = true := (win2_2.moved_iff _ _).mpr fun a => by
    match a with
    | ⟨0, _⟩ => show 0 < win2_2.xsize (grid2.coords t) (0 : Fin 2); omega
    | ⟨1, _⟩ => show r.val < win2_2.xsize (grid2.coords t) (1 : Fin 2); omega
  unfold bblk2 Window.fill
  rw [dif_pos hm]
  exact at2 (V c main_v8) (by show win2_2.index t (0 : Fin 2) * 1 + 1 * 0 = 0; omega)
    (by show win2_2.index t (1 : Fin 2) * 2048 + 1 * r.val = t.val * 2048 + r.val; omega)

/-- On the columns point t writes back the payload reads only rows and entries below the cut, so what it writes is block t of the scores. -/
theorem out_flushed_eq (t : Fin cfg2.N) :
    (dat2 V c).flushed 3 t = ((cfg2.win 3).blk t).view.read (Elt Ideal) (logits2 V c) := by
  obtain ⟨-, -, -, -, -, -, i30, i31⟩ := out_index_facts t
  obtain ⟨-, -, -, -, x30, x31⟩ := out_xsize_facts t
  show (cfg2.win 3).cut (grid2.coords t) ((dat2 V c).after 3 t) = _
  rw [after2_3]
  funext j
  have hj0 : (j 0).val < win2_3.xsize (grid2.coords t) (0 : Fin 2) := (j 0).isLt
  have hj1 : (j 1).val < win2_3.xsize (grid2.coords t) (1 : Fin 2) := (j 1).isLt
  have hr : (j 1).val < 2048 := by omega
  have hv : t.val * 2048 + (j 1).val < 50257 := by omega
  have hx : win2_3.xinj (grid2.coords t) j = ix2 (0 : Fin 1) (⟨(j 1).val, hr⟩ : Fin 2048) := funext fun a => Fin.ext (by
    match a with
    | ⟨0, _⟩ => show (j 0).val = 0; omega
    | ⟨1, _⟩ => rfl)
  show k2_pay1 (F := Ideal) _ _ _ (win2_3.xinj (grid2.coords t) j) = logits2 V c (((cfg2.win 3).blk t).view.emb j)
  rw [hx, k2_pay1_apply]
  have e : ((cfg2.win 3).blk t).view.emb j (1 : Fin 2) = (⟨t.val * 2048 + (j 1).val, hv⟩ : Fin 50257) := Fin.ext (by
    show win2_3.index t (1 : Fin 2) * 2048 + 1 * (j 1).val = t.val * 2048 + (j 1).val; omega)
  unfold logits2 Cert.Spec.affine
  rw [e, bias_at V c t _ hj1 hv]
  exact congrArg (· + _) (Finset.sum_congr rfl fun k _ => by rw [hid_at, wt_at V c t _ k hj1 hv])

/-- Column v lies in the block of point v / 2048. -/
theorem out_cover (i : S1x50257.Idx) :
    ∃ t : Fin cfg2.N, (cfg2.win 3).flush t = true ∧ i ∈ ((cfg2.win 3).blk t).view.set := by
  have hi0 : (i 0).val < 1 := (i 0).isLt
  have hi1 : (i 1).val < 50257 := (i 1).isLt
  obtain ⟨t, ht⟩ : ∃ t : Fin cfg2.N, t.val = (i 1).val / 2048 :=
    ⟨⟨(i 1).val / 2048, by rw [show cfg2.N = 25 from N_2]; omega⟩, rfl⟩
  obtain ⟨-, -, -, -, -, -, i30, i31⟩ := out_index_facts t
  obtain ⟨-, -, -, -, x30, x31⟩ := out_xsize_facts t
  refine ⟨t, flush2_3 t, ?_⟩
  show i ∈ ((View.whole main_v9).slice (win2_3.rect t)).set
  rw [View.set_slice_whole, Rect.mem_set_unit]
  intro a
  match a with
  | ⟨0, _⟩ =>
    show win2_3.index t (0 : Fin 2) * 1 ≤ (i 0).val ∧ (i 0).val < win2_3.index t (0 : Fin 2) * 1 + win2_3.xsize (grid2.coords t) (0 : Fin 2)
    omega
  | ⟨1, _⟩ =>
    show win2_3.index t (1 : Fin 2) * 2048 ≤ (i 1).val ∧ (i 1).val < win2_3.index t (1 : Fin 2) * 2048 + win2_3.xsize (grid2.coords t) (1 : Fin 2)
    omega

/-- The blocks written back tile the columns, so the result array ends as the scores. -/
theorem val2 (u : Fin 1) (v : Fin 50257) :
    ((dat2 V c).arrAt 3 cfg2.N : S1x50257.Idx → EReal) (ix2 u v)
      = Cert.Spec.affine (fun k => (V c main_v7 : S1x2048.Idx → EReal) (ix2 0 k))
          (fun v k => (V c main_arg12 : S50257x2048.Idx → EReal) (ix2 v k))
          (fun v => (V c main_v8 : S1x50257.Idx → EReal) (ix2 0 v)) v :=
  congrFun ((dat2 V c).arrAt_eq_of_cover 3 (logits2 V c) (fun t _ => out_flushed_eq V c t) out_cover) (ix2 u v)

end

end Cert.KernelIdeal.Frame

end
-- ==== Proof.KI.Chain.lean ====
import proofs.«424062_j22247930593355_3_alg».proof.Proof.KI.HostReads
import proofs.«424062_j22247930593355_3_alg».proof.Proof.KI.Pdats
import proofs.«424062_j22247930593355_3_alg».proof.Proof.KI.Val0
import proofs.«424062_j22247930593355_3_alg».proof.Proof.KI.Val1
import proofs.«424062_j22247930593355_3_alg».proof.Proof.KI.Val2

noncomputable section

namespace Cert.KernelIdeal.Frame

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (c : Dev nD)

abbrev embK (k : Fin 2048) : EReal := (V2 m c main_v0 : S1x2048.Idx → EReal) (ix2 0 k)
abbrev hidK (k : Fin 2048) : EReal := (m ((c : Thread nD τ).loc main_arg1) : S1x1x2048.Idx → EReal) (ix3 0 0 k)
abbrev encK (l : Fin 20) (k : Fin 2048) : EReal := (m ((c : Thread nD τ).loc main_arg2) : S20x2048.Idx → EReal) (ix2 l k)
abbrev attnWK (l : Fin 20) (k : Fin 4096) : EReal := (m ((c : Thread nD τ).loc main_arg4) : S20x4096.Idx → EReal) (ix2 l k)
abbrev attnBK (l : Fin 20) : EReal := (m ((c : Thread nD τ).loc main_arg5) : S20.Idx → EReal) (ix1 l)
abbrev combWK (j : Fin 2048) (k : Fin 4096) : EReal := (m ((c : Thread nD τ).loc main_arg6) : S2048x4096.Idx → EReal) (ix2 j k)
abbrev combBK (j : Fin 2048) : EReal := (m ((c : Thread nD τ).loc main_arg7) : S2048.Idx → EReal) (ix1 j)
abbrev wihK (r : Fin 6144) (k : Fin 2048) : EReal := (m ((c : Thread nD τ).loc main_arg8) : S6144x2048.Idx → EReal) (ix2 r k)
abbrev whhK (r : Fin 6144) (k : Fin 2048) : EReal := (m ((c : Thread nD τ).loc main_arg9) : S6144x2048.Idx → EReal) (ix2 r k)
abbrev bihK (r : Fin 6144) : EReal := (m ((c : Thread nD τ).loc main_arg10) : S6144.Idx → EReal) (ix1 r)
abbrev bhhK (r : Fin 6144) : EReal := (m ((c : Thread nD τ).loc main_arg11) : S6144.Idx → EReal) (ix1 r)
abbrev outWK (v : Fin 50257) (k : Fin 2048) : EReal := (m ((c : Thread nD τ).loc main_arg12) : S50257x2048.Idx → EReal) (ix2 v k)
abbrev outBK (v : Fin 50257) : EReal := (m ((c : Thread nD τ).loc main_arg13) : S50257.Idx → EReal) (ix1 v)

theorem comb_at (u : Fin 1) (j : Fin 2048) :
    (outs m 3 main_v4_0 c : S1x2048.Idx → EReal) (ix2 u j)
      = Cert.Spec.combined (embK m c) (hidK m c) (encK m c) (attnWK m c) (attnBK m c) (combWK m c) (combBK m c) j := by
  rw [outs_3_v4_0]
  refine (val0_x (atTc (V2 m)) c u j).trans ?_
  have e1 := funext fun k => V2_main_v1 m c 0 k
  have e2 := funext fun l => V2_main_v2 m c 0 l
  have e3 := funext fun j => V2_main_v3 m c 0 j
  simp only [atTc]
  rw [e1, e2, e3, V2_main_arg2, V2_main_arg4, V2_main_arg6]

theorem weight_at (u : Fin 1) (l : Fin 20) :
    (outs m 3 main_v4_1 c : S1x20.Idx → EReal) (ix2 u l)
      = Cert.Spec.weight (embK m c) (hidK m c) (attnWK m c) (attnBK m c) l := by
  rw [outs_3_v4_1]
  refine (val0_w (atTc (V2 m)) c u l).trans ?_
  have e1 := funext fun k => V2_main_v1 m c 0 k
  have e2 := funext fun l => V2_main_v2 m c 0 l
  simp only [atTc]
  rw [e1, e2, V2_main_arg4]

theorem hidden_at (u : Fin 1) (j : Fin 2048) :
    (outs m 5 main_v7 c : S1x2048.Idx → EReal) (ix2 u j)
      = Cert.Spec.hiddenNew (embK m c) (hidK m c) (encK m c) (attnWK m c) (attnBK m c) (combWK m c) (combBK m c)
          (wihK m c) (whhK m c) (bihK m c) (bhhK m c) j := by
  rw [outs_5_v7, Cert.Spec.hiddenNew_eq_cell]
  refine (val1 (atTc (V4 m (outsA m))) c u j).trans ?_
  rw [show (fun k => (atTc (V4 m (outsA m)) c main_v4_0 : S1x2048.Idx → EReal) (ix2 0 k)) = _ from
    funext fun k => (congrFun (V4_main_v4_0 m (outs m) c) _).trans (comb_at m c 0 k)]
  have e1 := funext fun k => V2_main_v1 m c 0 k
  have e5 := funext fun r => V4_main_v5 m (outsA m) c 0 r
  have e6 := funext fun r => V4_main_v6 m (outsA m) c 0 r
  simp only [atTc]
  rw [V4_main_v1, e1, e5, e6, V4_main_arg8, V4_main_arg9]

theorem res_logits (u : Fin 1) (v : Fin 50257) :
    (V8 m (outs m) c main_v9 : S1x50257.Idx → EReal) (ix2 u v)
      = Cert.Spec.logit (embK m c) (hidK m c) (encK m c) (attnWK m c) (attnBK m c) (combWK m c) (combBK m c)
          (wihK m c) (whhK m c) (bihK m c) (bhhK m c) (outWK m c) (outBK m c) v := by
  rw [V8_main_v9, outs_7_v9, Cert.Spec.logit_eq_affine]
  refine (val2 (atTc (V6 m (outsB m))) c u v).trans ?_
  rw [show (fun k => (atTc (V6 m (outsB m)) c main_v7 : S1x2048.Idx → EReal) (ix2 0 k)) = _ from
    funext fun k => (congrFun (V6_main_v7 m (outs m) c) _).trans (hidden_at m c 0 k)]
  have e8 := funext fun v => V6_main_v8 m (outsB m) c 0 v
  simp only [atTc]
  rw [e8, V6_main_arg12]

theorem res_hidden (u w : Fin 1) (k : Fin 2048) :
    (V8 m (outs m) c main_v10 : S1x1x2048.Idx → EReal) (ix3 u w k)
      = Cert.Spec.hiddenNew (embK m c) (hidK m c) (encK m c) (attnWK m c) (attnBK m c) (combWK m c) (combBK m c)
          (wihK m c) (whhK m c) (bihK m c) (bhhK m c) k := by
  rw [V8_main_v10, V7_main_v7]; exact hidden_at m c 0 k

theorem res_weights (u : Fin 1) (l : Fin 20) :
    (V8 m (outs m) c main_v4_1 : S1x20.Idx → EReal) (ix2 u l)
      = Cert.Spec.weight (embK m c) (hidK m c) (attnWK m c) (attnBK m c) l := by
  rw [V8_main_v4_1]; exact weight_at m c u l

end Cert.KernelIdeal.Frame

end
-- ==== Proof.KI.EmbRow.lean ====
import proofs.«424062_j22247930593355_3_alg».proof.Defs
import proofs.«424062_j22247930593355_3_alg».proof.Proof.Gen.Pre_finite_inputs
import proofs.«424062_j22247930593355_3_alg».proof.Proof.KI.Base
import Idealize.ShloMosaic.Lib.ValueIdx
import Idealize.ShloMosaic.Lib.Pipeline.Value
import Idealize.ShloMosaic.Lib.StableHlo.Run
import Idealize.ShloMosaic.Lib.ReduceAll
import Idealize.ShloMosaic.Lib.StableHlo.Predicate

noncomputable section

namespace Cert.KernelIdeal.Frame

open Idealize.ShloMosaic Idealize.ShloMosaic.TcCoe Idealize.SL.Sem
open Cert.KernelIdeal Cert.KernelIdeal.Gen
open Idealize.ShloMosaic.StableHlo Idealize.ShloMosaic.ValueIdx

namespace EmbRow

theorem toInt_height : (50257#32 : BitVec 32).toInt = 50257 := by decide

theorem range_ints (x : BitVec 32) (hlo : IntOp.cmpi .sge x 4294917039#32 = 1#1) (hhi : IntOp.cmpi .slt x 50257#32 = 1#1) :
    -50257 ≤ x.toInt ∧ x.toInt < 50257 := by
  rw [IntOp.cmpi_sge, show (4294917039#32 : BitVec 32).toInt = -50257 from by decide] at hlo
  rw [IntOp.cmpi_slt, toInt_height] at hhi
  exact ⟨hlo, hhi⟩

theorem slt_zero_iff (x : BitVec 32) : IntOp.cmpi .slt x 0#32 = 1#1 ↔ x.toInt < 0 := by
  rw [IntOp.cmpi_slt, show (0#32 : BitVec 32).toInt = 0 from by decide]

-- An index in [−50257, 50257), with 50257 added when negative (no overflow), lies in [0, 50256].
theorem wrap_in_table (x : BitVec 32) (h0 : -50257 ≤ x.toInt) (h1 : x.toInt < 50257) :
    IntOp.andi (IntOp.cmpi .sge (Scalar.select (IntOp.cmpi .slt x 0#32) (IntOp.addi x 50257#32) x) 0#32)
      (IntOp.cmpi .sle (Scalar.select (IntOp.cmpi .slt x 0#32) (IntOp.addi x 50257#32) x) 50256#32) = 1#1 := by
  rw [IntOp.andi_eq_one, IntOp.cmpi_sge, IntOp.cmpi_sle, show (0#32 : BitVec 32).toInt = 0 from by decide,
    show (50256#32 : BitVec 32).toInt = 50256 from by decide]
  by_cases hneg : x.toInt < 0
  · have hs : Scalar.select (IntOp.cmpi .slt x 0#32) (IntOp.addi x 50257#32) x = x + 50257#32 := by
      rw [(slt_zero_iff x).2 hneg]; rfl
    have e : (x + 50257#32).toInt = x.toInt + 50257 := by
      rw [BitVec.toInt_add, toInt_height, Int.bmod_def]
      omega
    rw [hs, e]; omega
  · rw [show Scalar.select (IntOp.cmpi .slt x 0#32) (IntOp.addi x 50257#32) x = x from
      if_neg fun h => hneg ((slt_zero_iff x).1 h)]
    omega

theorem foldl_andi_ones {ι : Type} (f : ι → BitVec 1) (hf : ∀ i, f i = 1#1) :
    ∀ l : List ι, l.foldl (fun r n => IntOp.andi r (f n)) 1#1 = 1#1
  | [] => rfl
  | a :: l => by
    rw [List.foldl_cons, hf a, show IntOp.andi (1#1 : BitVec 1) 1#1 = 1#1 from by decide]
    exact foldl_andi_ones f hf l

end EmbRow

open EmbRow

section AnyFloats

variable {F : FTy → Type} [FloatOps F]

def wrapIdx (x0 : IVec S1 32) : IVec S1x1 32 :=
  broadcastInDim S1x1 ![0] bcast_S1_S1x1_0
    (select (cmpi .slt x0 (broadcastInDim S1 ![] bcast_S_S1 (constantI S_ 32 0#32)))
      (addi x0 (broadcastInDim S1 ![] bcast_S_S1 (constantI S_ 32 50257#32))) x0)

def takeRow (x0 : IVec S1 32) (x3 : FVec F S50257x2048 .f32) : FVec F S1x2048 .f32 :=
  select
    (broadcastInDim S1x2048 ![0] bcast_S1_S1x2048_0
      (Host.reduce IntOp.andi
        (andi (cmpi .sge (wrapIdx x0) (broadcastInDim S1x1 ![] bcast_S_S1x1 (constantI S_ 32 0#32)))
          (cmpi .sle (wrapIdx x0) (broadcastInDim S1x1 ![1] bcast_S1_S1x1_1 (constantI S1 32 50256#32))))
        (constantI S_ 1 1#1) reducesTo_S1x1_S1_d1 h_S_))
    (Host.gather gather_S50257x2048_S1x1_S1x2048_1_0_n_n_0_1_12048 x3 (wrapIdx x0))
    (broadcastInDim S1x2048 ![] bcast_S_S1x2048 (constant S_ .f32 0x7FC00000#32))

-- With the index in range the range test holds everywhere, so the selection is the gathered row.
theorem takeRow_of_range (x0 : IVec S1 32) (x3 : FVec F S50257x2048 .f32)
    (h0 : ∀ i, -50257 ≤ (x0 i).toInt) (h1 : ∀ i, (x0 i).toInt < 50257) :
    takeRow x0 x3 = Host.gather gather_S50257x2048_S1x1_S1x2048_1_0_n_n_0_1_12048 x3 (wrapIdx x0) := by
  funext j
  show Scalar.select _ _ _ = _
  refine (congrArg (Scalar.select · _ _) (?_ : _ = 1#1)).trans rfl
  show Host.reduce IntOp.andi _ _ _ _ _ = 1#1
  rw [Host.reduce_eq_foldl]
  exact foldl_andi_ones _ (fun q => wrap_in_table _ (h0 _) (h1 _)) _

variable (m : (ℓ : Loc nD τ sig) → Buf (Elt F) ℓ)

theorem V1_main_v0 (c : Dev nD) :
    (V1 m c main_v0 : S1x2048.Idx → Elt F .f32)
      = takeRow (m ((c : Thread nD τ).loc main_arg0)) (m ((c : Thread nD τ).loc main_arg3)) := by
  show StableHlo.after hostOps0 _ (Proc.devRef .tc main_v0) = _
  after_results_simp
  simp only [TRef.ofBuf, TRef.toBuf, cast_eq]
  rfl

end AnyFloats

section AtIdeal

variable [hP : Cert.Pre_finite_inputs.Facts]
variable (m : (ℓ : Loc nD τ sig) → Buf (Elt Ideal) ℓ)

local instance EmbRow.scalarIdx_subsingleton : Subsingleton Cert.Pre_finite_inputs.S_.Idx := ⟨fun a b => funext fun d => d.elim0⟩

-- The precondition's last two conjuncts bound the token index.
theorem pre_range (h : Cert.Pre_KernelIdeal m) (c : Dev nD) (i : S1.Idx) :
    -50257 ≤ ((m ((c : Thread nD τ).loc main_arg0) : IVec S1 32) i).toInt
      ∧ ((m ((c : Thread nD τ).loc main_arg0) : IVec S1 32) i).toInt < 50257 := by
  have e := congrFun (h c) ValueIdx.ix0
  dsimp only [Cert.Pre_finite_inputs.fn, Cert.Pre_finite_inputs.fn_part1, Cert.Pre_finite_inputs.fn_part2,
    Cert.Pre_finite_inputs.fn_part3, Cert.Pre_finite_inputs.fn_part4] at e
  obtain ⟨e67, e70⟩ := IntOp.andi_eq_one.1 e
  obtain ⟨-, e66⟩ := IntOp.andi_eq_one.1 e67
  exact range_ints _ (Host.reduce_andi_all _ _ _ _ _ e66 i) (Host.reduce_andi_all _ _ _ _ _ e70 i)

theorem V2_main_v0 (h : Cert.Pre_KernelIdeal m) (c : Dev nD) :
    (V2 m c main_v0 : S1x2048.Idx → Elt Ideal .f32)
      = Host.gather gather_S50257x2048_S1x1_S1x2048_1_0_n_n_0_1_12048
          (m ((c : Thread nD τ).loc main_arg3) : S50257x2048.Idx → Elt Ideal .f32)
          (broadcastInDim S1x1 ![0] bcast_S1_S1x1_0
            (select
              (cmpi .slt (m ((c : Thread nD τ).loc main_arg0) : IVec S1 32) (broadcastInDim S1 ![] bcast_S_S1 (constantI S_ 32 0#32)))
              (addi (m ((c : Thread nD τ).loc main_arg0) : IVec S1 32) (broadcastInDim S1 ![] bcast_S_S1 (constantI S_ 32 50257#32)))
              (m ((c : Thread nD τ).loc main_arg0) : IVec S1 32))) := by
  rw [show (V2 m c main_v0 : S1x2048.Idx → Elt Ideal .f32) = V1 m c main_v0 from V2_of m c main_v0 (by decide),
    V1_main_v0, takeRow_of_range _ _ (fun i => (pre_range m h c i).1) (fun i => (pre_range m h c i).2)]
  rfl

end AtIdeal

end Cert.KernelIdeal.Frame

end
-- ==== Proof.KI.EmbRowRef.lean ====
import proofs.«424062_j22247930593355_3_alg».proof.Proof.KI.EmbRow
import proofs.«424062_j22247930593355_3_alg».proof.Proof.Ref.ReadP

noncomputable section

namespace Cert.KernelIdeal.Frame

open Idealize.ShloMosaic Idealize.ShloMosaic.TcCoe
open Idealize.SL.Sem
open Cert.KernelIdeal Cert.KernelIdeal.Gen

variable [hP : Cert.Pre_finite_inputs.Facts]

theorem embRow_eq (m : (ℓ : Loc nD τ sig) → Buf (Elt Ideal) ℓ) (hpre : Cert.Pre_KernelIdeal m) (c : Dev nD) :
    (V2 m c main_v0 : S1x2048.Idx → EReal)
      = Cert.ReferenceIdeal.ReadP.val_main_v6 (F := Ideal) (m ((c : Thread nD τ).loc main_arg0)) (m ((c : Thread nD τ).loc main_arg3)) := by
  rw [V2_main_v0 m hpre c]
  rfl

end Cert.KernelIdeal.Frame

end
-- ==== Proof.Ref.Vals.lean ====
import proofs.«424062_j22247930593355_3_alg».proof.Defs
import proofs.«424062_j22247930593355_3_alg».proof.Proof.Ref.ReadP
import proofs.«424062_j22247930593355_3_alg».proof.Proof.Spec
import Idealize.ShloMosaic.Lib.IdealHost

noncomputable section

namespace Cert.ReferenceIdeal.RefValue

open Idealize.ShloMosaic Cert.ReferenceIdeal Cert.ReferenceIdeal.Gen Cert.ReferenceIdeal.ReadP Idealize.ShloMosaic.ValueIdx Cert.Spec
open scoped BigOperators

local macro "idx2" : tactic =>
  `(tactic| exact funext fun a => Fin.ext (by match a with | ⟨0, _⟩ => rfl | ⟨1, _⟩ => rfl))
local macro "idx1" : tactic =>
  `(tactic| exact funext fun a => Fin.ext (by match a with | ⟨0, _⟩ => rfl))

theorem joined_lo (A B : S1x2048.Idx → EReal) (hc : Shape.Concatenates [S1x2048, S1x2048] S1x4096 1) (k : Fin 2048) :
    concatenate S1x4096 1 [⟨S1x2048, A⟩, ⟨S1x2048, B⟩] hc (ix2 (0 : Fin 1) (lo k)) = A (ix2 (0 : Fin 1) k) :=
  concatenate_pair_apply_left 1 A B hc _ rfl _ (fun b => match b with | ⟨0, _⟩ => rfl | ⟨1, _⟩ => rfl)

theorem joined_hi (A B : S1x2048.Idx → EReal) (hc : Shape.Concatenates [S1x2048, S1x2048] S1x4096 1) (k : Fin 2048) :
    concatenate S1x4096 1 [⟨S1x2048, A⟩, ⟨S1x2048, B⟩] hc (ix2 (0 : Fin 1) (hi k)) = B (ix2 (0 : Fin 1) k) :=
  concatenate_pair_apply_right 1 A B hc _ rfl rfl _
    (fun b hb => match b, hb with | ⟨0, _⟩, _ => rfl | ⟨1, _⟩, hb => absurd rfl hb)
    (by show k.val + 2048 = 2048 + k.val; omega)

-- A product against two rows joined end to end sums half by half.
theorem dot_joined (A B : S1x2048.Idx → EReal) (hc : Shape.Concatenates [S1x2048, S1x2048] S1x4096 1) (w : Fin 4096 → EReal) :
    ∑ k : Fin 4096, concatenate S1x4096 1 [⟨S1x2048, A⟩, ⟨S1x2048, B⟩] hc (ix2 (0 : Fin 1) k) * w k
      = (∑ k : Fin 2048, A (ix2 (0 : Fin 1) k) * w (lo k)) + ∑ k : Fin 2048, B (ix2 (0 : Fin 1) k) * w (hi k) := by
  refine (sum_halves _).trans ?_
  simp only [joined_lo, joined_hi]

-- The maximum over the twenty positions is a fold of `max`.
theorem max_fold (y : S1x20.Idx → EReal) (init : S_.Idx → EReal) (h' : S1x20.ReducesTo [1] S1) (hu : 0 < S_.numel) :
    Host.reduce (FloatOps.maximumf (F := Ideal) (φ := .f32)) y init h' hu (ix1 (0 : Fin 1))
      = (Finset.univ : Finset (Fin 20)).fold max (init (Shape.Idx.first hu)) fun l => y (ix2 (0 : Fin 1) l) := by
  have h : S1x20.Reduces [1] S1 := by decide
  rw [Host.reduce_eq_fold_single _ y _ h' h hu]
  exact congrArg (fun f => Finset.fold max (init (Shape.Idx.first hu)) f (Finset.univ : Finset (Fin 20)))
    (funext fun l => congrArg y (funext fun c => Fin.ext (by fin_cases c <;> rfl)))

-- One over one plus the exponential of the negation is the logistic function.
theorem logistic_spelt (x : EReal) :
    FloatOps.hostDivf (F := Ideal) (φ := .f32) (FloatOps.ofBits .f32 0x3F800000#32)
      (FloatOps.addf (FloatOps.ofBits .f32 0x3F800000#32) (FloatOps.hostUnary .exp (FloatOps.hostNegf x))) = Ideal.logistic x := by
  show Ideal.div oneW (oneW + Ideal.exp (-x)) = _
  unfold Ideal.logistic
  rw [show oneW = 1 from Ideal.ofBits_one_f32]

-- Row `j` of band `g` among the 6144 stacked rows.
theorem band {f : S1x6144.Idx} (g : Fin 3) (j : Fin 2048) (h : (f 1).val = g.val * 2048 + j.val) :
    f = ix2 (0 : Fin 1) (gate g j) :=
  funext fun a => Fin.ext (by match a with | ⟨0, _⟩ => exact Fin.val_eq_zero _ | ⟨1, _⟩ => exact h)

section
variable (x0 : (⟨S1, .i32⟩ : BufTy).Contents (Elt Ideal)) (x1 : (⟨S1x1x2048, .f32⟩ : BufTy).Contents (Elt Ideal))
  (x2 : (⟨S20x2048, .f32⟩ : BufTy).Contents (Elt Ideal)) (x3 : (⟨S50257x2048, .f32⟩ : BufTy).Contents (Elt Ideal))
  (x4 : (⟨S20x4096, .f32⟩ : BufTy).Contents (Elt Ideal)) (x5 : (⟨S20, .f32⟩ : BufTy).Contents (Elt Ideal))
  (x6 : (⟨S2048x4096, .f32⟩ : BufTy).Contents (Elt Ideal)) (x7 : (⟨S2048, .f32⟩ : BufTy).Contents (Elt Ideal))
  (x8 x9 : (⟨S6144x2048, .f32⟩ : BufTy).Contents (Elt Ideal)) (x10 x11 : (⟨S6144, .f32⟩ : BufTy).Contents (Elt Ideal))
  (x12 : (⟨S50257x2048, .f32⟩ : BufTy).Contents (Elt Ideal)) (x13 : (⟨S50257, .f32⟩ : BufTy).Contents (Elt Ideal))

abbrev embRow (k : Fin 2048) : EReal := val_main_v6 (F := Ideal) x0 x3 (ix2 (0 : Fin 1) k)
abbrev hidRow (k : Fin 2048) : EReal := val_main_v7 (F := Ideal) x1 (ix2 (0 : Fin 1) k)
abbrev encM (l : Fin 20) (k : Fin 2048) : EReal := x2 (ix2 l k)
abbrev attnW (l : Fin 20) (k : Fin 4096) : EReal := x4 (ix2 l k)
abbrev attnB (l : Fin 20) : EReal := x5 (ix1 l)
abbrev combW (j : Fin 2048) (k : Fin 4096) : EReal := x6 (ix2 j k)
abbrev combB (j : Fin 2048) : EReal := x7 (ix1 j)
abbrev gateW (x : (⟨S6144x2048, .f32⟩ : BufTy).Contents (Elt Ideal)) (r : Fin 6144) (k : Fin 2048) : EReal := x (ix2 r k)
abbrev gateB (x : (⟨S6144, .f32⟩ : BufTy).Contents (Elt Ideal)) (r : Fin 6144) : EReal := x (ix1 r)
abbrev outW (v : Fin 50257) (k : Fin 2048) : EReal := x12 (ix2 v k)
abbrev outB (v : Fin 50257) : EReal := x13 (ix1 v)

theorem score_at (l : Fin 20) :
    val_main_v12 (F := Ideal) x0 x1 x3 x4 x5 (ix2 (0 : Fin 1) l) = score (embRow x0 x3) (hidRow x1) (attnW x4) (attnB x5) l := by
  rw [val_main_v12_apply, val_main_v10_apply, val_main_v11_apply]
  refine congrArg₂ (· + ·) (Eq.trans (Finset.sum_congr rfl fun k _ => ?_)
    (dot_joined _ _ concatenates_S1x2048_S1x2048_S1x4096_d1 (attnW x4 l))) (congrArg x5 (by idx1))
  rw [val_main_v9_apply]
  exact congrArg₂ (· * ·) (congrArg (val_main_v8 (F := Ideal) x0 x1 x3) (by idx2)) (congrArg x4 (by idx2))

theorem scoreExp_at (l : Fin 20) :
    val_main_v19 (F := Ideal) x0 x1 x3 x4 x5 (ix2 (0 : Fin 1) l) = scoreExp (embRow x0 x3) (hidRow x1) (attnW x4) (attnB x5) l := by
  rw [val_main_v19_apply, val_main_v18_apply, val_main_v17_apply, val_main_v16_apply,
    show idx_main_v16 (idx_main_v17 (ix2 (0 : Fin 1) l)) = ix1 (0 : Fin 1) from by idx1,
    val_main_v15_apply, val_main_v14_apply, val_main_cst_1_apply]
  unfold val_main_v13
  rw [max_fold, val_main_cst_apply]
  simp only [score_at]
  rfl

theorem weight_at (l : Fin 20) :
    val_main_v23 (F := Ideal) x0 x1 x3 x4 x5 (ix2 (0 : Fin 1) l) = Cert.Spec.weight (embRow x0 x3) (hidRow x1) (attnW x4) (attnB x5) l := by
  rw [val_main_v23_apply, val_main_v22_apply, val_main_v21_apply,
    show idx_main_v21 (idx_main_v22 (ix2 (0 : Fin 1) l)) = ix1 (0 : Fin 1) from by idx1,
    val_main_v20_apply, val_main_cst_2_apply, Ideal.ofBits_def, Ideal.ofBits_zero_f32, zero_add, scoreExp_at]
  refine congrArg (Ideal.div _) (Finset.sum_congr rfl fun l' _ => ?_)
  rw [show idx_main_v20 (ix1 (0 : Fin 1)) l' = ix2 (0 : Fin 1) l' from by idx2]
  exact scoreExp_at x0 x1 x3 x4 x5 l'

theorem weights_eq (i : S1x20.Idx) :
    val_main_v23 (F := Ideal) x0 x1 x3 x4 x5 i = Cert.Spec.weight (embRow x0 x3) (hidRow x1) (attnW x4) (attnB x5) (i 1) := by
  obtain ⟨a, l, rfl⟩ : ∃ (a : Fin 1) (l : Fin 20), i = ix2 a l := ⟨i 0, i 1, eq_ix2 i⟩
  obtain rfl : a = 0 := Subsingleton.elim _ _
  exact weight_at x0 x1 x3 x4 x5 l

theorem context_at (k : Fin 2048) :
    val_main_v24 (F := Ideal) x0 x1 x2 x3 x4 x5 (ix2 (0 : Fin 1) k) = context (embRow x0 x3) (hidRow x1) (encM x2) (attnW x4) (attnB x5) k := by
  rw [val_main_v24_apply]
  refine Finset.sum_congr rfl fun l _ => ?_
  rw [show lidx_main_v24 (ix2 (0 : Fin 1) k) l = ix2 (0 : Fin 1) l from by idx2, weight_at]
  exact congrArg (_ * ·) (congrArg x2 (by idx2))

theorem combined_at (j : Fin 2048) :
    val_main_v30 (F := Ideal) x0 x1 x2 x3 x4 x5 x6 x7 (ix2 (0 : Fin 1) j) = combined (embRow x0 x3) (hidRow x1) (encM x2) (attnW x4) (attnB x5) (combW x6) (combB x7) j := by
  rw [val_main_v30_apply, val_main_call0_v0_apply, val_main_call0_cst_apply, val_main_v29_apply, val_main_v28_apply,
    val_main_v27_apply]
  refine congrArg (max · zeroW) (congrArg₂ (· + ·) (Eq.trans (Finset.sum_congr rfl fun k _ => ?_)
    ((dot_joined (val_main_v6 (F := Ideal) x0 x3) (val_main_v24 (F := Ideal) x0 x1 x2 x3 x4 x5)
      concatenates_S1x2048_S1x2048_S1x4096_d1 (combW x6 j)).trans ?_)) (congrArg x7 (by idx1)))
  · rw [val_main_v26_apply]
    exact congrArg₂ (· * ·) (congrArg (val_main_v25 (F := Ideal) x0 x1 x2 x3 x4 x5) (by idx2)) (congrArg x6 (by idx2))
  · simp only [context_at]

theorem gateIn_at (r : Fin 6144) :
    val_main_v34 (F := Ideal) x0 x1 x2 x3 x4 x5 x6 x7 x8 x10 (ix2 (0 : Fin 1) r) = gateIn (embRow x0 x3) (hidRow x1) (encM x2) (attnW x4) (attnB x5) (combW x6) (combB x7) (gateW x8) (gateB x10) r := by
  rw [val_main_v34_apply, val_main_v33_apply, val_main_v32_apply]
  refine congrArg₂ (· + ·) (Finset.sum_congr rfl fun k _ => ?_) (congrArg x10 (by idx1))
  rw [val_main_v31_apply, show lidx_main_v32 (ix2 (0 : Fin 1) r) k = ix2 (0 : Fin 1) k from by idx2, combined_at]
  exact congrArg (_ * ·) (congrArg x8 (by idx2))

theorem gateHid_at (r : Fin 6144) :
    val_main_v38 (F := Ideal) x1 x9 x11 (ix2 (0 : Fin 1) r) = gateHid (hidRow x1) (gateW x9) (gateB x11) r := by
  rw [val_main_v38_apply, val_main_v37_apply, val_main_v36_apply]
  refine congrArg₂ (· + ·) (Finset.sum_congr rfl fun k _ => ?_) (congrArg x11 (by idx1))
  rw [val_main_v35_apply]
  exact congrArg₂ (· * ·) (congrArg (val_main_v7 (F := Ideal) x1) (by idx2)) (congrArg x9 (by idx2))

theorem hiddenNew_at (j : Fin 2048) :
    val_main_v66 (F := Ideal) x0 x1 x2 x3 x4 x5 x6 x7 x8 x9 x10 x11 (ix2 (0 : Fin 1) j) = hiddenNew (embRow x0 x3) (hidRow x1) (encM x2) (attnW x4) (attnB x5) (combW x6) (combB x7) (gateW x8) (gateW x9) (gateB x10) (gateB x11) j := by
  rw [val_main_v66_apply, val_main_v64_apply, val_main_v63_apply, val_main_v62_apply, val_main_cst_7_apply,
    val_main_v65_apply, val_main_v61_apply, val_main_v60_apply, val_main_v59_apply,
    val_main_v58_apply, val_main_v57_apply, val_main_cst_6_apply, val_main_v56_apply, val_main_v55_apply,
    val_main_cst_5_apply, val_main_v54_apply, val_main_v53_apply, val_main_v52_apply,
    val_main_v51_apply, val_main_v50_apply, val_main_cst_4_apply, val_main_v49_apply, val_main_v48_apply,
    val_main_cst_3_apply, val_main_v47_apply, val_main_v46_apply, val_main_v45_apply,
    val_main_v39_apply, val_main_v40_apply, val_main_v41_apply, val_main_v42_apply, val_main_v43_apply, val_main_v44_apply,
    band 0 j (f := idx_main_v39 _) (Nat.zero_add _).symm, band 0 j (f := idx_main_v42 _) (Nat.zero_add _).symm,
    band 1 j (f := idx_main_v40 _) rfl, band 1 j (f := idx_main_v43 _) rfl,
    band 2 j (f := idx_main_v41 _) rfl, band 2 j (f := idx_main_v44 _) rfl]
  simp only [gateIn_at, gateHid_at, logistic_spelt]
  rfl

theorem hidden_eq (i : S1x1x2048.Idx) :
    val_main_v71 (F := Ideal) x0 x1 x2 x3 x4 x5 x6 x7 x8 x9 x10 x11 i = Cert.Spec.hiddenNew (embRow x0 x3) (hidRow x1) (encM x2) (attnW x4) (attnB x5) (combW x6) (combB x7) (gateW x8) (gateW x9) (gateB x10) (gateB x11) (i 2) := by
  rw [val_main_v71_apply, show idx_main_v71 i = ix2 (0 : Fin 1) (i 2) from by idx2]
  exact hiddenNew_at x0 x1 x2 x3 x4 x5 x6 x7 x8 x9 x10 x11 (i 2)

theorem logits_eq (i : S1x50257.Idx) :
    val_main_v70 (F := Ideal) x0 x1 x2 x3 x4 x5 x6 x7 x8 x9 x10 x11 x12 x13 i = Cert.Spec.logit (embRow x0 x3) (hidRow x1) (encM x2) (attnW x4) (attnB x5) (combW x6) (combB x7) (gateW x8) (gateW x9) (gateB x10) (gateB x11) (outW x12) (outB x13) (i 1) := by
  obtain ⟨a, v, rfl⟩ : ∃ (a : Fin 1) (v : Fin 50257), i = ix2 a v := ⟨i 0, i 1, eq_ix2 i⟩
  obtain rfl : a = 0 := Subsingleton.elim _ _
  rw [val_main_v70_apply, val_main_v69_apply, val_main_v68_apply]
  refine congrArg₂ (· + ·) (Finset.sum_congr rfl fun k _ => ?_) (congrArg x13 (by idx1))
  rw [val_main_v67_apply, show lidx_main_v68 (ix2 (0 : Fin 1) v) k = ix2 (0 : Fin 1) k from by idx2, hiddenNew_at]
  exact congrArg (_ * ·) (congrArg x12 (by idx2))

end

end Cert.ReferenceIdeal.RefValue

end
-- ==== Proof.Bridge.lean ====
import proofs.«424062_j22247930593355_3_alg».proof.Defs
import proofs.«424062_j22247930593355_3_alg».proof.Proof.KI.Chain
import proofs.«424062_j22247930593355_3_alg».proof.Proof.KI.EmbRowRef
import proofs.«424062_j22247930593355_3_alg».proof.Proof.Ref.Vals
import proofs.«424062_j22247930593355_3_alg».proof.Proof.Gen.Pre_finite_inputs

noncomputable section

namespace Cert.Proof.Bridge

open Idealize.ShloMosaic Idealize.ShloMosaic.TcCoe Idealize.SL.Sem Idealize.ShloMosaic.ValueIdx
open Cert.KernelIdeal.Frame Cert.ReferenceIdeal.RefValue

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

abbrev ra (c : Dev Cert.KernelIdeal.nD) (r : Ref Cert.ReferenceIdeal.sig .tc) := m' ((c.tc : Thread Cert.ReferenceIdeal.nD Cert.ReferenceIdeal.τ).loc r)
abbrev ka (c : Dev Cert.KernelIdeal.nD) (r : Ref Cert.KernelIdeal.sig .tc) := m ((c.tc : Thread Cert.KernelIdeal.nD Cert.KernelIdeal.τ).loc r)

def Agree : Prop := ∀ c : Dev Cert.KernelIdeal.nD,
  ra m' c Cert.ReferenceIdeal.main_arg0 = ka m c Cert.KernelIdeal.main_arg0
  ∧ ra m' c Cert.ReferenceIdeal.main_arg1 = ka m c Cert.KernelIdeal.main_arg1
  ∧ ra m' c Cert.ReferenceIdeal.main_arg2 = ka m c Cert.KernelIdeal.main_arg2
  ∧ ra m' c Cert.ReferenceIdeal.main_arg3 = ka m c Cert.KernelIdeal.main_arg3
  ∧ ra m' c Cert.ReferenceIdeal.main_arg4 = ka m c Cert.KernelIdeal.main_arg4
  ∧ ra m' c Cert.ReferenceIdeal.main_arg5 = ka m c Cert.KernelIdeal.main_arg5
  ∧ ra m' c Cert.ReferenceIdeal.main_arg6 = ka m c Cert.KernelIdeal.main_arg6
  ∧ ra m' c Cert.ReferenceIdeal.main_arg7 = ka m c Cert.KernelIdeal.main_arg7
  ∧ ra m' c Cert.ReferenceIdeal.main_arg8 = ka m c Cert.KernelIdeal.main_arg8
  ∧ ra m' c Cert.ReferenceIdeal.main_arg9 = ka m c Cert.KernelIdeal.main_arg9
  ∧ ra m' c Cert.ReferenceIdeal.main_arg10 = ka m c Cert.KernelIdeal.main_arg10
  ∧ ra m' c Cert.ReferenceIdeal.main_arg11 = ka m c Cert.KernelIdeal.main_arg11
  ∧ ra m' c Cert.ReferenceIdeal.main_arg12 = ka m c Cert.KernelIdeal.main_arg12
  ∧ ra m' c Cert.ReferenceIdeal.main_arg13 = ka m c Cert.KernelIdeal.main_arg13

theorem hidRow_at (x1 : (⟨Cert.ReferenceIdeal.S1x1x2048, .f32⟩ : BufTy).Contents (Elt Ideal)) (k : Fin 2048) :
    hidRow x1 k = x1 (ix3 0 0 k) :=
  (Cert.ReferenceIdeal.ReadP.val_main_v7_apply x1 _).trans (congrArg x1 (funext fun a => match a with
    | ⟨0, _⟩ => rfl
    | ⟨1, _⟩ => rfl
    | ⟨2, _⟩ => Fin.ext (by show (0 * 2048 + k.val) % 2048 = k.val; have := k.isLt; omega)))

variable [hP : Cert.Pre_finite_inputs.Facts] (hpre : Cert.Pre_KernelIdeal m) (hagree : Agree m m') (c : Dev Cert.KernelIdeal.nD)
include hpre hagree

-- Only here is the precondition used: with the index in range the two embedding rows are one gather.
theorem emb_agree : embRow (ra m' c Cert.ReferenceIdeal.main_arg0) (ra m' c Cert.ReferenceIdeal.main_arg3) = embK m c := by
  funext k
  show Cert.ReferenceIdeal.ReadP.val_main_v6 (F := Ideal) _ _ (ix2 (0 : Fin 1) k) = (Cert.KernelIdeal.Gen.V2 m c Cert.KernelIdeal.main_v0 : Cert.KernelIdeal.S1x2048.Idx → EReal) (ix2 0 k)
  rw [(hagree c).1, (hagree c).2.2.2.1, embRow_eq m hpre c]

theorem hid_agree : hidRow (ra m' c Cert.ReferenceIdeal.main_arg1) = hidK m c := by
  funext k
  rw [hidRow_at, (hagree c).2.1]

theorem logits_agree : Cert.ReferenceIdeal.ReadP.val_main_v70 (F := Ideal) (ra m' c Cert.ReferenceIdeal.main_arg0) (ra m' c Cert.ReferenceIdeal.main_arg1) (ra m' c Cert.ReferenceIdeal.main_arg2) (ra m' c Cert.ReferenceIdeal.main_arg3) (ra m' c Cert.ReferenceIdeal.main_arg4) (ra m' c Cert.ReferenceIdeal.main_arg5) (ra m' c Cert.ReferenceIdeal.main_arg6) (ra m' c Cert.ReferenceIdeal.main_arg7) (ra m' c Cert.ReferenceIdeal.main_arg8) (ra m' c Cert.ReferenceIdeal.main_arg9) (ra m' c Cert.ReferenceIdeal.main_arg10) (ra m' c Cert.ReferenceIdeal.main_arg11) (ra m' c Cert.ReferenceIdeal.main_arg12) (ra m' c Cert.ReferenceIdeal.main_arg13) = Cert.KernelIdeal.Gen.V8 m (outs m) c Cert.KernelIdeal.main_v9 := by
  funext i
  obtain ⟨u, v, rfl⟩ : ∃ (u : Fin 1) (v : Fin 50257), i = ix2 u v := ⟨i 0, i 1, eq_ix2 i⟩
  obtain ⟨-, -, h2, -, h4, h5, h6, h7, h8, h9, h10, h11, h12, h13⟩ := hagree c
  rw [logits_eq]
  refine Eq.trans ?_ (res_logits m c u v).symm
  rw [emb_agree m m' hpre hagree c, hid_agree m m' hpre hagree c, h2, h4, h5, h6, h7, h8, h9, h10, h11, h12, h13]

theorem hidden_agree : Cert.ReferenceIdeal.ReadP.val_main_v71 (F := Ideal) (ra m' c Cert.ReferenceIdeal.main_arg0) (ra m' c Cert.ReferenceIdeal.main_arg1) (ra m' c Cert.ReferenceIdeal.main_arg2) (ra m' c Cert.ReferenceIdeal.main_arg3) (ra m' c Cert.ReferenceIdeal.main_arg4) (ra m' c Cert.ReferenceIdeal.main_arg5) (ra m' c Cert.ReferenceIdeal.main_arg6) (ra m' c Cert.ReferenceIdeal.main_arg7) (ra m' c Cert.ReferenceIdeal.main_arg8) (ra m' c Cert.ReferenceIdeal.main_arg9) (ra m' c Cert.ReferenceIdeal.main_arg10) (ra m' c Cert.ReferenceIdeal.main_arg11) = Cert.KernelIdeal.Gen.V8 m (outs m) c Cert.KernelIdeal.main_v10 := by
  funext i
  obtain ⟨u, w, k, rfl⟩ : ∃ (u w : Fin 1) (k : Fin 2048), i = ix3 u w k := ⟨i 0, i 1, i 2, eq_ix3 i⟩
  obtain ⟨-, -, h2, -, h4, h5, h6, h7, h8, h9, h10, h11, -⟩ := hagree c
  rw [hidden_eq]
  refine Eq.trans ?_ (res_hidden m c u w k).symm
  rw [emb_agree m m' hpre hagree c, hid_agree m m' hpre hagree c, h2, h4, h5, h6, h7, h8, h9, h10, h11]

theorem weights_agree : Cert.ReferenceIdeal.ReadP.val_main_v23 (F := Ideal) (ra m' c Cert.ReferenceIdeal.main_arg0) (ra m' c Cert.ReferenceIdeal.main_arg1) (ra m' c Cert.ReferenceIdeal.main_arg3) (ra m' c Cert.ReferenceIdeal.main_arg4) (ra m' c Cert.ReferenceIdeal.main_arg5) = Cert.KernelIdeal.Gen.V8 m (outs m) c Cert.KernelIdeal.main_v4_1 := by
  funext i
  obtain ⟨u, l, rfl⟩ : ∃ (u : Fin 1) (l : Fin 20), i = ix2 u l := ⟨i 0, i 1, eq_ix2 i⟩
  obtain ⟨-, -, -, -, h4, h5, -⟩ := hagree c
  rw [weights_eq]
  refine Eq.trans ?_ (res_weights m c u l).symm
  rw [emb_agree m m' hpre hagree c, hid_agree m m' hpre hagree c, h4, h5]

end Cert.Proof.Bridge

end
-- ==== Proof.lean ====
import proofs.«424062_j22247930593355_3_alg».proof.Defs
import proofs.«424062_j22247930593355_3_alg».proof.Proof.Gen.Kernel
import proofs.«424062_j22247930593355_3_alg».proof.Proof.Gen.KernelIdeal
import proofs.«424062_j22247930593355_3_alg».proof.Proof.Gen.ReferenceIdeal
import proofs.«424062_j22247930593355_3_alg».proof.Proof.Gen.Pre_finite_inputs
import proofs.«424062_j22247930593355_3_alg».proof.Proof.K.FrameW
import proofs.«424062_j22247930593355_3_alg».proof.Proof.KI.Run
import proofs.«424062_j22247930593355_3_alg».proof.Proof.KI.R2Local
import proofs.«424062_j22247930593355_3_alg».proof.Proof.Ref.RunH
import proofs.«424062_j22247930593355_3_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Frame.frameW m ρ

theorem frame_ki : Cert.frame_KernelIdeal := fun m ρ _ =>
  (θ_run Cert.KernelIdeal.defs _ _).mono (fun _ h c => (h c).2.2.2) (Cert.KernelIdeal.Frame.run_values (F := Ideal) m ρ)

/-- The reference's frame and the idealized program's are their runs with the results dropped. -/
theorem frame_ri : Cert.frame_ReferenceIdeal := fun m ρ _ =>
  (θ_run Cert.ReferenceIdeal.defs _ _).mono (fun _ h c => (h c).2.2.2) (Cert.ReferenceIdeal.RunH.run (F := Ideal) m ρ)

theorem preserves : Cert.preserves_Kernel_KernelIdeal := trivial

/-- Over the extended reals an affine map of a concatenation is the sum of the halves' affine maps and every other operation is spelt alike, so the program's three results are the reference's. -/
theorem algebraic : Cert.algebraic_KernelIdeal_ReferenceIdeal := by
  intro m ρ m' ρ' hpre hagree
  refine ⟨fun c => Cert.KernelIdeal.Gen.V8 m (Cert.KernelIdeal.Frame.outs m) c Cert.KernelIdeal.main_v9,
    fun c => Cert.KernelIdeal.Gen.V8 m (Cert.KernelIdeal.Frame.outs m) c Cert.KernelIdeal.main_v10,
    fun c => Cert.KernelIdeal.Gen.V8 m (Cert.KernelIdeal.Frame.outs m) c Cert.KernelIdeal.main_v4_1,
    Cert.KernelIdeal.Frame.run_values (F := Ideal) m ρ, ?_⟩
  refine (θ_run Cert.ReferenceIdeal.defs _ _).mono (fun _ h c =>
      ⟨(h c).1.trans (Bridge.logits_agree m m' hpre hagree c),
       (h c).2.1.trans (Bridge.hidden_agree m m' hpre hagree c),
       (h c).2.2.1.trans (Bridge.weights_agree m m' hpre hagree c),
       (h c).2.2.2⟩)
    (Cert.ReferenceIdeal.RunH.run (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
